-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S4x128x256 : Shape := ⟨3, ![4, 128, 256]⟩
abbrev S4x128 : Shape := ⟨2, ![4, 128]⟩
abbrev S10x128 : Shape := ⟨2, ![10, 128]⟩
abbrev S1x20 : Shape := ⟨2, ![1, 20]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x256 : S_.BroadcastsInDim S4x128x256 (![] : Fin 0 → Fin S4x128x256.rank)
  reducesTo_S4x128x256_S_d0_1_2 : S4x128x256.ReducesTo [0, 1, 2] S_
  bcast_S_S4x128 : S_.BroadcastsInDim S4x128 (![] : Fin 0 → Fin S4x128.rank)
  reducesTo_S4x128_S_d0_1 : S4x128.ReducesTo [0, 1] S_
  bcast_S_S10x128 : S_.BroadcastsInDim S10x128 (![] : Fin 0 → Fin S10x128.rank)
  reducesTo_S10x128_S_d0_1 : S10x128.ReducesTo [0, 1] S_
  bcast_S_S1x20 : S_.BroadcastsInDim S1x20 (![] : Fin 0 → Fin S1x20.rank)
  reducesTo_S1x20_S_d0_1 : S1x20.ReducesTo [0, 1] S_

variable [Facts]

def fn_part2 {F : FTy → Type} [FloatOps F] (main_arg10 : FVec F S1x20 .f32) (main_v33 : IVec S_ 1) : IVec S_ 1 :=
  let main_v34 : FVec F S1x20 .f32 := Host.absf main_arg10
  let main_cst_12 : FVec F S_ .f32 := constant S_ .f32 0x7F800000#32
  let main_v35 : FVec F S1x20 .f32 := broadcastInDim S1x20 ![] bcast_S_S1x20 main_cst_12
  let main_v36 : IVec S1x20 1 := cmpf .olt main_v34 main_v35
  let main_c_13 : IVec S_ 1 := constantI S_ 1 1#1
  let main_v37 : IVec S_ 1 := (fun x v => Host.reduce IntOp.andi x v reducesTo_S1x20_S_d0_1 h_S_) main_v36 main_c_13
  let main_v38 : IVec S_ 1 := andi main_v33 main_v37
  main_v38

def fn_part1 {F : FTy → Type} [FloatOps F] (main_arg7 : FVec F S4x128 .f32) (main_arg8 : FVec F S10x128 .f32) (main_arg9 : FVec F S10x128 .f32) (main_arg10 : FVec F S1x20 .f32) (main_v13 : IVec S_ 1) (main_v16 : IVec S4x128x256 1) : IVec S_ 1 :=
  let main_c_5 : IVec S_ 1 := constantI S_ 1 1#1
  let main_v17 : IVec S_ 1 := (fun x v => Host.reduce IntOp.andi x v reducesTo_S4x128x256_S_d0_1_2 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S10x128 .f32 := Host.absf main_arg8
  let main_cst_8 : FVec F S_ .f32 := constant S_ .f32 0x7F800000#32
  let main_v25 : FVec F S10x128 .f32 := broadcastInDim S10x128 ![] bcast_S_S10x128 main_cst_8
  let main_v26 : IVec S10x128 1 := cmpf .olt main_v24 main_v25
  let main_c_9 : IVec S_ 1 := constantI S_ 1 1#1
  let main_v27 : IVec S_ 1 := (fun x v => Host.reduce IntOp.andi x v reducesTo_S10x128_S_d0_1 h_S_) main_v26 main_c_9
  let main_v28 : IVec S_ 1 := andi main_v23 main_v27
  let main_v29 : FVec F S10x128 .f32 := Host.absf main_arg9
  let main_cst_10 : FVec F S_ .f32 := constant S_ .f32 0x7F800000#32
  let main_v30 : FVec F S10x128 .f32 := broadcastInDim S10x128 ![] bcast_S_S10x128 main_cst_10
  let main_v31 : IVec S10x128 1 := cmpf .olt main_v29 main_v30
  let main_c_11 : IVec S_ 1 := constantI S_ 1 1#1
  let main_v32 : IVec S_ 1 := (fun x v => Host.reduce IntOp.andi x v reducesTo_S10x128_S_d0_1 h_S_) main_v31 main_c_11
  let main_v33 : IVec S_ 1 := andi main_v28 main_v32
  fn_part2 (F := F) main_arg10 main_v33

def fn {F : FTy → Type} [FloatOps F] (main_arg0 : FVec F S50000x128 .f32) (main_arg1 : IVec S600000 32) (main_arg2 : IVec S600000 32) (main_arg3 : IVec S50000 32) (main_arg4 : FVec F S128x128 .f32) (main_arg5 : FVec F S128 .f32) (main_arg6 : FVec F S4x128x256 .f32) (main_arg7 : FVec F S4x128 .f32) (main_arg8 : FVec F S10x128 .f32) (main_arg9 : FVec F S10x128 .f32) (main_arg10 : FVec F S1x20 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x256 .f32 := Host.absf main_arg6
  let main_cst_4 : FVec F S_ .f32 := constant S_ .f32 0x7F800000#32
  let main_v15 : FVec F S4x128x256 .f32 := broadcastInDim S4x128x256 ![] bcast_S_S4x128x256 main_cst_4
  let main_v16 : IVec S4x128x256 1 := cmpf .olt main_v14 main_v15
  fn_part1 (F := F) main_arg7 main_arg8 main_arg9 main_arg10 main_v13 main_v16
-- ==== Kernel.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S4x128x256 : Shape := ⟨3, ![4, 128, 256]⟩
abbrev S4x128 : Shape := ⟨2, ![4, 128]⟩
abbrev S10x128 : Shape := ⟨2, ![10, 128]⟩
abbrev S1x20 : Shape := ⟨2, ![1, 20]⟩
abbrev S50000x1 : Shape := ⟨2, ![50000, 1]⟩
abbrev S1x128 : Shape := ⟨2, ![1, 128]⟩
abbrev S5000x128 : Shape := ⟨2, ![5000, 128]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S5000x1 : Shape := ⟨2, ![5000, 1]⟩
abbrev S5000 : Shape := ⟨1, ![5000]⟩
abbrev S20x128 : Shape := ⟨2, ![20, 128]⟩
abbrev S256x1 : Shape := ⟨2, ![256, 1]⟩
abbrev S256x128 : Shape := ⟨2, ![256, 128]⟩
abbrev S5000x256 : Shape := ⟨2, ![5000, 256]⟩
abbrev S256 : Shape := ⟨1, ![256]⟩
abbrev S20 : Shape := ⟨1, ![20]⟩
abbrev S20x1 : Shape := ⟨2, ![20, 1]⟩
abbrev S256x20 : Shape := ⟨2, ![256, 20]⟩

abbrev nBuf : Space → Nat
  | .hbm => 114
  | .vmem => 59
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S4x128x256, .f32⟩
  | .hbm, ⟨7, _⟩ => ⟨S4x128, .f32⟩
  | .hbm, ⟨8, _⟩ => ⟨S10x128, .f32⟩
  | .hbm, ⟨9, _⟩ => ⟨S10x128, .f32⟩
  | .hbm, ⟨10, _⟩ => ⟨S1x20, .f32⟩
  | .hbm, ⟨11, _⟩ => ⟨S50000x1, .i32⟩
  | .hbm, ⟨12, _⟩ => ⟨S1x128, .f32⟩
  | .hbm, ⟨13, _⟩ => ⟨S50000x128, .f32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S1x128x128, .f32⟩
  | .hbm, ⟨41, _⟩ => ⟨S128x128, .f32⟩
  | .hbm, ⟨42, _⟩ => ⟨S1x128x128, .f32⟩
  | .hbm, ⟨43, _⟩ => ⟨S128x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S1x128x128, .f32⟩
  | .hbm, ⟨62, _⟩ => ⟨S128x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S1x128x128, .f32⟩
  | .hbm, ⟨83, _⟩ => ⟨S128x128, .f32⟩
  | .hbm, ⟨84, _⟩ => ⟨S1x128x128, .f32⟩
  | .hbm, ⟨85, _⟩ => ⟨S128x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x128, .f32⟩
  | .hbm, ⟨99, _⟩ => ⟨S_, .f32⟩
  | .hbm, ⟨100, _⟩ => ⟨S50000x128, .f32⟩
  | .hbm, ⟨101, _⟩ => ⟨S600000x1, .i32⟩
  | .hbm, ⟨102, _⟩ => ⟨S50000x128, .f32⟩
  | .hbm, ⟨103, _⟩ => ⟨S1x128x128, .f32⟩
  | .hbm, ⟨104, _⟩ => ⟨S128x128, .f32⟩
  | .hbm, ⟨105, _⟩ => ⟨S1x128x128, .f32⟩
  | .hbm, ⟨106, _⟩ => ⟨S128x128, .f32⟩
  | .hbm, ⟨107, _⟩ => ⟨S1x128, .f32⟩
  | .hbm, ⟨108, _⟩ => ⟨S128, .f32⟩
  | .hbm, ⟨109, _⟩ => ⟨S1x128, .f32⟩
  | .hbm, ⟨110, _⟩ => ⟨S50000x128, .f32⟩
  | .hbm, ⟨111, _⟩ => ⟨S20x128, .f32⟩
  | .hbm, ⟨112, _⟩ => ⟨S256x1, .f32⟩
  | .hbm, ⟨113, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S128x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .i32⟩
  | .local _ .vmem, ⟨53, _⟩ => ⟨S5000x1, .i32⟩
  | .local _ .vmem, ⟨54, _⟩ => ⟨S20x128, .f32⟩
  | .local _ .vmem, ⟨55, _⟩ => ⟨S1x20, .f32⟩
  | .local _ .vmem, ⟨56, _⟩ => ⟨S256x1, .f32⟩
  | .local _ .vmem, ⟨57, _⟩ => ⟨S256x128, .f32⟩
  | .local _ .vmem, ⟨58, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_scratch0 : Ref sig .tc := ⟨.vmem, 57, rfl⟩
abbrev cc5_scratch1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_14 : BitVec 32 := 0#32
  let v27 : BitVec 1 := Scalar.cmpi .ne v26 c0_i32_14
  v27

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S20x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x20 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  slices_S4x128x256_S1x128x128_0_0_0 : S4x128x256.Slices ![0, 0, 0] S1x128x128
  shapeCasts_S1x128x128_S128x128 : S1x128x128.ShapeCasts S128x128
  slices_S4x128x256_S1x128x128_0_0_128 : S4x128x256.Slices ![0, 0, 128] S1x128x128
  slices_S4x128_S1x128_0_0 : S4x128.Slices ![0, 0] S1x128
  shapeCasts_S1x128_S128 : S1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S128x128_S128x128 : S128x128.ShapeCasts S128x128
  reduces_S5000x128_S5000 : S5000x128.Reduces [1] S5000
  shapeCasts_S5000_S5000x1 : S5000.ShapeCasts S5000x1
  slices_S4x128x256_S1x128x128_1_0_0 : S4x128x256.Slices ![1, 0, 0] S1x128x128
  slices_S4x128x256_S1x128x128_1_0_128 : S4x128x256.Slices ![1, 0, 128] S1x128x128
  slices_S4x128_S1x128_1_0 : S4x128.Slices ![1, 0] S1x128
  slices_S4x128x256_S1x128x128_2_0_0 : S4x128x256.Slices ![2, 0, 0] S1x128x128
  slices_S4x128x256_S1x128x128_2_0_128 : S4x128x256.Slices ![2, 0, 128] S1x128x128
  slices_S4x128_S1x128_2_0 : S4x128.Slices ![2, 0] S1x128
  slices_S4x128x256_S1x128x128_3_0_0 : S4x128x256.Slices ![3, 0, 0] S1x128x128
  slices_S4x128x256_S1x128x128_3_0_128 : S4x128x256.Slices ![3, 0, 128] S1x128x128
  slices_S4x128_S1x128_3_0 : S4x128.Slices ![3, 0] S1x128
  concatenates_S10x128_S10x128_S20x128_d0 : Shape.Concatenates [S10x128, S10x128] S20x128 0
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S5000x256_d1_w32 : S5000x256.Iotas .tc 32 [1]
  broadcasts_S5000x1_S5000x256 : S5000x1.Broadcasts S5000x256
  natLt_1_32 : 1 < 32
  broadcasts_S256x1_S256x128 : S256x1.Broadcasts S256x128
  inb_S20x128_S20x128_0_0 : ∀ a, (![0, 0] : Fin 2 → Nat) a + S20x128.size a ≤ S20x128.size a
  h_S20x128 : 0 < S20x128.numel
  shapeCasts_S20x128_S20x128 : S20x128.ShapeCasts S20x128
  reduces_S256x128_S256 : S256x128.Reduces [1] S256
  shapeCasts_S256_S256x1 : S256.ShapeCasts S256x1
  reduces_S20x128_S20 : S20x128.Reduces [1] S20
  shapeCasts_S20_S20x1 : S20.ShapeCasts S20x1
  transposes_S20x1_p1_0_S1x20 : S20x1.Transposes [1, 0] S1x20
  broadcasts_S256x1_S256x20 : S256x1.Broadcasts S256x20
  broadcasts_S1x20_S256x20 : S1x20.Broadcasts S256x20
  inb_S1x20_S1x20_0_0 : ∀ a, (![0, 0] : Fin 2 → Nat) a + S1x20.size a ≤ S1x20.size a
  h_S1x20 : 0 < S1x20.numel
  reduces_S256x20_S256 : S256x20.Reduces [1] S256
  shapeCasts_S256x1_S256 : S256x1.ShapeCasts S256
  dot_S5000x128_S128x128_S5000x128_1_1_0_0_n_n_wf : DotDims.WF S5000x128 S128x128 S5000x128 [1] [1] [0] [0] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x256_S5000x128_S256x128_0_0_1_1_n_n_wf : DotDims.WF S5000x256 S5000x128 S256x128 [0] [0] [1] [1] [] []
  dot_S5000x256_S5000x1_S256x1_0_0_1_1_n_n_wf : DotDims.WF S5000x256 S5000x1 S256x1 [0] [0] [1] [1] [] []
  dot_S256x128_S20x128_S256x20_1_1_0_0_n_n_wf : DotDims.WF S256x128 S20x128 S256x20 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .i32 = 32 ∨ (Rect.block (s := S50000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S20x128.size a ≤ S20x128.size a
  hwx5_2 : ∀ i : grid5.Coords, EltTy.bits .f32 = 32 ∨ (Rect.block (s := S20x128) S20x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x20.size a ≤ S1x20.size a
  hwx5_3 : ∀ i : grid5.Coords, EltTy.bits .f32 = 32 ∨ (Rect.block (s := S1x20) S1x20.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x1.size a ≤ S256x1.size a
  hwx5_4 : ∀ i : grid5.Coords, EltTy.bits .f32 = 32 ∨ (Rect.block (s := S256x1) S256x1.size (cc5_transform_4 i) (hinb5_4 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x128_S20x128_S256x20_1_1_0_0_n_n : DotDims S256x128 S20x128 S256x20 where
  lhsContracting := [1]
  rhsContracting := [1]
  lhsNonContracting := [0]
  rhsNonContracting := [0]
  lhsBatch := []
  rhsBatch := []
  wf := dot_S256x128_S20x128_S256x20_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v77) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v83) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v83) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v84) S20x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg10) S1x20.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S256x1.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S600000 : Shape := ⟨1, ![600000]⟩
abbrev S50000 : Shape := ⟨1, ![50000]⟩
abbrev S128x128 : Shape := ⟨2, ![128, 128]⟩
abbrev S128 : Shape := ⟨1, ![128]⟩
abbrev S4x128x256 : Shape := ⟨3, ![4, 128, 256]⟩
abbrev S4x128 : Shape := ⟨2, ![4, 128]⟩
abbrev S10x128 : Shape := ⟨2, ![10, 128]⟩
abbrev S1x20 : Shape := ⟨2, ![1, 20]⟩
abbrev S1x128 : Shape := ⟨2, ![1, 128]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S50000x256 : Shape := ⟨2, ![50000, 256]⟩
abbrev S1x128x256 : Shape := ⟨3, ![1, 128, 256]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S20x128 : Shape := ⟨2, ![20, 128]⟩
abbrev S256x1x128 : Shape := ⟨3, ![256, 1, 128]⟩
abbrev S1x20x128 : Shape := ⟨3, ![1, 20, 128]⟩
abbrev S256x20x128 : Shape := ⟨3, ![256, 20, 128]⟩
abbrev S256x20 : Shape := ⟨2, ![256, 20]⟩
abbrev S20x1 : Shape := ⟨2, ![20, 1]⟩

abbrev nBuf : Space → Nat
  | .hbm => 229
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S50000, .i32⟩
  | 4 => ⟨S128x128, .f32⟩
  | 5 => ⟨S128, .f32⟩
  | 6 => ⟨S4x128x256, .f32⟩
  | 7 => ⟨S4x128, .f32⟩
  | 8 => ⟨S10x128, .f32⟩
  | 9 => ⟨S10x128, .f32⟩
  | 10 => ⟨S1x20, .f32⟩
  | 11 => ⟨S128x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S50000x128, .f32⟩
  | 43 => ⟨S50000x128, .f32⟩
  | 44 => ⟨S50000x256, .f32⟩
  | 45 => ⟨S1x128x256, .f32⟩
  | 46 => ⟨S128x256, .f32⟩
  | 47 => ⟨S256x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S50000, .f32⟩
  | 57 => ⟨S50000x1, .f32⟩
  | 58 => ⟨S50000x1, .f32⟩
  | 59 => ⟨S_, .f32⟩
  | 60 => ⟨S50000x1, .f32⟩
  | 61 => ⟨S50000x1, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S_, .f32⟩
  | 78 => ⟨S50000x128, .f32⟩
  | 79 => ⟨S600000x1, .i32⟩
  | 80 => ⟨S50000x128, .f32⟩
  | 81 => ⟨S50000x128, .f32⟩
  | 82 => ⟨S50000x128, .f32⟩
  | 83 => ⟨S50000x256, .f32⟩
  | 84 => ⟨S1x128x256, .f32⟩
  | 85 => ⟨S128x256, .f32⟩
  | 86 => ⟨S256x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S50000x128, .f32⟩
  | 121 => ⟨S50000x128, .f32⟩
  | 122 => ⟨S50000x256, .f32⟩
  | 123 => ⟨S1x128x256, .f32⟩
  | 124 => ⟨S128x256, .f32⟩
  | 125 => ⟨S256x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S50000x128, .f32⟩
  | 5 => ⟨S_, .f32⟩
  | 6 => ⟨S50000, .f32⟩
  | 7 => ⟨S50000x1, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .f32⟩
  | 28 => ⟨S50000x128, .f32⟩
  | 29 => ⟨S600000x1, .i32⟩
  | 30 => ⟨S50000x128, .f32⟩
  | 31 => ⟨S50000x128, .f32⟩
  | 32 => ⟨S50000x128, .f32⟩
  | 33 => ⟨S50000x256, .f32⟩
  | 34 => ⟨S1x128x256, .f32⟩
  | 35 => ⟨S128x256, .f32⟩
  | 36 => ⟨S256x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S50000x128, .f32⟩
  | 44 => ⟨S_, .f32⟩
  | 45 => ⟨S50000, .f32⟩
  | 46 => ⟨S50000x1, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S_, .f32⟩
  | 58 => ⟨S50000, .f32⟩
  | 59 => ⟨S_, .f32⟩
  | 60 => ⟨S256, .f32⟩
  | 61 => ⟨S50000x1, .i32⟩
  | 62 => ⟨S256, .f32⟩
  | 63 => ⟨S_, .f32⟩
  | 64 => ⟨S256x128, .f32⟩
  | 65 => ⟨S50000x1, .i32⟩
  | 66 => ⟨S256x128, .f32⟩
  | 67 => ⟨S_, .f32⟩
  | 68 => ⟨S256, .f32⟩
  | 69 => ⟨S256, .f32⟩
  | 70 => ⟨S256x1, .f32⟩
  | 71 => ⟨S256x128, .f32⟩
  | 72 => ⟨S256x128, .f32⟩
  | 73 => ⟨S20x128, .f32⟩
  | 74 => ⟨S256x1x128, .f32⟩
  | 75 => ⟨S1x20x128, .f32⟩
  | 76 => ⟨S256x20x128, .f32⟩
  | 77 => ⟨S256x20x128, .f32⟩
  | 78 => ⟨S256x20x128, .f32⟩
  | 79 => ⟨S256x20x128, .f32⟩
  | 80 => ⟨S_, .f32⟩
  | 81 => ⟨S256x20, .f32⟩
  | 82 => ⟨S_, .f32⟩
  | 83 => ⟨S256x20, .f32⟩
  | 84 => ⟨S256x20, .f32⟩
  | 85 => ⟨S_, .f32⟩
  | 86 => ⟨S256x20, .f32⟩
  | 87 => ⟨S256x20, .f32⟩
  | 88 => ⟨S256x20, .f32⟩
  | 89 => ⟨S256x20, .f32⟩
  | 90 => ⟨S20x1, .f32⟩
  | 91 => ⟨S256x1, .f32⟩
  | 92 => ⟨S256x1, .f32⟩
  | 93 => ⟨S256x1, .f32⟩
  | 94 => ⟨S_, .f32⟩
  | 95 => ⟨S256x1, .f32⟩
  | 96 => ⟨S256x1, .f32⟩
  | 97 => ⟨S_, .f32⟩
  | 98 => ⟨S256x1, .f32⟩
  | 99 => ⟨S256x1, .f32⟩
  | 100 => ⟨S256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call0_v0 : Ref sig .tc := ⟨.hbm, 54, rfl⟩
abbrev main_call0_cst : Ref sig .tc := ⟨.hbm, 55, rfl⟩
abbrev main_call0_v1 : Ref sig .tc := ⟨.hbm, 56, rfl⟩
abbrev main_call0_v2 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call1_cst : Ref sig .tc := ⟨.hbm, 64, rfl⟩
abbrev main_call1_v0 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_v0 : Ref sig .tc := ⟨.hbm, 93, rfl⟩
abbrev main_call2_cst : Ref sig .tc := ⟨.hbm, 94, rfl⟩
abbrev main_call2_v1 : Ref sig .tc := ⟨.hbm, 95, rfl⟩
abbrev main_call2_v2 : Ref sig .tc := ⟨.hbm, 96, rfl⟩
abbrev main_v65 : Ref sig .tc := ⟨.hbm, 97, rfl⟩
abbrev main_cst_9 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call3_cst : Ref sig .tc := ⟨.hbm, 103, rfl⟩
abbrev main_call3_v0 : Ref sig .tc := ⟨.hbm, 104, rfl⟩
abbrev main_v70 : Ref sig .tc := ⟨.hbm, 105, rfl⟩
abbrev main_v71 : Ref sig .tc := ⟨.hbm, 106, rfl⟩
abbrev main_c_10 : Ref sig .tc := ⟨.hbm, 107, rfl⟩
abbrev main_v72 : Ref sig .tc := ⟨.hbm, 108, rfl⟩
abbrev main_v73 : Ref sig .tc := ⟨.hbm, 109, rfl⟩
abbrev main_c_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_12 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_call4_v0 : Ref sig .tc := ⟨.hbm, 132, rfl⟩
abbrev main_call4_cst : Ref sig .tc := ⟨.hbm, 133, rfl⟩
abbrev main_call4_v1 : Ref sig .tc := ⟨.hbm, 134, rfl⟩
abbrev main_call4_v2 : Ref sig .tc := ⟨.hbm, 135, rfl⟩
abbrev main_v94 : Ref sig .tc := ⟨.hbm, 136, rfl⟩
abbrev main_cst_13 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_call5_cst : Ref sig .tc := ⟨.hbm, 142, rfl⟩
abbrev main_call5_v0 : Ref sig .tc := ⟨.hbm, 143, rfl⟩
abbrev main_v99 : Ref sig .tc := ⟨.hbm, 144, rfl⟩
abbrev main_v100 : Ref sig .tc := ⟨.hbm, 145, rfl⟩
abbrev main_c_14 : Ref sig .tc := ⟨.hbm, 146, rfl⟩
abbrev main_v101 : Ref sig .tc := ⟨.hbm, 147, rfl⟩
abbrev main_v102 : Ref sig .tc := ⟨.hbm, 148, rfl⟩
abbrev main_c_15 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_16 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call6_v0 : Ref sig .tc := ⟨.hbm, 171, rfl⟩
abbrev main_call6_cst : Ref sig .tc := ⟨.hbm, 172, rfl⟩
abbrev main_call6_v1 : Ref sig .tc := ⟨.hbm, 173, rfl⟩
abbrev main_call6_v2 : Ref sig .tc := ⟨.hbm, 174, rfl⟩
abbrev main_v123 : Ref sig .tc := ⟨.hbm, 175, rfl⟩
abbrev main_cst_17 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_call7_cst : Ref sig .tc := ⟨.hbm, 181, rfl⟩
abbrev main_call7_v0 : Ref sig .tc := ⟨.hbm, 182, rfl⟩
abbrev main_v128 : Ref sig .tc := ⟨.hbm, 183, rfl⟩
abbrev main_v129 : Ref sig .tc := ⟨.hbm, 184, rfl⟩
abbrev main_cst_18 : Ref sig .tc := ⟨.hbm, 185, rfl⟩
abbrev main_v130 : Ref sig .tc := ⟨.hbm, 186, rfl⟩
abbrev main_cst_19 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_20 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_21 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_22 : Ref sig .tc := ⟨.hbm, 208, rfl⟩
abbrev main_v149 : Ref sig .tc := ⟨.hbm, 209, rfl⟩
abbrev main_cst_23 : Ref sig .tc := ⟨.hbm, 210, rfl⟩
abbrev main_v150 : Ref sig .tc := ⟨.hbm, 211, rfl⟩
abbrev main_v151 : Ref sig .tc := ⟨.hbm, 212, rfl⟩
abbrev main_cst_24 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_25 : Ref sig .tc := ⟨.hbm, 222, rfl⟩
abbrev main_v160 : Ref sig .tc := ⟨.hbm, 223, rfl⟩
abbrev main_v161 : Ref sig .tc := ⟨.hbm, 224, rfl⟩
abbrev main_cst_26 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  slices_S4x128x256_S1x128x256_0_0_0 : S4x128x256.Slices ![0, 0, 0] S1x128x256
  shapeCasts_S1x128x256_S128x256 : S1x128x256.ShapeCasts S128x256
  transposes_S128x256_S256x128_1_0 : S128x256.Transposes [1, 0] S256x128
  slices_S4x128_S1x128_0_0 : S4x128.Slices ![0, 0] S1x128
  shapeCasts_S1x128_S128 : S1x128.ShapeCasts S128
  reducesTo_S50000x128_S50000_d1 : S50000x128.ReducesTo [1] S50000
  h_S_ : 0 < S_.numel
  bcast_S_S50000x1 : S_.BroadcastsInDim S50000x1 (![] : Fin 0 → Fin S50000x1.rank)
  slices_S4x128x256_S1x128x256_1_0_0 : S4x128x256.Slices ![1, 0, 0] S1x128x256
  slices_S4x128_S1x128_1_0 : S4x128.Slices ![1, 0] S1x128
  slices_S4x128x256_S1x128x256_2_0_0 : S4x128x256.Slices ![2, 0, 0] S1x128x256
  slices_S4x128_S1x128_2_0 : S4x128.Slices ![2, 0] S1x128
  slices_S4x128x256_S1x128x256_3_0_0 : S4x128x256.Slices ![3, 0, 0] S1x128x256
  slices_S4x128_S1x128_3_0 : S4x128.Slices ![3, 0] S1x128
  bcast_S_S256 : S_.BroadcastsInDim S256 (![] : Fin 0 → Fin S256.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  concatenates_S10x128_S10x128_S20x128_d0 : Shape.Concatenates [S10x128, S10x128] S20x128 0
  bcast_S256x128_S256x1x128_0_2 : S256x128.BroadcastsInDim S256x1x128 (![0, 2] : Fin 2 → Fin S256x1x128.rank)
  bcast_S20x128_S1x20x128_1_2 : S20x128.BroadcastsInDim S1x20x128 (![1, 2] : Fin 2 → Fin S1x20x128.rank)
  bcast_S256x1x128_S256x20x128_0_1_2 : S256x1x128.BroadcastsInDim S256x20x128 (![0, 1, 2] : Fin 3 → Fin S256x20x128.rank)
  bcast_S1x20x128_S256x20x128_0_1_2 : S1x20x128.BroadcastsInDim S256x20x128 (![0, 1, 2] : Fin 3 → Fin S256x20x128.rank)
  reducesTo_S256x20x128_S256x20_d2 : S256x20x128.ReducesTo [2] S256x20
  bcast_S_S256x20 : S_.BroadcastsInDim S256x20 (![] : Fin 0 → Fin S256x20.rank)
  transposes_S1x20_S20x1_1_0 : S1x20.Transposes [1, 0] S20x1
  bcast_S_S256x1 : S_.BroadcastsInDim S256x1 (![] : Fin 0 → Fin S256x1.rank)
  shapeCasts_S256x1_S256 : S256x1.ShapeCasts S256
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  scatter_S256_S50000x1_S50000_n_0_0_1_wf : ScatterDims.WF S256 S50000x1 S50000 [] [0] [0] 1
  scatter_S256x128_S50000x1_S50000x128_1_0_0_1_wf : ScatterDims.WF S256x128 S50000x1 S50000x128 [1] [0] [0] 1
  dot_S256x20_S20x1_S256x1_1_0_0_1_n_n_wf : DotDims.WF S256x20 S20x1 S256x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x20_S20x1_S256x1_1_0_0_1_n_n : DotDims S256x20 S20x1 S256x1 where
  lhsContracting := [1]
  rhsContracting := [0]
  lhsNonContracting := [0]
  rhsNonContracting := [1]
  lhsBatch := []
  rhsBatch := []
  wf := dot_S256x20_S20x1_S256x1_1_0_0_1_n_n_wf

class Facts : Prop extends Facts₀ where

variable [Facts]
-- ==== Proof.K.R0.lean ====
import proofs.«422288_j69166153335416_3_alg».proof.Proof.Gen.Kernel.Launch
import proofs.«422288_j69166153335416_3_alg».proof.Proof.Gen.Kernel.Skeleton
import proofs.«422288_j69166153335416_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_embed_kernel i arg1 harg1 arg2 harg2 arg3 harg3 arg4 harg4) K := by
  simp only [cc0_embed_kernel_eq_skeleton]; unfold cc0_embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«422288_j69166153335416_3_alg».proof.Proof.Gen.Kernel.Launch
import proofs.«422288_j69166153335416_3_alg».proof.Proof.Gen.Kernel.Skeleton
import proofs.«422288_j69166153335416_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

def out1_6 (xa : Vec F S5000x128 .f32) (xb : Vec F S5000x128 .f32) (xc : Vec F S5000x1 .f32) (xd : Vec F S128x128 .f32)
    (xe : Vec F S128x128 .f32) (xf : Vec F S1x128 .f32) : Vec F S5000x128 .f32 :=
  View.canon [⟨r1_0, k1_pay1 (View.ld xa r1_0) (View.ld xb r1_0) (View.ld xc r1_1) (View.ld xd r1_2) (View.ld xe r1_2) (View.ld xf r1_3)⟩]

theorem cover1_6 (pa : Vec F S5000x128 .f32) (y : S5000x128.Idx) :
    ∃ pc ∈ ([⟨r1_0, pa⟩] : List (View.Piece (Elt F) S5000x128 .f32)), y ∈ pc.1.set :=
  View.cover_of_tiled [⟨r1_0, pa⟩] S5000x128.size (by rfl) y

set_option maxHeartbeats 1000000 in

theorem sound_kernel1 (c : Dev nD) (E : Set ℕ) (i : grid1.Coords) (arg0 : Memref sig .tc .vmem S5000x128 .f32) (harg0 : arg0.IsWhole) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (xa : Vec F S5000x128 .f32) (xb : Vec F S5000x128 .f32) (xc : Vec F S5000x1 .f32) (xd : Vec F S128x128 .f32) (xe : Vec F S128x128 .f32) (xf : Vec F S1x128 .f32) (K : PUnit → sProp 𝕄) :
    iprop(owns (c : Thread nD τ) arg0 fullShare xa ∗ owns (c : Thread nD τ) arg1 fullShare xb ∗ owns (c : Thread nD τ) arg2 fullShare xc ∗ owns (c : Thread nD τ) arg3 fullShare xd ∗ owns (c : Thread nD τ) arg4 fullShare xe ∗ owns (c : Thread nD τ) arg5 fullShare xf ∗ (∃ d, owns (c : Thread nD τ) arg6 fullShare d)
        ∗ (iprop(owns (c : Thread nD τ) arg0 fullShare xa ∗ owns (c : Thread nD τ) arg1 fullShare xb ∗ owns (c : Thread nD τ) arg2 fullShare xc ∗ owns (c : Thread nD τ) arg3 fullShare xd ∗ owns (c : Thread nD τ) arg4 fullShare xe ∗ owns (c : Thread nD τ) arg5 fullShare xf ∗ owns (c : Thread nD τ) arg6 fullShare (out1_6 xa xb xc xd xe xf)) -∗ K ⟨⟩))
      ⊢ wp frame (wpE (defs₀ (F := F)) Variants.none c none) E (cc1_layer_kernel i arg0 harg0 arg1 harg1 arg2 harg2 arg3 harg3 arg4 harg4 arg5 harg5 arg6 harg6) K := by
  simp only [cc1_layer_kernel_eq_skeleton]; unfold cc1_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«422288_j69166153335416_3_alg».proof.Proof.Gen.Kernel.Launch
import proofs.«422288_j69166153335416_3_alg».proof.Proof.Gen.Kernel.Skeleton
import proofs.«422288_j69166153335416_3_alg».proof.Proof.Gen.Kernel.Points
import proofs.«422288_j69166153335416_3_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out1_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem cc2_eq : cc2_layer_kernel (F := F) = cc1_layer_kernel (F := F) := rfl

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«422288_j69166153335416_3_alg».proof.Proof.Gen.Kernel.Launch
import proofs.«422288_j69166153335416_3_alg».proof.Proof.Gen.Kernel.Skeleton
import proofs.«422288_j69166153335416_3_alg».proof.Proof.Gen.Kernel.Points
import proofs.«422288_j69166153335416_3_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out1_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem cc3_eq : cc3_layer_kernel (F := F) = cc1_layer_kernel (F := F) := rfl

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1, before3_2, before3_3, before3_4, before3_5]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«422288_j69166153335416_3_alg».proof.Proof.Gen.Kernel.Launch
import proofs.«422288_j69166153335416_3_alg».proof.Proof.Gen.Kernel.Skeleton
import proofs.«422288_j69166153335416_3_alg».proof.Proof.Gen.Kernel.Points
import proofs.«422288_j69166153335416_3_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out1_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem cc4_eq : cc4_layer_kernel (F := F) = cc1_layer_kernel (F := F) := rfl

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«422288_j69166153335416_3_alg».proof.Proof.Gen.Kernel.Launch
import proofs.«422288_j69166153335416_3_alg».proof.Proof.Gen.Kernel.Skeleton
import proofs.«422288_j69166153335416_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5_0 : Memref sig .tc .vmem S256x128 .f32 := Memref.whole cc5_scratch0
abbrev scM5_1 : Memref sig .tc .vmem S256x1 .f32 := Memref.whole cc5_scratch1

def acc5 (c : Dev nD) : (n : ℕ) → n < cfg5.N → Vec F S256x128 .f32 × Vec F S256x1 .f32
  | 0, hn => (k5_pay4 (iblk5 V c 0 ⟨0, hn⟩) (iblk5 V c 1 ⟨0, hn⟩) k5_pay1, k5_pay5 (iblk5 V c 1 ⟨0, hn⟩) k5_pay2)
  | n + 1, hn => (k5_pay4 (iblk5 V c 0 ⟨n + 1, hn⟩) (iblk5 V c 1 ⟨n + 1, hn⟩) (acc5 c n (Nat.lt_of_succ_lt hn)).1, k5_pay5 (iblk5 V c 1 ⟨n + 1, hn⟩) (acc5 c n (Nat.lt_of_succ_lt hn)).2)

def out5_4 (c : Dev nD) (t : Fin cfg5.N) : Vec F S256x1 .f32 :=
  k5_pay6 (acc5 V c t.val t.isLt).1 (acc5 V c t.val t.isLt).2 (iblk5 V c 2 t) (iblk5 V c 3 t)

def Phi5 (c : Dev nD) : (n : ℕ) → n ≤ cfg5.N → sProp 𝕄
  | 0, _ => Pipeline.ΦA spec5 c
  | n + 1, hn => iprop(owns (c : Thread nD τ) scM5_0 fullShare (acc5 V c n hn).1 ∗ owns (c : Thread nD τ) scM5_1 fullShare (acc5 V c n hn).2
      ∗ Pipeline.scopedRestBut (Ix := Unit) (Name := ℕ) (U := UR sig nD τ) (Lvl := ℕ) (Val := Elt F) spec5 c [cc5_scratch0, cc5_scratch1] ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 V c t
  Φ t := Phi5 V c t.val (Nat.le_of_lt_succ t.isLt)
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 V c t := by dsimp only [dat5]

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1

theorem hcond5_1 : ∀ t : Fin cfg5.N, cond5_1 (grid5.coords t) ↔ t.val = 9 :=
  (by decide +kernel : ∀ t : Fin grid5.N, cond5_1 (grid5.coords t) ↔ t.val = 9)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel

theorem liveAt5_4 : ∀ t : Fin cfg5.N, cond5_1 (grid5.coords t) → cfg5.idle 4 (grid5.coords t) = false := by decide +kernel

abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S20x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x20 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S256x1 .f32 := win5_4.stage (cfg5.slots t 4)
abbrev hs5_4 (t : Fin cfg5.N) : (ms5_4 t).IsWhole := hstage5_4 ((cfg5.slots t 4).cast nbuf5_4)

theorem hz2 : (![0, 0] : Fin 2 → Nat) = fun _ => 0 := funext fun a => by fin_cases a <;> rfl

set_option maxHeartbeats 4000000 in

theorem run5_A (c : Dev nD) (i : grid5.Coords)
    (arg1 : Memref sig .tc .vmem S5000x128 .f32) (harg1 : arg1.IsWhole) (arg2 : Memref sig .tc .vmem S5000x1 .i32) (harg2 : arg2.IsWhole)
    (arg3 : Memref sig .tc .vmem S20x128 .f32) (harg3 : arg3.IsWhole) (arg4 : Memref sig .tc .vmem S1x20 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)
    (hc0 : cond5_0 i) (hc1 : ¬cond5_1 i)
    (x0 : Vec F S5000x128 .f32) (x1 : Vec F S5000x1 .i32) (x2 : Vec F S20x128 .f32) (x3 : Vec F S1x20 .f32) (xi4 : Vec F S256x1 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare xi4
          ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare xi4
              ∗ owns (c : Thread nD τ) arg6 fullShare (k5_pay4 x0 x1 k5_pay1) ∗ owns (c : Thread nD τ) arg7 fullShare (k5_pay5 x1 k5_pay2)) -∗ K ⟨⟩))
      ⊢ wp frame (wpE (defs₀ (F := F)) Variants.none c none) E (cc5_pool_proto_kernel i arg1 harg1 arg2 harg2 arg3 harg3 arg4 harg4 arg5 harg5 arg6 harg6 arg7 harg7) K := by
  simp only [cc5_pool_proto_kernel_eq_skeleton]; unfold cc5_pool_proto_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    refine (View.read_writes_eq_canon _ _ _ (fun y => ⟨_, List.mem_cons.mpr (Or.inl rfl), View.mem_set_unit_zero hz2 inb_S256x128_S256x128_0_0 y⟩)).trans ?_
    sl_unfold_words
    rw [View.canon_cons_unit_zero (S := S256x128) hz2, View.readCov_unit_zero (S := S256x128) _ hz2]
    simp only [View.readAt_eq_ld, harg1.read_unread, harg2.read_unread, View.ld_unit_zero (S := S5000x128) hz2, View.ld_unit_zero (S := S5000x1) hz2]
  · iexists _; isplitr; swap; · iexact HS1
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2, View.readCov_unit_zero (S := S256x1) _ hz2]
    simp only [View.readAt_eq_ld, harg2.read_unread, View.ld_unit_zero (S := S5000x1) hz2]

set_option maxHeartbeats 4000000 in

theorem run5_B (c : Dev nD) (i : grid5.Coords)
    (arg1 : Memref sig .tc .vmem S5000x128 .f32) (harg1 : arg1.IsWhole) (arg2 : Memref sig .tc .vmem S5000x1 .i32) (harg2 : arg2.IsWhole)
    (arg3 : Memref sig .tc .vmem S20x128 .f32) (harg3 : arg3.IsWhole) (arg4 : Memref sig .tc .vmem S1x20 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)
    (hc0 : ¬cond5_0 i) (hc1 : ¬cond5_1 i)
    (x0 : Vec F S5000x128 .f32) (x1 : Vec F S5000x1 .i32) (x2 : Vec F S20x128 .f32) (x3 : Vec F S1x20 .f32) (xi4 : Vec F S256x1 .f32)
    (xs0 : Vec F S256x128 .f32) (xs1 : Vec F S256x1 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare xi4
          ∗ owns (c : Thread nD τ) arg6 fullShare xs0 ∗ owns (c : Thread nD τ) arg7 fullShare xs1
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare xi4
              ∗ owns (c : Thread nD τ) arg6 fullShare (k5_pay4 x0 x1 xs0) ∗ owns (c : Thread nD τ) arg7 fullShare (k5_pay5 x1 xs1)) -∗ K ⟨⟩))
      ⊢ wp frame (wpE (defs₀ (F := F)) Variants.none c none) E (cc5_pool_proto_kernel i arg1 harg1 arg2 harg2 arg3 harg3 arg4 harg4 arg5 harg5 arg6 harg6 arg7 harg7) K := by
  simp only [cc5_pool_proto_kernel_eq_skeleton]; unfold cc5_pool_proto_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    refine (View.read_writes_eq_canon _ _ _ (fun y => ⟨_, List.mem_cons.mpr (Or.inl rfl), View.mem_set_unit_zero hz2 inb_S256x128_S256x128_0_0 y⟩)).trans ?_
    sl_unfold_words
    rw [View.canon_cons_unit_zero (S := S256x128) hz2]
    simp only [View.readAt_eq_ld, harg1.read_unread, harg2.read_unread, harg6.read_unread, View.ld_unit_zero (S := S5000x128) hz2, View.ld_unit_zero (S := S5000x1) hz2, View.ld_unit_zero (S := S256x128) hz2]
  · iexists _; isplitr; swap; · iexact HS1
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2]
    simp only [View.readAt_eq_ld, harg2.read_unread, harg7.read_unread, View.ld_unit_zero (S := S5000x1) hz2, View.ld_unit_zero (S := S256x1) hz2]

set_option maxHeartbeats 4000000 in

theorem run5_C (c : Dev nD) (i : grid5.Coords)
    (arg1 : Memref sig .tc .vmem S5000x128 .f32) (harg1 : arg1.IsWhole) (arg2 : Memref sig .tc .vmem S5000x1 .i32) (harg2 : arg2.IsWhole)
    (arg3 : Memref sig .tc .vmem S20x128 .f32) (harg3 : arg3.IsWhole) (arg4 : Memref sig .tc .vmem S1x20 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)
    (hc0 : ¬cond5_0 i) (hc1 : cond5_1 i)
    (x0 : Vec F S5000x128 .f32) (x1 : Vec F S5000x1 .i32) (x2 : Vec F S20x128 .f32) (x3 : Vec F S1x20 .f32)
    (xs0 : Vec F S256x128 .f32) (xs1 : Vec F S256x1 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ (∃ d, owns (c : Thread nD τ) arg5 fullShare d)
          ∗ owns (c : Thread nD τ) arg6 fullShare xs0 ∗ owns (c : Thread nD τ) arg7 fullShare xs1
          ∗ (iprop(owns (c : Thread nD τ) arg1 fullShare x0 ∗ owns (c : Thread nD τ) arg2 fullShare x1 ∗ owns (c : Thread nD τ) arg3 fullShare x2
              ∗ owns (c : Thread nD τ) arg4 fullShare x3
              ∗ owns (c : Thread nD τ) arg5 fullShare (k5_pay6 (k5_pay4 x0 x1 xs0) (k5_pay5 x1 xs1) x2 x3)
              ∗ owns (c : Thread nD τ) arg6 fullShare (k5_pay4 x0 x1 xs0) ∗ owns (c : Thread nD τ) arg7 fullShare (k5_pay5 x1 xs1)) -∗ K ⟨⟩))
      ⊢ wp frame (wpE (defs₀ (F := F)) Variants.none c none) E (cc5_pool_proto_kernel i arg1 harg1 arg2 harg2 arg3 harg3 arg4 harg4 arg5 harg5 arg6 harg6 arg7 harg7) K := by
  simp only [cc5_pool_proto_kernel_eq_skeleton]; unfold cc5_pool_proto_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2]
    simp only [View.readAt_eq_ld, harg1.read_unread, harg2.read_unread, harg3.read_unread, harg4.read_unread, harg6.read_unread, harg7.read_unread,
      View.readCov_unit_zero (S := S256x128) _ hz2, View.readCov_unit_zero (S := S256x1) _ hz2,
      View.ld_unit_zero (S := S5000x128) hz2, View.ld_unit_zero (S := S5000x1) hz2, View.ld_unit_zero (S := S256x128) hz2, View.ld_unit_zero (S := S256x1) hz2,
      View.ld_unit_zero (S := S20x128) hz2, View.ld_unit_zero (S := S1x20) hz2]
  isplitl [HS0]
  · iexists _; isplitr; swap; · iexact HS0
    ipureintro
    refine (View.read_writes_eq_canon _ _ _ (fun y => ⟨_, List.mem_cons.mpr (Or.inl rfl), View.mem_set_unit_zero hz2 inb_S256x128_S256x128_0_0 y⟩)).trans ?_
    sl_unfold_words
    rw [View.canon_cons_unit_zero (S := S256x128) hz2]
    simp only [View.readAt_eq_ld, harg1.read_unread, harg2.read_unread, harg6.read_unread, View.ld_unit_zero (S := S5000x128) hz2, View.ld_unit_zero (S := S5000x1) hz2, View.ld_unit_zero (S := S256x128) hz2]
  · iexists _; isplitr; swap; · iexact HS1
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2]
    simp only [View.readAt_eq_ld, harg2.read_unread, harg7.read_unread, View.ld_unit_zero (S := S5000x1) hz2, View.ld_unit_zero (S := S256x1) hz2]

theorem acc5_first_1 (c : Dev nD) (t : Fin cfg5.N) (h0 : t.val = 0) :
    (acc5 V c t.val t.isLt).1 = k5_pay4 (iblk5 V c 0 t) (iblk5 V c 1 t) k5_pay1 := by
  obtain ⟨n, hn⟩ := t
  cases n with
  | zero => rfl
  | succ n => exact absurd h0 (Nat.succ_ne_zero n)

theorem acc5_first_2 (c : Dev nD) (t : Fin cfg5.N) (h0 : t.val = 0) :
    (acc5 V c t.val t.isLt).2 = k5_pay5 (iblk5 V c 1 t) k5_pay2 := by
  obtain ⟨n, hn⟩ := t
  cases n with
  | zero => rfl
  | succ n => exact absurd h0 (Nat.succ_ne_zero n)

theorem acc5_later_1 (c : Dev nD) (t : Fin cfg5.N) (h0 : t.val ≠ 0) :
    (acc5 V c t.val t.isLt).1 = k5_pay4 (iblk5 V c 0 t) (iblk5 V c 1 t) (acc5 V c (t.val - 1) (Nat.lt_of_le_of_lt (Nat.sub_le _ _) t.isLt)).1 := by
  obtain ⟨n, hn⟩ := t
  cases n with
  | zero => exact absurd rfl h0
  | succ n => rfl

theorem acc5_later_2 (c : Dev nD) (t : Fin cfg5.N) (h0 : t.val ≠ 0) :
    (acc5 V c t.val t.isLt).2 = k5_pay5 (iblk5 V c 1 t) (acc5 V c (t.val - 1) (Nat.lt_of_le_of_lt (Nat.sub_le _ _) t.isLt)).2 := by
  obtain ⟨n, hn⟩ := t
  cases n with
  | zero => exact absurd rfl h0
  | succ n => rfl

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(owns (c : Thread nD τ) scM5_0 fullShare (acc5 V c n hn).1 ∗ owns (c : Thread nD τ) scM5_1 fullShare (acc5 V c n hn).2
      ∗ Pipeline.scopedRestBut (Ix := Unit) (Name := ℕ) (U := UR sig nD τ) (Lvl := ℕ) (Val := Elt F) spec5 c [cc5_scratch0, cc5_scratch1] ∗ (∃ r, prngReg c r)) := rfl

theorem Phi5_pos (c : Dev nD) (n : ℕ) (h : n ≤ cfg5.N) (hz : n ≠ 0) :
    Phi5 V c n h = iprop(owns (c : Thread nD τ) scM5_0 fullShare (acc5 V c (n - 1) (by omega)).1 ∗ owns (c : Thread nD τ) scM5_1 fullShare (acc5 V c (n - 1) (by omega)).2
      ∗ Pipeline.scopedRestBut (Ix := Unit) (Name := ℕ) (U := UR sig nD τ) (Lvl := ℕ) (Val := Elt F) spec5 c [cc5_scratch0, cc5_scratch1] ∗ (∃ r, prngReg c r)) := by
  cases n with
  | zero => exact absurd rfl hz
  | succ n => rfl

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

theorem Phi5_castSucc (c : Dev nD) (t : Fin cfg5.N) :
    (dat5 V c).Φ t.castSucc = Phi5 V c t.val (Nat.le_of_lt t.isLt) := by
  dsimp only [dat5]; simp only [Fin.coe_castSucc]

theorem hin5 (c : Dev nD) : Pipeline.ΦA spec5 c ⊢ (dat5 V c).Φ 0 := by
  rw [show (dat5 V c).Φ 0 = Phi5 V c 0 (Nat.zero_le _) from rfl, Phi5_zero V c 0 _ rfl]
  try exact Idealize.SL.BI.Entails.refl _

theorem Phi5_out (c : Dev nD) (t : Fin (cfg5.N + 1)) (ht : t.val ≠ 0) : (dat5 V c).Φ t ⊢ Pipeline.ΦA spec5 c := by
  rw [show (dat5 V c).Φ t = Phi5 V c t.val (Nat.le_of_lt_succ t.isLt) from rfl, Phi5_pos V c _ _ ht, PhiA5_eq]
  iintro ⟨HS0, HS1, HR, Hg⟩
  isplitl [HS0 HS1 HR]
  · isplitl [HS0 HS1]
    · isplitl [HS0]
      · iexists _; iexact HS0
      · iexists _; iexact HS1
    · iexact HR
  · iexact Hg

theorem hout5 (c : Dev nD) : (dat5 V c).Φ (Fin.last cfg5.N) ⊢ Pipeline.ΦA spec5 c :=
  Phi5_out V c _ (by rw [Fin.val_last]; have : cfg5.N = 10 := N_5; omega)

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

theorem leaves5_0 (c : Dev nD) (t : Fin cfg5.N) : (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) : (dat5 V c).leavesExact 1 t = owns (c : Thread nD τ) (ms5_1 t) fullShare (iblk5 V c 1 t) := by
  unfold Dat.leavesExact; rw [liveAt5_1 t, after5_1]
theorem leaves5_2 (c : Dev nD) (t : Fin cfg5.N) : (dat5 V c).leavesExact 2 t = owns (c : Thread nD τ) (ms5_2 t) fullShare (iblk5 V c 2 t) := by
  unfold Dat.leavesExact; rw [liveAt5_2 t, after5_2]
theorem leaves5_3 (c : Dev nD) (t : Fin cfg5.N) : (dat5 V c).leavesExact 3 t = owns (c : Thread nD τ) (ms5_3 t) fullShare (iblk5 V c 3 t) := by
  unfold Dat.leavesExact; rw [liveAt5_3 t, after5_3]

theorem leaves5_4_last (c : Dev nD) (t : Fin cfg5.N) (h : cond5_1 (grid5.coords t)) :
    (dat5 V c).leavesExact 4 t = owns (c : Thread nD τ) (ms5_4 t) fullShare (out5_4 V c t) := by
  unfold Dat.leavesExact; rw [liveAt5_4 t h, after5_4]

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Phi5 V c (t.val + 1) t.isLt from rfl, Phi5_succ]
  rw [leaves5_0, leaves5_1, leaves5_2, leaves5_3]
  have hN : t.val < 10 := lt_of_lt_of_eq t.isLt (show cfg5.N = 10 from N_5)
  by_cases h0 : t.val = 0
  · have hc0 : cond5_0 (grid5.coords t) := (hcond5_0 t).mpr h0
    have hc1 : ¬cond5_1 (grid5.coords t) := fun h => by have := (hcond5_1 t).mp h; omega
    rw [Dat.leavesExact_idle (dat5 V c) 4 t (idleAt5_4 t hc1) (noFlush5_4 t hc1)]
    rw [acc5_first_1 V c t h0, acc5_first_2 V c t h0]
    rw [Phi5_castSucc V c t, Phi5_zero V c _ _ h0, PhiA5_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run5_A c (grid5.coords t) (ms5_0 t) (hs5_0 t) (ms5_1 t) (hs5_1 t) (ms5_2 t) (hs5_2 t) (ms5_3 t) (hs5_3 t) (ms5_4 t) (hs5_4 t)
      scM5_0 (Memref.isWhole_whole _) scM5_1 (Memref.isWhole_whole _) hc0 hc1
      (iblk5 V c 0 t) (iblk5 V c 1 t) (iblk5 V c 2 t) (iblk5 V c 3 t) ((dat5 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond5_0 (grid5.coords t) := fun h => h0 ((hcond5_0 t).mp h)
    rw [acc5_later_1 V c t h0, acc5_later_2 V c t h0]
    rw [Phi5_castSucc V c t, Phi5_pos V c _ _ h0]
    by_cases h9 : t.val = 9
    · have hc1 : cond5_1 (grid5.coords t) := (hcond5_1 t).mpr h9
      rw [leaves5_4_last V c t hc1]
      unfold out5_4
      rw [acc5_later_1 V c t h0, acc5_later_2 V c t h0]
      iintro ⟨⟨HS0, HS1, HR, Hg⟩, Ho, ⟨%d0, H0⟩, ⟨%d1, H1⟩, ⟨%d2, H2⟩, ⟨%d3, H3⟩, ⟨%d4, H4⟩⟩
      iapply (run5_C c (grid5.coords t) (ms5_0 t) (hs5_0 t) (ms5_1 t) (hs5_1 t) (ms5_2 t) (hs5_2 t) (ms5_3 t) (hs5_3 t) (ms5_4 t) (hs5_4 t)
        scM5_0 (Memref.isWhole_whole _) scM5_1 (Memref.isWhole_whole _) hc0 hc1
        (iblk5 V c 0 t) (iblk5 V c 1 t) (iblk5 V c 2 t) (iblk5 V c 3 t)
        (acc5 V c (t.val - 1) (Nat.lt_of_le_of_lt (Nat.sub_le _ _) t.isLt)).1 (acc5 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond5_1 (grid5.coords t) := fun h => h9 ((hcond5_1 t).mp h)
      rw [Dat.leavesExact_idle (dat5 V c) 4 t (idleAt5_4 t hc1) (noFlush5_4 t hc1)]
      iintro ⟨⟨HS0, HS1, HR, Hg⟩, Ho, ⟨%d0, H0⟩, ⟨%d1, H1⟩, ⟨%d2, H2⟩, ⟨%d3, H3⟩, ⟨%d4, H4⟩⟩
      iapply (run5_B c (grid5.coords t) (ms5_0 t) (hs5_0 t) (ms5_1 t) (hs5_1 t) (ms5_2 t) (hs5_2 t) (ms5_3 t) (hs5_3 t) (ms5_4 t) (hs5_4 t)
        scM5_0 (Memref.isWhole_whole _) scM5_1 (Memref.isWhole_whole _) hc0 hc1
        (iblk5 V c 0 t) (iblk5 V c 1 t) (iblk5 V c 2 t) (iblk5 V c 3 t) ((dat5 V c).before 4 t d4)
        (acc5 V c (t.val - 1) (Nat.lt_of_le_of_lt (Nat.sub_le _ _) t.isLt)).1 (acc5 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
import proofs.«422288_j69166153335416_3_alg».proof.Proof.Gen.Kernel.Launch
import proofs.«422288_j69166153335416_3_alg».proof.Proof.Gen.Kernel.Skeleton
import proofs.«422288_j69166153335416_3_alg».proof.Proof.Gen.Kernel.Points
import proofs.«422288_j69166153335416_3_alg».proof.Proof.Gen.Kernel.Regions
import proofs.«422288_j69166153335416_3_alg».proof.Proof.K.R0
import proofs.«422288_j69166153335416_3_alg».proof.Proof.K.R1
import proofs.«422288_j69166153335416_3_alg».proof.Proof.K.R2
import proofs.«422288_j69166153335416_3_alg».proof.Proof.K.R3
import proofs.«422288_j69166153335416_3_alg».proof.Proof.K.R4
import proofs.«422288_j69166153335416_3_alg».proof.Proof.K.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans ((dat0 (V1 m ρ) c).arrAt_in w hin _)

abbrev V2 : (c : Dev nD) → (b : Ref sig .tc) → Buf (Elt F) ((c : Thread nD τ).loc b) := fun c b => W2 m ρ c b

theorem W1_of_not_mem (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans ((dat1 (V3 m ρ) c).arrAt_in w hin _)

abbrev V4 : (c : Dev nD) → (b : Ref sig .tc) → Buf (Elt F) ((c : Thread nD τ).loc b) := fun c b => W4 m ρ c b

theorem W3_of_not_mem (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans ((dat2 (V5 m ρ) c).arrAt_in w hin _)

abbrev V6 : (c : Dev nD) → (b : Ref sig .tc) → Buf (Elt F) ((c : Thread nD τ).loc b) := fun c b => W6 m ρ c b

theorem W5_of_not_mem (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans ((dat3 (V7 m ρ) c).arrAt_in w hin _)

abbrev V8 : (c : Dev nD) → (b : Ref sig .tc) → Buf (Elt F) ((c : Thread nD τ).loc b) := fun c b => W8 m ρ c b

theorem W7_of_not_mem (c : Dev nD) (r : Ref sig .tc) (h : r ∉ hostOps3_W) :
    W7 m ρ c (Proc.devRef .tc r) = W6 m ρ c (Proc.devRef .tc r) :=
  StableHlo.after_of_writes_sub hostOps3 _ hostOps3_writes h

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans ((dat4 (V9 m ρ) c).arrAt_in w hin _)

abbrev V10 : (c : Dev nD) → (b : Ref sig .tc) → Buf (Elt F) ((c : Thread nD τ).loc b) := fun c b => W10 m ρ c b

theorem W9_of_not_mem (c : Dev nD) (r : Ref sig .tc) (h : r ∉ hostOps4_W) :
    W9 m ρ c (Proc.devRef .tc r) = W8 m ρ c (Proc.devRef .tc r) :=
  StableHlo.after_of_writes_sub hostOps4 _ hostOps4_writes h

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans ((dat5 (V11 m ρ) c).arrAt_in w hin _)

abbrev V12 : (c : Dev nD) → (b : Ref sig .tc) → Buf (Elt F) ((c : Thread nD τ).loc b) := fun c b => W12 m ρ c b

theorem W11_of_not_mem (c : Dev nD) (r : Ref sig .tc) (h : r ∉ hostOps5_W) :
    W11 m ρ c (Proc.devRef .tc r) = W10 m ρ c (Proc.devRef .tc r) :=
  StableHlo.after_of_writes_sub hostOps5 _ hostOps5_writes h

abbrev W13 : Dev nD → Valuation τ sig (Elt F) := fun c => StableHlo.after hostOps6 (W12 m ρ c)

theorem W13_of_not_mem (c : Dev nD) (r : Ref sig .tc) (h : r ∉ hostOps6_W) :
    W13 m ρ c (Proc.devRef .tc r) = W12 m ρ c (Proc.devRef .tc r) :=
  StableHlo.after_of_writes_sub hostOps6 _ hostOps6_writes h

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (fun w => (W6_arr m ρ c w).symm)
      (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (fun w => (W8_arr m ρ c w).symm)
      (fun b hb => W8_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (fun w => (W10_arr m ρ c w).symm)
      (fun b hb => W10_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V11 m ρ) c)
    unfold Pipeline.ΦA
    iintro ⟨Hp, -, Hr⟩
    isplitl [Hr]; · iexact Hr
    iexact Hp
  hout c := by
    rw [Pipeline.ownSems0_none]
    refine BIBase.Entails.trans (hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (fun w => (W12_arr m ρ c w).symm)
      (fun b hb => W12_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- A region leaves a buffer it only reads, or does not have among its windows, as it found it. -/
theorem W2_keep (c : Dev nD) (b : Ref sig .tc) (h : ∀ w : Fin cfg0.W, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb; exact W2_in m ρ c w (h w rfl)
  · exact W2_of_ne m ρ c b fun w e => hb ⟨w, e⟩
theorem W4_keep (c : Dev nD) (b : Ref sig .tc) (h : ∀ w : Fin cfg1.W, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb; exact W4_in m ρ c w (h w rfl)
  · exact W4_of_ne m ρ c b fun w e => hb ⟨w, e⟩
theorem W6_keep (c : Dev nD) (b : Ref sig .tc) (h : ∀ w : Fin cfg2.W, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb; exact W6_in m ρ c w (h w rfl)
  · exact W6_of_ne m ρ c b fun w e => hb ⟨w, e⟩
theorem W8_keep (c : Dev nD) (b : Ref sig .tc) (h : ∀ w : Fin cfg3.W, Pipeline.arrRef spec3 w = b → (cfg3.win w).isOut = false) :
    W8 m ρ c (Proc.devRef .tc b) = W7 m ρ c (Proc.devRef .tc b) := by
  by_cases hb : ∃ w, Pipeline.arrRef spec3 w = b
  · obtain ⟨w, rfl⟩ := hb; exact W8_in m ρ c w (h w rfl)
  · exact W8_of_ne m ρ c b fun w e => hb ⟨w, e⟩
theorem W10_keep (c : Dev nD) (b : Ref sig .tc) (h : ∀ w : Fin cfg4.W, Pipeline.arrRef spec4 w = b → (cfg4.win w).isOut = false) :
    W10 m ρ c (Proc.devRef .tc b) = W9 m ρ c (Proc.devRef .tc b) := by
  by_cases hb : ∃ w, Pipeline.arrRef spec4 w = b
  · obtain ⟨w, rfl⟩ := hb; exact W10_in m ρ c w (h w rfl)
  · exact W10_of_ne m ρ c b fun w e => hb ⟨w, e⟩
theorem W12_keep (c : Dev nD) (b : Ref sig .tc) (h : ∀ w : Fin cfg5.W, Pipeline.arrRef spec5 w = b → (cfg5.win w).isOut = false) :
    W12 m ρ c (Proc.devRef .tc b) = W11 m ρ c (Proc.devRef .tc b) := by
  by_cases hb : ∃ w, Pipeline.arrRef spec5 w = b
  · obtain ⟨w, rfl⟩ := hb; exact W12_in m ρ c w (h w rfl)
  · exact W12_of_ne m ρ c b fun w e => hb ⟨w, e⟩

/-- No host operation writes `b`, and every region that has `b` among its windows only reads it. -/
def Kept (b : Ref sig .tc) : Prop :=
  (b ∉ hostOps0_W ∧ b ∉ hostOps1_W ∧ b ∉ hostOps2_W ∧ b ∉ hostOps3_W ∧ b ∉ hostOps4_W ∧ b ∉ hostOps5_W ∧ b ∉ hostOps6_W) ∧
  (∀ w : Fin cfg0.W, Pipeline.arrRef spec0 w = b → (cfg0.win w).isOut = false) ∧ (∀ w : Fin cfg1.W, Pipeline.arrRef spec1 w = b → (cfg1.win w).isOut = false) ∧
  (∀ w : Fin cfg2.W, Pipeline.arrRef spec2 w = b → (cfg2.win w).isOut = false) ∧ (∀ w : Fin cfg3.W, Pipeline.arrRef spec3 w = b → (cfg3.win w).isOut = false) ∧
  (∀ w : Fin cfg4.W, Pipeline.arrRef spec4 w = b → (cfg4.win w).isOut = false) ∧ (∀ w : Fin cfg5.W, Pipeline.arrRef spec5 w = b → (cfg5.win w).isOut = false)
instance (b : Ref sig .tc) : Decidable (Kept b) := by unfold Kept; infer_instance
theorem kept_arg0 : Kept main_arg0 := by decide
theorem kept_arg1 : Kept main_arg1 := by decide
theorem kept_arg2 : Kept main_arg2 := by decide
theorem kept_arg3 : Kept main_arg3 := by decide
theorem kept_arg4 : Kept main_arg4 := by decide
theorem kept_arg5 : Kept main_arg5 := by decide
theorem kept_arg6 : Kept main_arg6 := by decide
theorem kept_arg7 : Kept main_arg7 := by decide
theorem kept_arg8 : Kept main_arg8 := by decide
theorem kept_arg9 : Kept main_arg9 := by decide
theorem kept_arg10 : Kept main_arg10 := by decide

/-- Such a buffer holds its launch contents at every boundary: one step per item, thirteen items. -/
theorem W1_kept (c : Dev nD) {b : Ref sig .tc} (h : Kept b) : W1 m ρ c (Proc.devRef .tc b) = m ((c : Thread nD τ).loc b) :=
  W1_of_not_mem m ρ c b h.1.1
theorem W2_kept (c : Dev nD) {b : Ref sig .tc} (h : Kept b) : W2 m ρ c (Proc.devRef .tc b) = m ((c : Thread nD τ).loc b) :=
  (W2_keep m ρ c b h.2.1).trans (W1_kept m ρ c h)
theorem W3_kept (c : Dev nD) {b : Ref sig .tc} (h : Kept b) : W3 m ρ c (Proc.devRef .tc b) = m ((c : Thread nD τ).loc b) :=
  (W3_of_not_mem m ρ c b h.1.2.1).trans (W2_kept m ρ c h)
theorem W4_kept (c : Dev nD) {b : Ref sig .tc} (h : Kept b) : W4 m ρ c (Proc.devRef .tc b) = m ((c : Thread nD τ).loc b) :=
  (W4_keep m ρ c b h.2.2.1).trans (W3_kept m ρ c h)
theorem W5_kept (c : Dev nD) {b : Ref sig .tc} (h : Kept b) : W5 m ρ c (Proc.devRef .tc b) = m ((c : Thread nD τ).loc b) :=
  (W5_of_not_mem m ρ c b h.1.2.2.1).trans (W4_kept m ρ c h)
theorem W6_kept (c : Dev nD) {b : Ref sig .tc} (h : Kept b) : W6 m ρ c (Proc.devRef .tc b) = m ((c : Thread nD τ).loc b) :=
  (W6_keep m ρ c b h.2.2.2.1).trans (W5_kept m ρ c h)
theorem W7_kept (c : Dev nD) {b : Ref sig .tc} (h : Kept b) : W7 m ρ c (Proc.devRef .tc b) = m ((c : Thread nD τ).loc b) :=
  (W7_of_not_mem m ρ c b h.1.2.2.2.1).trans (W6_kept m ρ c h)
theorem W8_kept (c : Dev nD) {b : Ref sig .tc} (h : Kept b) : W8 m ρ c (Proc.devRef .tc b) = m ((c : Thread nD τ).loc b) :=
  (W8_keep m ρ c b h.2.2.2.2.1).trans (W7_kept m ρ c h)
theorem W9_kept (c : Dev nD) {b : Ref sig .tc} (h : Kept b) : W9 m ρ c (Proc.devRef .tc b) = m ((c : Thread nD τ).loc b) :=
  (W9_of_not_mem m ρ c b h.1.2.2.2.2.1).trans (W8_kept m ρ c h)
theorem W10_kept (c : Dev nD) {b : Ref sig .tc} (h : Kept b) : W10 m ρ c (Proc.devRef .tc b) = m ((c : Thread nD τ).loc b) :=
  (W10_keep m ρ c b h.2.2.2.2.2.1).trans (W9_kept m ρ c h)
theorem W11_kept (c : Dev nD) {b : Ref sig .tc} (h : Kept b) : W11 m ρ c (Proc.devRef .tc b) = m ((c : Thread nD τ).loc b) :=
  (W11_of_not_mem m ρ c b h.1.2.2.2.2.2.1).trans (W10_kept m ρ c h)
theorem W12_kept (c : Dev nD) {b : Ref sig .tc} (h : Kept b) : W12 m ρ c (Proc.devRef .tc b) = m ((c : Thread nD τ).loc b) :=
  (W12_keep m ρ c b h.2.2.2.2.2.2).trans (W11_kept m ρ c h)
theorem W13_kept (c : Dev nD) {b : Ref sig .tc} (h : Kept b) : W13 m ρ c (Proc.devRef .tc b) = m ((c : Thread nD τ).loc b) :=
  (W13_of_not_mem m ρ c b h.1.2.2.2.2.2.2).trans (W12_kept m ρ c h)

/-- The run read at the result and at the eleven arguments: the result at the last boundary's contents, each argument as launched. -/
theorem run_res : θ_run defs (onTc (τ := τ) (main (F := F))) ⟨m, fun _ => 0, ρ⟩ (fun r => ∀ c : Dev nD,
      r.2.mem ((c.tc : Thread nD τ).loc main_v86) = W13 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v86 (by decide)),
     (h c _ (mem_uc main_arg0 (by decide))).trans (W13_kept m ρ c kept_arg0),
     (h c _ (mem_uc main_arg1 (by decide))).trans (W13_kept m ρ c kept_arg1),
     (h c _ (mem_uc main_arg2 (by decide))).trans (W13_kept m ρ c kept_arg2),
     (h c _ (mem_uc main_arg3 (by decide))).trans (W13_kept m ρ c kept_arg3),
     (h c _ (mem_uc main_arg4 (by decide))).trans (W13_kept m ρ c kept_arg4),
     (h c _ (mem_uc main_arg5 (by decide))).trans (W13_kept m ρ c kept_arg5),
     (h c _ (mem_uc main_arg6 (by decide))).trans (W13_kept m ρ c kept_arg6),
     (h c _ (mem_uc main_arg7 (by decide))).trans (W13_kept m ρ c kept_arg7),
     (h c _ (mem_uc main_arg8 (by decide))).trans (W13_kept m ρ c kept_arg8),
     (h c _ (mem_uc main_arg9 (by decide))).trans (W13_kept m ρ c kept_arg9),
     (h c _ (mem_uc main_arg10 (by decide))).trans (W13_kept m ρ c kept_arg10)⟩) (run_all m ρ)

end Cert.Kernel.Hand

end
-- ==== Proof.KI.R0.lean ====
import proofs.«422288_j69166153335416_3_alg».proof.Proof.Gen.KernelIdeal.Launch
import proofs.«422288_j69166153335416_3_alg».proof.Proof.Gen.KernelIdeal.Skeleton
import proofs.«422288_j69166153335416_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_embed_kernel i arg1 harg1 arg2 harg2 arg3 harg3 arg4 harg4) K := by
  simp only [cc0_embed_kernel_eq_skeleton]; unfold cc0_embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«422288_j69166153335416_3_alg».proof.Proof.Gen.KernelIdeal.Launch
import proofs.«422288_j69166153335416_3_alg».proof.Proof.Gen.KernelIdeal.Skeleton
import proofs.«422288_j69166153335416_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

def out1_6 (xa : Vec F S5000x128 .f32) (xb : Vec F S5000x128 .f32) (xc : Vec F S5000x1 .f32) (xd : Vec F S128x128 .f32)
    (xe : Vec F S128x128 .f32) (xf : Vec F S1x128 .f32) : Vec F S5000x128 .f32 :=
  View.canon [⟨r1_0, k1_pay1 (View.ld xa r1_0) (View.ld xb r1_0) (View.ld xc r1_1) (View.ld xd r1_2) (View.ld xe r1_2) (View.ld xf r1_3)⟩]

theorem cover1_6 (pa : Vec F S5000x128 .f32) (y : S5000x128.Idx) :
    ∃ pc ∈ ([⟨r1_0, pa⟩] : List (View.Piece (Elt F) S5000x128 .f32)), y ∈ pc.1.set :=
  View.cover_of_tiled [⟨r1_0, pa⟩] S5000x128.size (by rfl) y

set_option maxHeartbeats 1000000 in

theorem sound_kernel1 (c : Dev nD) (E : Set ℕ) (i : grid1.Coords) (arg0 : Memref sig .tc .vmem S5000x128 .f32) (harg0 : arg0.IsWhole) (arg1 : Memref sig .tc .vmem S5000x128 .f32) (harg1 : arg1.IsWhole) (arg2 : Memref sig .tc .vmem S5000x1 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (xa : Vec F S5000x128 .f32) (xb : Vec F S5000x128 .f32) (xc : Vec F S5000x1 .f32) (xd : Vec F S128x128 .f32) (xe : Vec F S128x128 .f32) (xf : Vec F S1x128 .f32) (K : PUnit → sProp 𝕄) :
    iprop(owns (c : Thread nD τ) arg0 fullShare xa ∗ owns (c : Thread nD τ) arg1 fullShare xb ∗ owns (c : Thread nD τ) arg2 fullShare xc ∗ owns (c : Thread nD τ) arg3 fullShare xd ∗ owns (c : Thread nD τ) arg4 fullShare xe ∗ owns (c : Thread nD τ) arg5 fullShare xf ∗ (∃ d, owns (c : Thread nD τ) arg6 fullShare d)
        ∗ (iprop(owns (c : Thread nD τ) arg0 fullShare xa ∗ owns (c : Thread nD τ) arg1 fullShare xb ∗ owns (c : Thread nD τ) arg2 fullShare xc ∗ owns (c : Thread nD τ) arg3 fullShare xd ∗ owns (c : Thread nD τ) arg4 fullShare xe ∗ owns (c : Thread nD τ) arg5 fullShare xf ∗ owns (c : Thread nD τ) arg6 fullShare (out1_6 xa xb xc xd xe xf)) -∗ K ⟨⟩))
      ⊢ wp frame (wpE (defs₀ (F := F)) Variants.none c none) E (cc1_layer_kernel i arg0 harg0 arg1 harg1 arg2 harg2 arg3 harg3 arg4 harg4 arg5 harg5 arg6 harg6) K := by
  simp only [cc1_layer_kernel_eq_skeleton]; unfold cc1_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«422288_j69166153335416_3_alg».proof.Proof.Gen.KernelIdeal.Launch
import proofs.«422288_j69166153335416_3_alg».proof.Proof.Gen.KernelIdeal.Skeleton
import proofs.«422288_j69166153335416_3_alg».proof.Proof.Gen.KernelIdeal.Points
import proofs.«422288_j69166153335416_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out1_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem cc2_eq : cc2_layer_kernel (F := F) = cc1_layer_kernel (F := F) := rfl

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«422288_j69166153335416_3_alg».proof.Proof.Gen.KernelIdeal.Launch
import proofs.«422288_j69166153335416_3_alg».proof.Proof.Gen.KernelIdeal.Skeleton
import proofs.«422288_j69166153335416_3_alg».proof.Proof.Gen.KernelIdeal.Points
import proofs.«422288_j69166153335416_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out1_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem cc3_eq : cc3_layer_kernel (F := F) = cc1_layer_kernel (F := F) := rfl

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1, before3_2, before3_3, before3_4, before3_5]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«422288_j69166153335416_3_alg».proof.Proof.Gen.KernelIdeal.Launch
import proofs.«422288_j69166153335416_3_alg».proof.Proof.Gen.KernelIdeal.Skeleton
import proofs.«422288_j69166153335416_3_alg».proof.Proof.Gen.KernelIdeal.Points
import proofs.«422288_j69166153335416_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out1_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem cc4_eq : cc4_layer_kernel (F := F) = cc1_layer_kernel (F := F) := rfl

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«422288_j69166153335416_3_alg».proof.Proof.Gen.KernelIdeal.Launch
import proofs.«422288_j69166153335416_3_alg».proof.Proof.Gen.KernelIdeal.Skeleton
import proofs.«422288_j69166153335416_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5_0 : Memref sig .tc .vmem S256x128 .f32 := Memref.whole cc5_scratch0
abbrev scM5_1 : Memref sig .tc .vmem S256x1 .f32 := Memref.whole cc5_scratch1

def acc5 (c : Dev nD) : (n : ℕ) → n < cfg5.N → Vec F S256x128 .f32 × Vec F S256x1 .f32
  | 0, hn => (k5_pay4 (iblk5 V c 0 ⟨0, hn⟩) (iblk5 V c 1 ⟨0, hn⟩) k5_pay1, k5_pay5 (iblk5 V c 1 ⟨0, hn⟩) k5_pay2)
  | n + 1, hn => (k5_pay4 (iblk5 V c 0 ⟨n + 1, hn⟩) (iblk5 V c 1 ⟨n + 1, hn⟩) (acc5 c n (Nat.lt_of_succ_lt hn)).1, k5_pay5 (iblk5 V c 1 ⟨n + 1, hn⟩) (acc5 c n (Nat.lt_of_succ_lt hn)).2)

def out5_4 (c : Dev nD) (t : Fin cfg5.N) : Vec F S256x1 .f32 :=
  k5_pay6 (acc5 V c t.val t.isLt).1 (acc5 V c t.val t.isLt).2 (iblk5 V c 2 t) (iblk5 V c 3 t)

def Phi5 (c : Dev nD) : (n : ℕ) → n ≤ cfg5.N → sProp 𝕄
  | 0, _ => Pipeline.ΦA spec5 c
  | n + 1, hn => iprop(owns (c : Thread nD τ) scM5_0 fullShare (acc5 V c n hn).1 ∗ owns (c : Thread nD τ) scM5_1 fullShare (acc5 V c n hn).2
      ∗ Pipeline.scopedRestBut (Ix := Unit) (Name := ℕ) (U := UR sig nD τ) (Lvl := ℕ) (Val := Elt F) spec5 c [cc5_scratch0, cc5_scratch1] ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 V c t
  Φ t := Phi5 V c t.val (Nat.le_of_lt_succ t.isLt)
  q _ := fullShare
  owed _ := 0

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 V c t := by dsimp only [dat5]

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1

theorem hcond5_1 : ∀ t : Fin cfg5.N, cond5_1 (grid5.coords t) ↔ t.val = 9 :=
  (by decide +kernel : ∀ t : Fin grid5.N, cond5_1 (grid5.coords t) ↔ t.val = 9)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel

theorem liveAt5_4 : ∀ t : Fin cfg5.N, cond5_1 (grid5.coords t) → cfg5.idle 4 (grid5.coords t) = false := by decide +kernel

abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S20x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x20 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S256x1 .f32 := win5_4.stage (cfg5.slots t 4)
abbrev hs5_4 (t : Fin cfg5.N) : (ms5_4 t).IsWhole := hstage5_4 ((cfg5.slots t 4).cast nbuf5_4)

theorem hz2 : (![0, 0] : Fin 2 → Nat) = fun _ => 0 := funext fun a => by fin_cases a <;> rfl

set_option maxHeartbeats 4000000 in

theorem run5_A (c : Dev nD) (i : grid5.Coords)
    (arg1 : Memref sig .tc .vmem S5000x128 .f32) (harg1 : arg1.IsWhole) (arg2 : Memref sig .tc .vmem S5000x1 .i32) (harg2 : arg2.IsWhole)
    (arg3 : Memref sig .tc .vmem S20x128 .f32) (harg3 : arg3.IsWhole) (arg4 : Memref sig .tc .vmem S1x20 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)
    (hc0 : cond5_0 i) (hc1 : ¬cond5_1 i)
    (x0 : Vec F S5000x128 .f32) (x1 : Vec F S5000x1 .i32) (x2 : Vec F S20x128 .f32) (x3 : Vec F S1x20 .f32) (xi4 : Vec F S256x1 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare xi4
          ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare xi4
              ∗ owns (c : Thread nD τ) arg6 fullShare (k5_pay4 x0 x1 k5_pay1) ∗ owns (c : Thread nD τ) arg7 fullShare (k5_pay5 x1 k5_pay2)) -∗ K ⟨⟩))
      ⊢ wp frame (wpE (defs₀ (F := F)) Variants.none c none) E (cc5_pool_proto_kernel i arg1 harg1 arg2 harg2 arg3 harg3 arg4 harg4 arg5 harg5 arg6 harg6 arg7 harg7) K := by
  simp only [cc5_pool_proto_kernel_eq_skeleton]; unfold cc5_pool_proto_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    refine (View.read_writes_eq_canon _ _ _ (fun y => ⟨_, List.mem_cons.mpr (Or.inl rfl), View.mem_set_unit_zero hz2 inb_S256x128_S256x128_0_0 y⟩)).trans ?_
    sl_unfold_words
    rw [View.canon_cons_unit_zero (S := S256x128) hz2, View.readCov_unit_zero (S := S256x128) _ hz2]
    simp only [View.readAt_eq_ld, harg1.read_unread, harg2.read_unread, View.ld_unit_zero (S := S5000x128) hz2, View.ld_unit_zero (S := S5000x1) hz2]
  · iexists _; isplitr; swap; · iexact HS1
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2, View.readCov_unit_zero (S := S256x1) _ hz2]
    simp only [View.readAt_eq_ld, harg2.read_unread, View.ld_unit_zero (S := S5000x1) hz2]

set_option maxHeartbeats 4000000 in

theorem run5_B (c : Dev nD) (i : grid5.Coords)
    (arg1 : Memref sig .tc .vmem S5000x128 .f32) (harg1 : arg1.IsWhole) (arg2 : Memref sig .tc .vmem S5000x1 .i32) (harg2 : arg2.IsWhole)
    (arg3 : Memref sig .tc .vmem S20x128 .f32) (harg3 : arg3.IsWhole) (arg4 : Memref sig .tc .vmem S1x20 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)
    (hc0 : ¬cond5_0 i) (hc1 : ¬cond5_1 i)
    (x0 : Vec F S5000x128 .f32) (x1 : Vec F S5000x1 .i32) (x2 : Vec F S20x128 .f32) (x3 : Vec F S1x20 .f32) (xi4 : Vec F S256x1 .f32)
    (xs0 : Vec F S256x128 .f32) (xs1 : Vec F S256x1 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare xi4
          ∗ owns (c : Thread nD τ) arg6 fullShare xs0 ∗ owns (c : Thread nD τ) arg7 fullShare xs1
          ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare xi4
              ∗ owns (c : Thread nD τ) arg6 fullShare (k5_pay4 x0 x1 xs0) ∗ owns (c : Thread nD τ) arg7 fullShare (k5_pay5 x1 xs1)) -∗ K ⟨⟩))
      ⊢ wp frame (wpE (defs₀ (F := F)) Variants.none c none) E (cc5_pool_proto_kernel i arg1 harg1 arg2 harg2 arg3 harg3 arg4 harg4 arg5 harg5 arg6 harg6 arg7 harg7) K := by
  simp only [cc5_pool_proto_kernel_eq_skeleton]; unfold cc5_pool_proto_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro
    refine (View.read_writes_eq_canon _ _ _ (fun y => ⟨_, List.mem_cons.mpr (Or.inl rfl), View.mem_set_unit_zero hz2 inb_S256x128_S256x128_0_0 y⟩)).trans ?_
    sl_unfold_words
    rw [View.canon_cons_unit_zero (S := S256x128) hz2]
    simp only [View.readAt_eq_ld, harg1.read_unread, harg2.read_unread, harg6.read_unread, View.ld_unit_zero (S := S5000x128) hz2, View.ld_unit_zero (S := S5000x1) hz2, View.ld_unit_zero (S := S256x128) hz2]
  · iexists _; isplitr; swap; · iexact HS1
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2]
    simp only [View.readAt_eq_ld, harg2.read_unread, harg7.read_unread, View.ld_unit_zero (S := S5000x1) hz2, View.ld_unit_zero (S := S256x1) hz2]

set_option maxHeartbeats 4000000 in

theorem run5_C (c : Dev nD) (i : grid5.Coords)
    (arg1 : Memref sig .tc .vmem S5000x128 .f32) (harg1 : arg1.IsWhole) (arg2 : Memref sig .tc .vmem S5000x1 .i32) (harg2 : arg2.IsWhole)
    (arg3 : Memref sig .tc .vmem S20x128 .f32) (harg3 : arg3.IsWhole) (arg4 : Memref sig .tc .vmem S1x20 .f32) (harg4 : arg4.IsWhole)
    (arg5 : Memref sig .tc .vmem S256x1 .f32) (harg5 : arg5.IsWhole) (arg6 : Memref sig .tc .vmem S256x128 .f32) (harg6 : arg6.IsWhole)
    (arg7 : Memref sig .tc .vmem S256x1 .f32) (harg7 : arg7.IsWhole)
    (hc0 : ¬cond5_0 i) (hc1 : cond5_1 i)
    (x0 : Vec F S5000x128 .f32) (x1 : Vec F S5000x1 .i32) (x2 : Vec F S20x128 .f32) (x3 : Vec F S1x20 .f32)
    (xs0 : Vec F S256x128 .f32) (xs1 : Vec F S256x1 .f32)
    (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3 ∗ (∃ d, owns (c : Thread nD τ) arg5 fullShare d)
          ∗ owns (c : Thread nD τ) arg6 fullShare xs0 ∗ owns (c : Thread nD τ) arg7 fullShare xs1
          ∗ (iprop(owns (c : Thread nD τ) arg1 fullShare x0 ∗ owns (c : Thread nD τ) arg2 fullShare x1 ∗ owns (c : Thread nD τ) arg3 fullShare x2
              ∗ owns (c : Thread nD τ) arg4 fullShare x3
              ∗ owns (c : Thread nD τ) arg5 fullShare (k5_pay6 (k5_pay4 x0 x1 xs0) (k5_pay5 x1 xs1) x2 x3)
              ∗ owns (c : Thread nD τ) arg6 fullShare (k5_pay4 x0 x1 xs0) ∗ owns (c : Thread nD τ) arg7 fullShare (k5_pay5 x1 xs1)) -∗ K ⟨⟩))
      ⊢ wp frame (wpE (defs₀ (F := F)) Variants.none c none) E (cc5_pool_proto_kernel i arg1 harg1 arg2 harg2 arg3 harg3 arg4 harg4 arg5 harg5 arg6 harg6 arg7 harg7) K := by
  simp only [cc5_pool_proto_kernel_eq_skeleton]; unfold cc5_pool_proto_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2]
    simp only [View.readAt_eq_ld, harg1.read_unread, harg2.read_unread, harg3.read_unread, harg4.read_unread, harg6.read_unread, harg7.read_unread,
      View.readCov_unit_zero (S := S256x128) _ hz2, View.readCov_unit_zero (S := S256x1) _ hz2,
      View.ld_unit_zero (S := S5000x128) hz2, View.ld_unit_zero (S := S5000x1) hz2, View.ld_unit_zero (S := S256x128) hz2, View.ld_unit_zero (S := S256x1) hz2,
      View.ld_unit_zero (S := S20x128) hz2, View.ld_unit_zero (S := S1x20) hz2]
  isplitl [HS0]
  · iexists _; isplitr; swap; · iexact HS0
    ipureintro
    refine (View.read_writes_eq_canon _ _ _ (fun y => ⟨_, List.mem_cons.mpr (Or.inl rfl), View.mem_set_unit_zero hz2 inb_S256x128_S256x128_0_0 y⟩)).trans ?_
    sl_unfold_words
    rw [View.canon_cons_unit_zero (S := S256x128) hz2]
    simp only [View.readAt_eq_ld, harg1.read_unread, harg2.read_unread, harg6.read_unread, View.ld_unit_zero (S := S5000x128) hz2, View.ld_unit_zero (S := S5000x1) hz2, View.ld_unit_zero (S := S256x128) hz2]
  · iexists _; isplitr; swap; · iexact HS1
    ipureintro
    refine (View.read_writes_eq_canon _ _ _ (fun y => ⟨_, List.mem_cons.mpr (Or.inl rfl), View.mem_set_unit_zero hz2 inb_S256x1_S256x1_0_0 y⟩)).trans ?_
    sl_unfold_words
    rw [View.canon_cons_unit_zero (S := S256x1) hz2]
    simp only [View.readAt_eq_ld, harg2.read_unread, harg7.read_unread, View.ld_unit_zero (S := S5000x1) hz2, View.ld_unit_zero (S := S256x1) hz2]

theorem acc5_first_1 (c : Dev nD) (t : Fin cfg5.N) (h0 : t.val = 0) :
    (acc5 V c t.val t.isLt).1 = k5_pay4 (iblk5 V c 0 t) (iblk5 V c 1 t) k5_pay1 := by
  obtain ⟨n, hn⟩ := t
  cases n with
  | zero => rfl
  | succ n => exact absurd h0 (Nat.succ_ne_zero n)

theorem acc5_first_2 (c : Dev nD) (t : Fin cfg5.N) (h0 : t.val = 0) :
    (acc5 V c t.val t.isLt).2 = k5_pay5 (iblk5 V c 1 t) k5_pay2 := by
  obtain ⟨n, hn⟩ := t
  cases n with
  | zero => rfl
  | succ n => exact absurd h0 (Nat.succ_ne_zero n)

theorem acc5_later_1 (c : Dev nD) (t : Fin cfg5.N) (h0 : t.val ≠ 0) :
    (acc5 V c t.val t.isLt).1 = k5_pay4 (iblk5 V c 0 t) (iblk5 V c 1 t) (acc5 V c (t.val - 1) (Nat.lt_of_le_of_lt (Nat.sub_le _ _) t.isLt)).1 := by
  obtain ⟨n, hn⟩ := t
  cases n with
  | zero => exact absurd rfl h0
  | succ n => rfl

theorem acc5_later_2 (c : Dev nD) (t : Fin cfg5.N) (h0 : t.val ≠ 0) :
    (acc5 V c t.val t.isLt).2 = k5_pay5 (iblk5 V c 1 t) (acc5 V c (t.val - 1) (Nat.lt_of_le_of_lt (Nat.sub_le _ _) t.isLt)).2 := by
  obtain ⟨n, hn⟩ := t
  cases n with
  | zero => exact absurd rfl h0
  | succ n => rfl

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(owns (c : Thread nD τ) scM5_0 fullShare (acc5 V c n hn).1 ∗ owns (c : Thread nD τ) scM5_1 fullShare (acc5 V c n hn).2
      ∗ Pipeline.scopedRestBut (Ix := Unit) (Name := ℕ) (U := UR sig nD τ) (Lvl := ℕ) (Val := Elt F) spec5 c [cc5_scratch0, cc5_scratch1] ∗ (∃ r, prngReg c r)) := rfl

theorem Phi5_pos (c : Dev nD) (n : ℕ) (h : n ≤ cfg5.N) (hz : n ≠ 0) :
    Phi5 V c n h = iprop(owns (c : Thread nD τ) scM5_0 fullShare (acc5 V c (n - 1) (by omega)).1 ∗ owns (c : Thread nD τ) scM5_1 fullShare (acc5 V c (n - 1) (by omega)).2
      ∗ Pipeline.scopedRestBut (Ix := Unit) (Name := ℕ) (U := UR sig nD τ) (Lvl := ℕ) (Val := Elt F) spec5 c [cc5_scratch0, cc5_scratch1] ∗ (∃ r, prngReg c r)) := by
  cases n with
  | zero => exact absurd rfl hz
  | succ n => rfl

theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

theorem Phi5_castSucc (c : Dev nD) (t : Fin cfg5.N) :
    (dat5 V c).Φ t.castSucc = Phi5 V c t.val (Nat.le_of_lt t.isLt) := by
  dsimp only [dat5]; simp only [Fin.coe_castSucc]

theorem hin5 (c : Dev nD) : Pipeline.ΦA spec5 c ⊢ (dat5 V c).Φ 0 := by
  rw [show (dat5 V c).Φ 0 = Phi5 V c 0 (Nat.zero_le _) from rfl, Phi5_zero V c 0 _ rfl]
  try exact Idealize.SL.BI.Entails.refl _

theorem Phi5_out (c : Dev nD) (t : Fin (cfg5.N + 1)) (ht : t.val ≠ 0) : (dat5 V c).Φ t ⊢ Pipeline.ΦA spec5 c := by
  rw [show (dat5 V c).Φ t = Phi5 V c t.val (Nat.le_of_lt_succ t.isLt) from rfl, Phi5_pos V c _ _ ht, PhiA5_eq]
  iintro ⟨HS0, HS1, HR, Hg⟩
  isplitl [HS0 HS1 HR]
  · isplitl [HS0 HS1]
    · isplitl [HS0]
      · iexists _; iexact HS0
      · iexists _; iexact HS1
    · iexact HR
  · iexact Hg

theorem hout5 (c : Dev nD) : (dat5 V c).Φ (Fin.last cfg5.N) ⊢ Pipeline.ΦA spec5 c :=
  Phi5_out V c _ (by rw [Fin.val_last]; have : cfg5.N = 10 := N_5; omega)

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

theorem leaves5_0 (c : Dev nD) (t : Fin cfg5.N) : (dat5 V c).leavesExact 0 t = owns (c : Thread nD τ) (ms5_0 t) fullShare (iblk5 V c 0 t) := by
  unfold Dat.leavesExact; rw [liveAt5_0 t, after5_0]
theorem leaves5_1 (c : Dev nD) (t : Fin cfg5.N) : (dat5 V c).leavesExact 1 t = owns (c : Thread nD τ) (ms5_1 t) fullShare (iblk5 V c 1 t) := by
  unfold Dat.leavesExact; rw [liveAt5_1 t, after5_1]
theorem leaves5_2 (c : Dev nD) (t : Fin cfg5.N) : (dat5 V c).leavesExact 2 t = owns (c : Thread nD τ) (ms5_2 t) fullShare (iblk5 V c 2 t) := by
  unfold Dat.leavesExact; rw [liveAt5_2 t, after5_2]
theorem leaves5_3 (c : Dev nD) (t : Fin cfg5.N) : (dat5 V c).leavesExact 3 t = owns (c : Thread nD τ) (ms5_3 t) fullShare (iblk5 V c 3 t) := by
  unfold Dat.leavesExact; rw [liveAt5_3 t, after5_3]

theorem leaves5_4_last (c : Dev nD) (t : Fin cfg5.N) (h : cond5_1 (grid5.coords t)) :
    (dat5 V c).leavesExact 4 t = owns (c : Thread nD τ) (ms5_4 t) fullShare (out5_4 V c t) := by
  unfold Dat.leavesExact; rw [liveAt5_4 t h, after5_4]

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Phi5 V c (t.val + 1) t.isLt from rfl, Phi5_succ]
  rw [leaves5_0, leaves5_1, leaves5_2, leaves5_3]
  have hN : t.val < 10 := lt_of_lt_of_eq t.isLt (show cfg5.N = 10 from N_5)
  by_cases h0 : t.val = 0
  · have hc0 : cond5_0 (grid5.coords t) := (hcond5_0 t).mpr h0
    have hc1 : ¬cond5_1 (grid5.coords t) := fun h => by have := (hcond5_1 t).mp h; omega
    rw [Dat.leavesExact_idle (dat5 V c) 4 t (idleAt5_4 t hc1) (noFlush5_4 t hc1)]
    rw [acc5_first_1 V c t h0, acc5_first_2 V c t h0]
    rw [Phi5_castSucc V c t, Phi5_zero V c _ _ h0, PhiA5_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run5_A c (grid5.coords t) (ms5_0 t) (hs5_0 t) (ms5_1 t) (hs5_1 t) (ms5_2 t) (hs5_2 t) (ms5_3 t) (hs5_3 t) (ms5_4 t) (hs5_4 t)
      scM5_0 (Memref.isWhole_whole _) scM5_1 (Memref.isWhole_whole _) hc0 hc1
      (iblk5 V c 0 t) (iblk5 V c 1 t) (iblk5 V c 2 t) (iblk5 V c 3 t) ((dat5 V c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond5_0 (grid5.coords t) := fun h => h0 ((hcond5_0 t).mp h)
    rw [acc5_later_1 V c t h0, acc5_later_2 V c t h0]
    rw [Phi5_castSucc V c t, Phi5_pos V c _ _ h0]
    by_cases h9 : t.val = 9
    · have hc1 : cond5_1 (grid5.coords t) := (hcond5_1 t).mpr h9
      rw [leaves5_4_last V c t hc1]
      unfold out5_4
      rw [acc5_later_1 V c t h0, acc5_later_2 V c t h0]
      iintro ⟨⟨HS0, HS1, HR, Hg⟩, Ho, ⟨%d0, H0⟩, ⟨%d1, H1⟩, ⟨%d2, H2⟩, ⟨%d3, H3⟩, ⟨%d4, H4⟩⟩
      iapply (run5_C c (grid5.coords t) (ms5_0 t) (hs5_0 t) (ms5_1 t) (hs5_1 t) (ms5_2 t) (hs5_2 t) (ms5_3 t) (hs5_3 t) (ms5_4 t) (hs5_4 t)
        scM5_0 (Memref.isWhole_whole _) scM5_1 (Memref.isWhole_whole _) hc0 hc1
        (iblk5 V c 0 t) (iblk5 V c 1 t) (iblk5 V c 2 t) (iblk5 V c 3 t)
        (acc5 V c (t.val - 1) (Nat.lt_of_le_of_lt (Nat.sub_le _ _) t.isLt)).1 (acc5 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond5_1 (grid5.coords t) := fun h => h9 ((hcond5_1 t).mp h)
      rw [Dat.leavesExact_idle (dat5 V c) 4 t (idleAt5_4 t hc1) (noFlush5_4 t hc1)]
      iintro ⟨⟨HS0, HS1, HR, Hg⟩, Ho, ⟨%d0, H0⟩, ⟨%d1, H1⟩, ⟨%d2, H2⟩, ⟨%d3, H3⟩, ⟨%d4, H4⟩⟩
      iapply (run5_B c (grid5.coords t) (ms5_0 t) (hs5_0 t) (ms5_1 t) (hs5_1 t) (ms5_2 t) (hs5_2 t) (ms5_3 t) (hs5_3 t) (ms5_4 t) (hs5_4 t)
        scM5_0 (Memref.isWhole_whole _) scM5_1 (Memref.isWhole_whole _) hc0 hc1
        (iblk5 V c 0 t) (iblk5 V c 1 t) (iblk5 V c 2 t) (iblk5 V c 3 t) ((dat5 V c).before 4 t d4)
        (acc5 V c (t.val - 1) (Nat.lt_of_le_of_lt (Nat.sub_le _ _) t.isLt)).1 (acc5 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«422288_j69166153335416_3_alg».proof.Proof.Gen.KernelIdeal.Launch
import proofs.«422288_j69166153335416_3_alg».proof.Proof.Gen.KernelIdeal.Skeleton
import proofs.«422288_j69166153335416_3_alg».proof.Proof.Gen.KernelIdeal.Points
import proofs.«422288_j69166153335416_3_alg».proof.Proof.Gen.KernelIdeal.Regions
import proofs.«422288_j69166153335416_3_alg».proof.Proof.KI.R0
import proofs.«422288_j69166153335416_3_alg».proof.Proof.KI.R1
import proofs.«422288_j69166153335416_3_alg».proof.Proof.KI.R2
import proofs.«422288_j69166153335416_3_alg».proof.Proof.KI.R3
import proofs.«422288_j69166153335416_3_alg».proof.Proof.KI.R4
import proofs.«422288_j69166153335416_3_alg».proof.Proof.KI.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans ((dat0 (V1 m ρ) c).arrAt_in w hin _)

abbrev V2 : (c : Dev nD) → (b : Ref sig .tc) → Buf (Elt F) ((c : Thread nD τ).loc b) := fun c b => W2 m ρ c b

theorem W1_of_not_mem (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans ((dat1 (V3 m ρ) c).arrAt_in w hin _)

abbrev V4 : (c : Dev nD) → (b : Ref sig .tc) → Buf (Elt F) ((c : Thread nD τ).loc b) := fun c b => W4 m ρ c b

theorem W3_of_not_mem (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans ((dat2 (V5 m ρ) c).arrAt_in w hin _)

abbrev V6 : (c : Dev nD) → (b : Ref sig .tc) → Buf (Elt F) ((c : Thread nD τ).loc b) := fun c b => W6 m ρ c b

theorem W5_of_not_mem (c : Dev nD) (r : Ref sig .tc) (h : r ∉ hostOps2_W) :
    W5 m ρ c (Proc.devRef .tc r) = W4 m ρ c (Proc.devRef .tc r) :=
  StableHlo.after_of_writes_sub hostOps2 _ hostOps2_writes h

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans ((dat3 (V7 m ρ) c).arrAt_in w hin _)

abbrev V8 : (c : Dev nD) → (b : Ref sig .tc) → Buf (Elt F) ((c : Thread nD τ).loc b) := fun c b => W8 m ρ c b

theorem W7_of_not_mem (c : Dev nD) (r : Ref sig .tc) (h : r ∉ hostOps3_W) :
    W7 m ρ c (Proc.devRef .tc r) = W6 m ρ c (Proc.devRef .tc r) :=
  StableHlo.after_of_writes_sub hostOps3 _ hostOps3_writes h

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans ((dat4 (V9 m ρ) c).arrAt_in w hin _)

abbrev V10 : (c : Dev nD) → (b : Ref sig .tc) → Buf (Elt F) ((c : Thread nD τ).loc b) := fun c b => W10 m ρ c b

theorem W9_of_not_mem (c : Dev nD) (r : Ref sig .tc) (h : r ∉ hostOps4_W) :
    W9 m ρ c (Proc.devRef .tc r) = W8 m ρ c (Proc.devRef .tc r) :=
  StableHlo.after_of_writes_sub hostOps4 _ hostOps4_writes h

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans ((dat5 (V11 m ρ) c).arrAt_in w hin _)

abbrev V12 : (c : Dev nD) → (b : Ref sig .tc) → Buf (Elt F) ((c : Thread nD τ).loc b) := fun c b => W12 m ρ c b

theorem W11_of_not_mem (c : Dev nD) (r : Ref sig .tc) (h : r ∉ hostOps5_W) :
    W11 m ρ c (Proc.devRef .tc r) = W10 m ρ c (Proc.devRef .tc r) :=
  StableHlo.after_of_writes_sub hostOps5 _ hostOps5_writes h

abbrev W13 : Dev nD → Valuation τ sig (Elt F) := fun c => StableHlo.after hostOps6 (W12 m ρ c)

theorem W13_of_not_mem (c : Dev nD) (r : Ref sig .tc) (h : r ∉ hostOps6_W) :
    W13 m ρ c (Proc.devRef .tc r) = W12 m ρ c (Proc.devRef .tc r) :=
  StableHlo.after_of_writes_sub hostOps6 _ hostOps6_writes h

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (fun w => (W6_arr m ρ c w).symm)
      (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (fun w => (W8_arr m ρ c w).symm)
      (fun b hb => W8_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (fun w => (W10_arr m ρ c w).symm)
      (fun b hb => W10_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (V11 m ρ) c)
    unfold Pipeline.ΦA
    iintro ⟨Hp, -, Hr⟩
    isplitl [Hr]; · iexact Hr
    iexact Hp
  hout c := by
    rw [Pipeline.ownSems0_none]
    refine BIBase.Entails.trans (hout5 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (fun w => (W12_arr m ρ c w).symm)
      (fun b hb => W12_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- A region leaves a buffer it only reads, or does not have among its windows, as it found it. -/
theorem W2_keep (c : Dev nD) (b : Ref sig .tc) (h : ∀ w : Fin cfg0.W, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb; exact W2_in m ρ c w (h w rfl)
  · exact W2_of_ne m ρ c b fun w e => hb ⟨w, e⟩
theorem W4_keep (c : Dev nD) (b : Ref sig .tc) (h : ∀ w : Fin cfg1.W, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb; exact W4_in m ρ c w (h w rfl)
  · exact W4_of_ne m ρ c b fun w e => hb ⟨w, e⟩
theorem W6_keep (c : Dev nD) (b : Ref sig .tc) (h : ∀ w : Fin cfg2.W, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb; exact W6_in m ρ c w (h w rfl)
  · exact W6_of_ne m ρ c b fun w e => hb ⟨w, e⟩
theorem W8_keep (c : Dev nD) (b : Ref sig .tc) (h : ∀ w : Fin cfg3.W, Pipeline.arrRef spec3 w = b → (cfg3.win w).isOut = false) :
    W8 m ρ c (Proc.devRef .tc b) = W7 m ρ c (Proc.devRef .tc b) := by
  by_cases hb : ∃ w, Pipeline.arrRef spec3 w = b
  · obtain ⟨w, rfl⟩ := hb; exact W8_in m ρ c w (h w rfl)
  · exact W8_of_ne m ρ c b fun w e => hb ⟨w, e⟩
theorem W10_keep (c : Dev nD) (b : Ref sig .tc) (h : ∀ w : Fin cfg4.W, Pipeline.arrRef spec4 w = b → (cfg4.win w).isOut = false) :
    W10 m ρ c (Proc.devRef .tc b) = W9 m ρ c (Proc.devRef .tc b) := by
  by_cases hb : ∃ w, Pipeline.arrRef spec4 w = b
  · obtain ⟨w, rfl⟩ := hb; exact W10_in m ρ c w (h w rfl)
  · exact W10_of_ne m ρ c b fun w e => hb ⟨w, e⟩
theorem W12_keep (c : Dev nD) (b : Ref sig .tc) (h : ∀ w : Fin cfg5.W, Pipeline.arrRef spec5 w = b → (cfg5.win w).isOut = false) :
    W12 m ρ c (Proc.devRef .tc b) = W11 m ρ c (Proc.devRef .tc b) := by
  by_cases hb : ∃ w, Pipeline.arrRef spec5 w = b
  · obtain ⟨w, rfl⟩ := hb; exact W12_in m ρ c w (h w rfl)
  · exact W12_of_ne m ρ c b fun w e => hb ⟨w, e⟩

/-- No host operation writes `b`, and every region that has `b` among its windows only reads it. -/
def Kept (b : Ref sig .tc) : Prop :=
  (b ∉ hostOps0_W ∧ b ∉ hostOps1_W ∧ b ∉ hostOps2_W ∧ b ∉ hostOps3_W ∧ b ∉ hostOps4_W ∧ b ∉ hostOps5_W ∧ b ∉ hostOps6_W) ∧
  (∀ w : Fin cfg0.W, Pipeline.arrRef spec0 w = b → (cfg0.win w).isOut = false) ∧ (∀ w : Fin cfg1.W, Pipeline.arrRef spec1 w = b → (cfg1.win w).isOut = false) ∧
  (∀ w : Fin cfg2.W, Pipeline.arrRef spec2 w = b → (cfg2.win w).isOut = false) ∧ (∀ w : Fin cfg3.W, Pipeline.arrRef spec3 w = b → (cfg3.win w).isOut = false) ∧
  (∀ w : Fin cfg4.W, Pipeline.arrRef spec4 w = b → (cfg4.win w).isOut = false) ∧ (∀ w : Fin cfg5.W, Pipeline.arrRef spec5 w = b → (cfg5.win w).isOut = false)
instance (b : Ref sig .tc) : Decidable (Kept b) := by unfold Kept; infer_instance
theorem kept_arg0 : Kept main_arg0 := by decide
theorem kept_arg1 : Kept main_arg1 := by decide
theorem kept_arg2 : Kept main_arg2 := by decide
theorem kept_arg3 : Kept main_arg3 := by decide
theorem kept_arg4 : Kept main_arg4 := by decide
theorem kept_arg5 : Kept main_arg5 := by decide
theorem kept_arg6 : Kept main_arg6 := by decide
theorem kept_arg7 : Kept main_arg7 := by decide
theorem kept_arg8 : Kept main_arg8 := by decide
theorem kept_arg9 : Kept main_arg9 := by decide
theorem kept_arg10 : Kept main_arg10 := by decide

/-- Such a buffer holds its launch contents at every boundary: one step per item, thirteen items. -/
theorem W1_kept (c : Dev nD) {b : Ref sig .tc} (h : Kept b) : W1 m ρ c (Proc.devRef .tc b) = m ((c : Thread nD τ).loc b) :=
  W1_of_not_mem m ρ c b h.1.1
theorem W2_kept (c : Dev nD) {b : Ref sig .tc} (h : Kept b) : W2 m ρ c (Proc.devRef .tc b) = m ((c : Thread nD τ).loc b) :=
  (W2_keep m ρ c b h.2.1).trans (W1_kept m ρ c h)
theorem W3_kept (c : Dev nD) {b : Ref sig .tc} (h : Kept b) : W3 m ρ c (Proc.devRef .tc b) = m ((c : Thread nD τ).loc b) :=
  (W3_of_not_mem m ρ c b h.1.2.1).trans (W2_kept m ρ c h)
theorem W4_kept (c : Dev nD) {b : Ref sig .tc} (h : Kept b) : W4 m ρ c (Proc.devRef .tc b) = m ((c : Thread nD τ).loc b) :=
  (W4_keep m ρ c b h.2.2.1).trans (W3_kept m ρ c h)
theorem W5_kept (c : Dev nD) {b : Ref sig .tc} (h : Kept b) : W5 m ρ c (Proc.devRef .tc b) = m ((c : Thread nD τ).loc b) :=
  (W5_of_not_mem m ρ c b h.1.2.2.1).trans (W4_kept m ρ c h)
theorem W6_kept (c : Dev nD) {b : Ref sig .tc} (h : Kept b) : W6 m ρ c (Proc.devRef .tc b) = m ((c : Thread nD τ).loc b) :=
  (W6_keep m ρ c b h.2.2.2.1).trans (W5_kept m ρ c h)
theorem W7_kept (c : Dev nD) {b : Ref sig .tc} (h : Kept b) : W7 m ρ c (Proc.devRef .tc b) = m ((c : Thread nD τ).loc b) :=
  (W7_of_not_mem m ρ c b h.1.2.2.2.1).trans (W6_kept m ρ c h)
theorem W8_kept (c : Dev nD) {b : Ref sig .tc} (h : Kept b) : W8 m ρ c (Proc.devRef .tc b) = m ((c : Thread nD τ).loc b) :=
  (W8_keep m ρ c b h.2.2.2.2.1).trans (W7_kept m ρ c h)
theorem W9_kept (c : Dev nD) {b : Ref sig .tc} (h : Kept b) : W9 m ρ c (Proc.devRef .tc b) = m ((c : Thread nD τ).loc b) :=
  (W9_of_not_mem m ρ c b h.1.2.2.2.2.1).trans (W8_kept m ρ c h)
theorem W10_kept (c : Dev nD) {b : Ref sig .tc} (h : Kept b) : W10 m ρ c (Proc.devRef .tc b) = m ((c : Thread nD τ).loc b) :=
  (W10_keep m ρ c b h.2.2.2.2.2.1).trans (W9_kept m ρ c h)
theorem W11_kept (c : Dev nD) {b : Ref sig .tc} (h : Kept b) : W11 m ρ c (Proc.devRef .tc b) = m ((c : Thread nD τ).loc b) :=
  (W11_of_not_mem m ρ c b h.1.2.2.2.2.2.1).trans (W10_kept m ρ c h)
theorem W12_kept (c : Dev nD) {b : Ref sig .tc} (h : Kept b) : W12 m ρ c (Proc.devRef .tc b) = m ((c : Thread nD τ).loc b) :=
  (W12_keep m ρ c b h.2.2.2.2.2.2).trans (W11_kept m ρ c h)
theorem W13_kept (c : Dev nD) {b : Ref sig .tc} (h : Kept b) : W13 m ρ c (Proc.devRef .tc b) = m ((c : Thread nD τ).loc b) :=
  (W13_of_not_mem m ρ c b h.1.2.2.2.2.2.2).trans (W12_kept m ρ c h)

/-- The run read at the result and at the eleven arguments: the result at the last boundary's contents, each argument as launched. -/
theorem run_res : θ_run defs (onTc (τ := τ) (main (F := F))) ⟨m, fun _ => 0, ρ⟩ (fun r => ∀ c : Dev nD,
      r.2.mem ((c.tc : Thread nD τ).loc main_v86) = W13 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v86 (by decide)),
     (h c _ (mem_uc main_arg0 (by decide))).trans (W13_kept m ρ c kept_arg0),
     (h c _ (mem_uc main_arg1 (by decide))).trans (W13_kept m ρ c kept_arg1),
     (h c _ (mem_uc main_arg2 (by decide))).trans (W13_kept m ρ c kept_arg2),
     (h c _ (mem_uc main_arg3 (by decide))).trans (W13_kept m ρ c kept_arg3),
     (h c _ (mem_uc main_arg4 (by decide))).trans (W13_kept m ρ c kept_arg4),
     (h c _ (mem_uc main_arg5 (by decide))).trans (W13_kept m ρ c kept_arg5),
     (h c _ (mem_uc main_arg6 (by decide))).trans (W13_kept m ρ c kept_arg6),
     (h c _ (mem_uc main_arg7 (by decide))).trans (W13_kept m ρ c kept_arg7),
     (h c _ (mem_uc main_arg8 (by decide))).trans (W13_kept m ρ c kept_arg8),
     (h c _ (mem_uc main_arg9 (by decide))).trans (W13_kept m ρ c kept_arg9),
     (h c _ (mem_uc main_arg10 (by decide))).trans (W13_kept m ρ c kept_arg10)⟩) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr (s : Shape) : Type := s.Idx → EReal
abbrev IArr (s : Shape) : Type := s.Idx → BitVec 32

abbrev sNH : Shape := ⟨2, ![50000, 128]⟩
abbrev sHH : Shape := ⟨2, ![128, 128]⟩
abbrev sH : Shape := ⟨1, ![128]⟩
abbrev sN : Shape := ⟨1, ![50000]⟩
abbrev sN1 : Shape := ⟨2, ![50000, 1]⟩
abbrev sE : Shape := ⟨1, ![600000]⟩
abbrev sW : Shape := ⟨3, ![4, 128, 256]⟩
abbrev sB : Shape := ⟨2, ![4, 128]⟩
abbrev sP : Shape := ⟨2, ![10, 128]⟩
abbrev sPP : Shape := ⟨2, ![20, 128]⟩
abbrev sF : Shape := ⟨2, ![1, 20]⟩
abbrev sG : Shape := ⟨1, ![256]⟩

def eps : EReal := Ideal.ofBits .f32 0x2B8CBCCC#32

def IsReal {s : Shape} (a : Arr s) : Prop := ∀ i, a i ≠ ⊤ ∧ a i ≠ ⊥

def embedE (h : Arr sNH) (W : Arr sHH) (b : Arr sH) (n : Fin 50000) (j : Fin 128) : EReal :=
  (∑ k : Fin 128, h (ix2 n k) * W (ix2 j k)) + b (ix1 j)

def embed (h : Arr sNH) (W : Arr sHH) (b : Arr sH) : Arr sNH := fun i => embedE h W b (i 0) (i 1)

def into (dst : IArr sE) (n : Fin 50000) : Finset (Fin 600000) :=
  Finset.univ.filter fun e : Fin 600000 => (dst (ix1 e)).toInt = (n.val : Int)

def degE (dst : IArr sE) (n : Fin 50000) : EReal := 0 + ∑ _e ∈ into dst n, (1 : EReal)

def invE (dst : IArr sE) (n : Fin 50000) : EReal := Ideal.div 1 (max (degE dst n) 1)

def inv (dst : IArr sE) : Arr sN1 := fun i => invE dst (i 0)

def srcWord (src : IArr sE) (e : Fin 600000) : BitVec 32 :=
  if (src (ix1 e)).toInt < 0 then src (ix1 e) + 50000#32 else src (ix1 e)

def srcRow (src : IArr sE) (e : Fin 600000) : Fin 50000 :=
  ⟨min (srcWord src e).toInt.toNat 49999, by omega⟩

def nrawE (x : Arr sNH) (src dst : IArr sE) (n : Fin 50000) (j : Fin 128) : EReal :=
  0 + ∑ e ∈ into dst n, x (ix2 (srcRow src e) j)

def nraw (x : Arr sNH) (src dst : IArr sE) : Arr sNH := fun i => nrawE x src dst (i 0) (i 1)

def preE (x nr : Arr sNH) (iv : Arr sN1) (w1 w2 : Arr sHH) (b : Arr sH) (n : Fin 50000) (j : Fin 128) : EReal :=
  ((∑ k : Fin 128, x (ix2 n k) * w1 (ix2 j k))
    + (∑ k : Fin 128, (nr (ix2 n k) * iv (ix2 n 0)) * w2 (ix2 j k)))
    + b (ix1 j)

def normE (x nr : Arr sNH) (iv : Arr sN1) (w1 w2 : Arr sHH) (b : Arr sH) (n : Fin 50000) : EReal :=
  Ideal.sqrt (∑ j : Fin 128, preE x nr iv w1 w2 b n j * preE x nr iv w1 w2 b n j)

def layerE (x nr : Arr sNH) (iv : Arr sN1) (w1 w2 : Arr sHH) (b : Arr sH) (n : Fin 50000) (j : Fin 128) : EReal :=
  x (ix2 n j) + max (Ideal.div (preE x nr iv w1 w2 b n j) (max (normE x nr iv w1 w2 b n) eps)) 0

def layerW (x nr : Arr sNH) (iv : Arr sN1) (w1 w2 : Arr sHH) (b : Arr sH) : Arr sNH :=
  fun i => layerE x nr iv w1 w2 b (i 0) (i 1)

def w1E (W : Arr sW) (l : Fin 4) (j k : Fin 128) : EReal := W (ix3 l j ⟨k.val, by omega⟩)
def w2E (W : Arr sW) (l : Fin 4) (j k : Fin 128) : EReal := W (ix3 l j ⟨128 + k.val, by omega⟩)
def w1Of (W : Arr sW) (l : Fin 4) : Arr sHH := fun i => w1E W l (i 0) (i 1)
def w2Of (W : Arr sW) (l : Fin 4) : Arr sHH := fun i => w2E W l (i 0) (i 1)
def bOf (B : Arr sB) (l : Fin 4) : Arr sH := fun i => B (ix2 l (i 0))

def layer (x nr : Arr sNH) (iv : Arr sN1) (W : Arr sW) (B : Arr sB) (l : Fin 4) : Arr sNH :=
  layerW x nr iv (w1Of W l) (w2Of W l) (bOf B l)

def nodes (h : Arr sNH) (src dst : IArr sE) (We : Arr sHH) (be : Arr sH) (W : Arr sW) (B : Arr sB) : (k : ℕ) → k ≤ 4 → Arr sNH
  | 0, _ => embed h We be
  | k + 1, hk =>
    let x := nodes h src dst We be W B k (Nat.le_of_succ_le hk)
    layer x (nraw x src dst) (inv dst) W B ⟨k, hk⟩

def protE (pp pn : Arr sP) (q : Fin 20) (j : Fin 128) : EReal :=
  if h : q.val < 10 then pp (ix2 ⟨q.val, h⟩ j) else pn (ix2 ⟨q.val - 10, by omega⟩ j)

def prot (pp pn : Arr sP) : Arr sPP := fun i => protE pp pn (i 0) (i 1)

def nodeAt (t : Fin 10) (r : Fin 5000) : Fin 50000 := ⟨5000 * t.val + r.val, by omega⟩

def hot (gid : IArr sN) (n : Fin 50000) (g : Fin 256) : EReal :=
  if gid (ix1 n) = BitVec.ofNat 32 g.val then 1 else 0

def sumK (x : Arr sNH) (gid : IArr sN) (g : Fin 256) (j : Fin 128) : EReal :=
  ∑ t : Fin 10, ∑ r : Fin 5000, hot gid (nodeAt t r) g * x (ix2 (nodeAt t r) j)

def cntK (gid : IArr sN) (g : Fin 256) : EReal :=
  ∑ t : Fin 10, ∑ r : Fin 5000, hot gid (nodeAt t r) g * 1

def meanK (x : Arr sNH) (gid : IArr sN) (g : Fin 256) (j : Fin 128) : EReal :=
  Ideal.div (sumK x gid g j) (max (cntK gid g) 1)

def distK (x : Arr sNH) (gid : IArr sN) (p : Arr sPP) (g : Fin 256) (q : Fin 20) : EReal :=
  max (((∑ j : Fin 128, meanK x gid g j * meanK x gid g j) + (∑ j : Fin 128, p (ix2 q j) * p (ix2 q j)))
        - 2 * (∑ j : Fin 128, meanK x gid g j * p (ix2 q j))) 0

def score (d : EReal) : EReal := Ideal.log (Ideal.div (d + 1) (d + eps))

def logitK (x : Arr sNH) (gid : IArr sN) (p : Arr sPP) (wf : Arr sF) (g : Fin 256) : EReal :=
  ∑ q : Fin 20, score (distK x gid p g q) * wf (ix2 0 q)

def headK (x : Arr sNH) (gid : IArr sN) (p : Arr sPP) (wf : Arr sF) : Arr sG :=
  fun i => Ideal.logistic (logitK x gid p wf (i 0))

def members (gid : IArr sN) (g : Fin 256) : Finset (Fin 50000) :=
  Finset.univ.filter fun n : Fin 50000 => (gid (ix1 n)).toInt = (g.val : Int)

def sumR (x : Arr sNH) (gid : IArr sN) (g : Fin 256) (j : Fin 128) : EReal := 0 + ∑ n ∈ members gid g, x (ix2 n j)

def cntR (gid : IArr sN) (g : Fin 256) : EReal := 0 + ∑ _n ∈ members gid g, (1 : EReal)

def meanR (x : Arr sNH) (gid : IArr sN) (g : Fin 256) (j : Fin 128) : EReal :=
  Ideal.div (sumR x gid g j) (max (cntR gid g) 1)

def distR (x : Arr sNH) (gid : IArr sN) (p : Arr sPP) (g : Fin 256) (q : Fin 20) : EReal :=
  0 + ∑ j : Fin 128, (meanR x gid g j - p (ix2 q j)) * (meanR x gid g j - p (ix2 q j))

def logitR (x : Arr sNH) (gid : IArr sN) (p : Arr sPP) (wf : Arr sF) (g : Fin 256) : EReal :=
  ∑ q : Fin 20, score (distR x gid p g q) * wf (ix2 0 q)

def headR (x : Arr sNH) (gid : IArr sN) (p : Arr sPP) (wf : Arr sF) : Arr sG :=
  fun i => Ideal.div 1 (1 + Ideal.exp (-(logitR x gid p wf (i 0))))

def resultK (h : Arr sNH) (src dst : IArr sE) (gid : IArr sN) (We : Arr sHH) (be : Arr sH) (W : Arr sW) (B : Arr sB)
    (pp pn : Arr sP) (wf : Arr sF) : Arr sG :=
  headK (nodes h src dst We be W B 4 le_rfl) gid (prot pp pn) wf

def resultR (h : Arr sNH) (src dst : IArr sE) (gid : IArr sN) (We : Arr sHH) (be : Arr sH) (W : Arr sW) (B : Arr sB)
    (pp pn : Arr sP) (wf : Arr sF) : Arr sG :=
  headR (nodes h src dst We be W B 4 le_rfl) gid (prot pp pn) wf

end Cert.Spec

end
-- ==== Proof.LibGatherScatter.lean ====
import Idealize.ShloMosaic.PureOps.Ideal
import Idealize.ShloMosaic.Lib.ValueIdx

open scoped BigOperators

namespace Cert.Bridge.GS

open Idealize.ShloMosaic Idealize.ShloMosaic.ValueIdx

private theorem getElem_of_eq_singleton {β : Type} {l : List β} {b : β} (hl : l = [b]) {k : Nat} (hk : k < l.length) :
    l[k] = b := by
  subst hl
  have hk0 : k = 0 := by simpa using hk
  subst hk0; rfl

section Gather
variable {α : Type} {N E W w : Nat}

theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

section HostForm
variable {N E W w : Nat} {φ : FTy}

theorem scatterAdd_eq {s si u : Shape} (d : ScatterDims s si u) (x : FVec Ideal s φ) (idx : IVec si w)
    (upd : FVec Ideal u φ) : Host.scatterAdd d x idx upd = Ideal.hostScatterAdd d x idx upd := rfl

theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.LibScatter1.lean ====
import Idealize.ShloMosaic.PureOps.Ideal
import Idealize.ShloMosaic.Lib.ValueIdx
import Idealize.ShloMosaic.Lib.ValueIdxRank1

open scoped BigOperators

namespace Cert.Bridge.GS1

open Idealize.ShloMosaic Idealize.ShloMosaic.ValueIdx

theorem ix1_inj {n : Nat} {a a' : Fin n} : ix1 a = ix1 a' ↔ a = a' := by
  constructor
  · intro h
    exact congrFun h 0
  · rintro rfl; rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter
variable {N E w : Nat}

theorem resultIdx?_flat (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) :
    d.resultIdx? (ix1 e) idx =
      if h : 0 ≤ (idx (ix2 e 0)).toInt ∧ (idx (ix2 e 0)).toInt < N then
        some (ix1 ⟨(idx (ix2 e 0)).toInt.toNat, by omega⟩)
      else none := by
  obtain ⟨uw, iw, sd, ivd, wf⟩ := d
  dsimp only at huw hiw hsd hivd
  subst huw hiw hsd hivd
  set D : ScatterDims ⟨1, ![N]⟩ ⟨2, ![E, 1]⟩ ⟨1, ![E]⟩ := ⟨[], [0], [0], 1, wf⟩ with hD
  have hs0 : D.start (ix1 e) idx 0 = (idx (ix2 e 0)).toInt := by
    unfold ScatterDims.start
    rw [dif_pos (show (0 : Fin 1) ∈ D.scatterDimsToOperandDims from List.mem_singleton.mpr rfl)]
    congr 2
    funext b
    refine Fin.ext ?_
    match b with
    | ⟨0, _⟩ => rfl
    | ⟨1, _⟩ => rfl
  have hw0 : D.window (ix1 e) 0 = 0 := by
    unfold ScatterDims.window
    rw [dif_neg (show (0 : Fin 1) ∉ D.sKept from by simp [hD, ScatterDims.sKept, Shape.kept])]
  unfold ScatterDims.resultIdx?
  by_cases h : 0 ≤ (idx (ix2 e 0)).toInt ∧ (idx (ix2 e 0)).toInt < N
  · have hall : ∀ a, 0 ≤ D.start (ix1 e) idx a + D.window (ix1 e) a ∧
        D.start (ix1 e) idx a + D.window (ix1 e) a < (⟨1, ![N]⟩ : Shape).size a := by
      intro a
      match a with
      | ⟨0, _⟩ =>
        show 0 ≤ D.start (ix1 e) idx 0 + D.window (ix1 e) 0 ∧ D.start (ix1 e) idx 0 + D.window (ix1 e) 0 < (N : Int)
        rw [hs0, hw0]; omega
    rw [dif_pos hall, dif_pos h]
    congr 1
    funext a
    refine Fin.ext ?_
    match a with
    | ⟨0, _⟩ =>
      show (D.start (ix1 e) idx 0 + D.window (ix1 e) 0).toNat = (idx (ix2 e 0)).toInt.toNat
      rw [hs0, hw0]; simp
  · rw [dif_neg h, dif_neg]
    intro hall
    have h0 : 0 ≤ D.start (ix1 e) idx 0 + D.window (ix1 e) 0 ∧ D.start (ix1 e) idx 0 + D.window (ix1 e) 0 < (N : Int) :=
      hall 0
    rw [hs0, hw0] at h0
    exact h (by omega)

theorem resultIdx?_eq_some_iff (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : Int) := by
  rw [resultIdx?_flat d huw hiw hsd hivd idx e]
  have hn := n.isLt
  split
  · next h =>
    rw [Option.some.injEq, ix1_inj]
    constructor
    · intro h1
      have := congrArg Fin.val h1
      simp only at this
      omega
    · intro h1
      refine Fin.ext ?_
      show (idx (ix2 e 0)).toInt.toNat = n.val
      omega
  · next h =>
    constructor
    · intro h'; exact absurd h' (by simp)
    · intro h1; exact absurd (show 0 ≤ (idx (ix2 e 0)).toInt ∧ (idx (ix2 e 0)).toInt < N by omega) h

theorem hostScatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n) =
      x (ix1 n) + ∑ e ∈ Finset.univ.filter (fun e : Fin E => (idx (ix2 e 0)).toInt = (n.val : Int)), upd (ix1 e) := by
  unfold Ideal.hostScatterAdd
  congr 1
  rw [Finset.sum_filter, sum_idx1, Finset.sum_filter]
  refine Finset.sum_congr rfl fun e _ => ?_
  simp only [resultIdx?_eq_some_iff d huw hiw hsd hivd idx e n]

end Scatter

section HostForm
variable {N E w : Nat} {φ : FTy}

theorem scatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n) =
      x (ix1 n) + ∑ e ∈ Finset.univ.filter (fun e : Fin E => (idx (ix2 e 0)).toInt = (n.val : Int)), upd (ix1 e) :=
  hostScatterAdd_apply d huw hiw hsd hivd x idx upd n

end HostForm

end Cert.Bridge.GS1
-- ==== Proof.SpecHost.lean ====
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«422288_j69166153335416_3_alg».proof.Proof.Spec
import proofs.«422288_j69166153335416_3_alg».proof.Proof.LibGatherScatter
import proofs.«422288_j69166153335416_3_alg».proof.Proof.LibScatter1

noncomputable section

open scoped BigOperators

namespace Cert.SpecHost

open Idealize.ShloMosaic Idealize.ShloMosaic.ValueIdx Cert.Spec Cert.Bridge

abbrev S_ : Shape := ⟨0, ![]⟩

theorem bcastCol_apply {α : Type} {E : Nat} (hE : E ≠ 1)
    (h : (⟨1, ![E]⟩ : Shape).BroadcastsInDim ⟨2, ![E, 1]⟩ (![0] : Fin 1 → Fin 2))
    (x : (⟨1, ![E]⟩ : Shape).Idx → α) (e : Fin E) (c : Fin 1) :
    broadcastInDim ⟨2, ![E, 1]⟩ ![0] h x (ix2 e c) = x (ix1 e) :=
  broadcastInDim_apply _ h x (ix2 e c) (ix1 e) (fun a => match a with
    | ⟨0, _⟩ => by show e.val = if E = 1 then 0 else e.val; rw [if_neg hE])

theorem cmpi_slt_zero_eq_one_iff (a : BitVec 32) : IntOp.cmpi .slt a 0#32 = 1 ↔ a.toInt < 0 := by
  unfold IntOp.cmpi
  show BitVec.ofBool (a.slt 0#32) = 1 ↔ _
  rw [BitVec.slt_eq_decide]
  by_cases h : a.toInt < 0
  · simp [h]
  · simp [h]

theorem inv_eq
    (ds : ScatterDims ⟨1, ![50000]⟩ ⟨2, ![600000, 1]⟩ ⟨1, ![600000]⟩)
    (huw : ds.updateWindowDims = []) (hiw : ds.insertedWindowDims = [0]) (hsd : ds.scatterDimsToOperandDims = [0])
    (hivd : ds.indexVectorDim = 1)
    (hb0 : (⟨0, ![]⟩ : Shape).BroadcastsInDim ⟨1, ![50000]⟩ (![] : Fin 0 → Fin 1))
    (hbE : (⟨0, ![]⟩ : Shape).BroadcastsInDim ⟨1, ![600000]⟩ (![] : Fin 0 → Fin 1))
    (hbi : (⟨1, ![600000]⟩ : Shape).BroadcastsInDim ⟨2, ![600000, 1]⟩ (![0] : Fin 1 → Fin 2))
    (hbc : (⟨1, ![50000]⟩ : Shape).BroadcastsInDim ⟨2, ![50000, 1]⟩ (![0] : Fin 1 → Fin 2))
    (dst : IArr sE) :
    broadcastInDim ⟨2, ![50000, 1]⟩ ![0] hbc
        (Host.divf (F := Ideal) (φ := .f32)
          (broadcastInDim ⟨1, ![50000]⟩ ![] hb0 (constant S_ .f32 0x3F800000#32))
          (maximumf
            (Host.scatterAdd ds
              (broadcastInDim ⟨1, ![50000]⟩ ![] hb0 (constant S_ .f32 0x00000000#32))
              (broadcastInDim ⟨2, ![600000, 1]⟩ ![0] hbi dst)
              (broadcastInDim ⟨1, ![600000]⟩ ![] hbE (constant S_ .f32 0x3F800000#32)))
            (broadcastInDim ⟨1, ![50000]⟩ ![] hb0 (constant S_ .f32 0x3F800000#32))))
      = Cert.Spec.inv dst := by
  funext i
  obtain ⟨n, c, rfl⟩ : ∃ n c, i = ix2 n c := ⟨i 0, i 1, eq_ix2 i⟩
  rw [bcastCol_apply (by decide) hbc _ n c]
  refine (hostDivf_apply _ _ (ix1 n)).trans ?_
  rw [maximumf_apply, broadcastInDim_scalar_apply, GS1.scatterAdd_apply ds huw hiw hsd hivd _ _ _ n, broadcastInDim_scalar_apply]
  have h1 : constant (F := Ideal) S_ .f32 0x3F800000#32 ix0 = 1 := Ideal.ofBits_one_f32
  have h0 : constant (F := Ideal) S_ .f32 0x00000000#32 ix0 = 0 := Ideal.ofBits_zero_f32
  rw [h1, h0]
  unfold Cert.Spec.inv invE
  refine congrArg (fun d => Ideal.div 1 (max d 1)) ?_
  unfold degE into
  refine congrArg (fun s => (0 : EReal) + s) ?_
  refine Finset.sum_congr (Finset.filter_congr fun e _ => by rw [bcastCol_apply (by decide) hbi dst e 0]) fun e _ => ?_
  rw [broadcastInDim_scalar_apply]
  exact h1

theorem wrap_apply (hbEi : (⟨0, ![]⟩ : Shape).BroadcastsInDim ⟨1, ![600000]⟩ (![] : Fin 0 → Fin 1))
    (src : IArr sE) (e : Fin 600000) :
    select (cmpi .slt src (broadcastInDim ⟨1, ![600000]⟩ ![] hbEi (constantI S_ 32 0#32)))
        (addi src (broadcastInDim ⟨1, ![600000]⟩ ![] hbEi (constantI S_ 32 50000#32))) src (ix1 e)
      = srcWord src e := by
  show Scalar.select (IntOp.cmpi .slt (src (ix1 e)) (broadcastInDim ⟨1, ![600000]⟩ ![] hbEi (constantI S_ 32 0#32) (ix1 e)))
      (IntOp.addi (src (ix1 e)) (broadcastInDim ⟨1, ![600000]⟩ ![] hbEi (constantI S_ 32 50000#32) (ix1 e))) (src (ix1 e)) = _
  rw [broadcastInDim_scalar_apply, broadcastInDim_scalar_apply]
  show (if IntOp.cmpi .slt (src (ix1 e)) 0#32 = 1 then src (ix1 e) + 50000#32 else src (ix1 e)) = _
  unfold srcWord
  by_cases h : (src (ix1 e)).toInt < 0
  · rw [if_pos ((cmpi_slt_zero_eq_one_iff _).mpr h), if_pos h]
  · rw [if_neg (fun h' => h ((cmpi_slt_zero_eq_one_iff _).mp h')), if_neg h]

theorem nraw_eq
    (dg : GatherDims ⟨2, ![50000, 128]⟩ ⟨2, ![600000, 1]⟩ ⟨2, ![600000, 128]⟩)
    (hoff : dg.offsetDims = [1]) (hcoll : dg.collapsedSliceDims = [0]) (hob : dg.operandBatchingDims = [])
    (hsim : dg.startIndexMap = [0]) (hivdg : dg.indexVectorDim = 1)
    (ds : ScatterDims ⟨2, ![50000, 128]⟩ ⟨2, ![600000, 1]⟩ ⟨2, ![600000, 128]⟩)
    (huw : ds.updateWindowDims = [1]) (hiw : ds.insertedWindowDims = [0]) (hsd : ds.scatterDimsToOperandDims = [0])
    (hivd : ds.indexVectorDim = 1)
    (hbz : (⟨0, ![]⟩ : Shape).BroadcastsInDim ⟨2, ![50000, 128]⟩ (![] : Fin 0 → Fin 2))
    (hbi : (⟨1, ![600000]⟩ : Shape).BroadcastsInDim ⟨2, ![600000, 1]⟩ (![0] : Fin 1 → Fin 2))
    (hbEi : (⟨0, ![]⟩ : Shape).BroadcastsInDim ⟨1, ![600000]⟩ (![] : Fin 0 → Fin 1))
    (x : Arr sNH) (src dst : IArr sE) :
    Host.scatterAdd (F := Ideal) (φ := .f32) ds
        (broadcastInDim ⟨2, ![50000, 128]⟩ ![] hbz (constant S_ .f32 0x00000000#32))
        (broadcastInDim ⟨2, ![600000, 1]⟩ ![0] hbi dst)
        (Host.gather dg x (broadcastInDim ⟨2, ![600000, 1]⟩ ![0] hbi
          (select (cmpi .slt src (broadcastInDim ⟨1, ![600000]⟩ ![] hbEi (constantI S_ 32 0#32)))
            (addi src (broadcastInDim ⟨1, ![600000]⟩ ![] hbEi (constantI S_ 32 50000#32))) src)))
      = Cert.Spec.nraw x src dst := by
  funext i
  obtain ⟨n, j, rfl⟩ : ∃ n j, i = ix2 n j := ⟨i 0, i 1, eq_ix2 i⟩
  rw [GS.scatterAdd_apply ds huw hiw hsd hivd _ _ _ n j]
  show _ = 0 + ∑ e ∈ into dst n, x (ix2 (srcRow src e) j)
  refine congrArg₂ (· + ·) ?_ ?_
  · rw [broadcastInDim_scalar_apply]
    exact Ideal.ofBits_zero_f32
  · unfold into
    refine Finset.sum_congr (Finset.filter_congr fun e _ => by rw [bcastCol_apply (by decide) hbi dst e 0]) fun e _ => ?_
    rw [GS.gather_apply (by decide) dg hoff hcoll hob hsim hivdg x _ e j]
    refine congrArg (fun r => x (ix2 r j)) (Fin.ext ?_)
    show min _ (50000 - 1) = min (srcWord src e).toInt.toNat 49999
    rw [bcastCol_apply (by decide) hbi _ e 0, wrap_apply hbEi src e]

theorem cntR_eq
    (ds : ScatterDims ⟨1, ![256]⟩ ⟨2, ![50000, 1]⟩ ⟨1, ![50000]⟩)
    (huw : ds.updateWindowDims = []) (hiw : ds.insertedWindowDims = [0]) (hsd : ds.scatterDimsToOperandDims = [0])
    (hivd : ds.indexVectorDim = 1)
    (hbG : (⟨0, ![]⟩ : Shape).BroadcastsInDim ⟨1, ![256]⟩ (![] : Fin 0 → Fin 1))
    (hbN : (⟨0, ![]⟩ : Shape).BroadcastsInDim ⟨1, ![50000]⟩ (![] : Fin 0 → Fin 1))
    (hbc : (⟨1, ![50000]⟩ : Shape).BroadcastsInDim ⟨2, ![50000, 1]⟩ (![0] : Fin 1 → Fin 2))
    (gid : IArr sN) :
    Host.scatterAdd (F := Ideal) (φ := .f32) ds
        (broadcastInDim ⟨1, ![256]⟩ ![] hbG (constant S_ .f32 0x00000000#32))
        (broadcastInDim ⟨2, ![50000, 1]⟩ ![0] hbc gid)
        (broadcastInDim ⟨1, ![50000]⟩ ![] hbN (constant S_ .f32 0x3F800000#32))
      = fun i => Cert.Spec.cntR gid (i 0) := by
  funext i
  obtain ⟨g, rfl⟩ : ∃ g, i = ix1 g := ⟨i 0, eq_ix1 i⟩
  rw [GS1.scatterAdd_apply ds huw hiw hsd hivd _ _ _ g, broadcastInDim_scalar_apply]
  have h1 : constant (F := Ideal) S_ .f32 0x3F800000#32 ix0 = 1 := Ideal.ofBits_one_f32
  have h0 : constant (F := Ideal) S_ .f32 0x00000000#32 ix0 = 0 := Ideal.ofBits_zero_f32
  rw [h0]
  show _ = cntR gid g
  unfold cntR members
  refine congrArg (fun s => (0 : EReal) + s) ?_
  refine Finset.sum_congr (Finset.filter_congr fun n _ => by rw [bcastCol_apply (by decide) hbc gid n 0]) fun n _ => ?_
  rw [broadcastInDim_scalar_apply]
  exact h1

theorem sumR_eq
    (ds : ScatterDims ⟨2, ![256, 128]⟩ ⟨2, ![50000, 1]⟩ ⟨2, ![50000, 128]⟩)
    (huw : ds.updateWindowDims = [1]) (hiw : ds.insertedWindowDims = [0]) (hsd : ds.scatterDimsToOperandDims = [0])
    (hivd : ds.indexVectorDim = 1)
    (hbz : (⟨0, ![]⟩ : Shape).BroadcastsInDim ⟨2, ![256, 128]⟩ (![] : Fin 0 → Fin 2))
    (hbc : (⟨1, ![50000]⟩ : Shape).BroadcastsInDim ⟨2, ![50000, 1]⟩ (![0] : Fin 1 → Fin 2))
    (x : Arr sNH) (gid : IArr sN) :
    Host.scatterAdd (F := Ideal) (φ := .f32) ds
        (broadcastInDim ⟨2, ![256, 128]⟩ ![] hbz (constant S_ .f32 0x00000000#32))
        (broadcastInDim ⟨2, ![50000, 1]⟩ ![0] hbc gid)
        x
      = fun i => Cert.Spec.sumR x gid (i 0) (i 1) := by
  funext i
  obtain ⟨g, j, rfl⟩ : ∃ g j, i = ix2 g j := ⟨i 0, i 1, eq_ix2 i⟩
  rw [GS.scatterAdd_apply ds huw hiw hsd hivd _ _ _ g j, broadcastInDim_scalar_apply]
  have h0 : constant (F := Ideal) S_ .f32 0x00000000#32 ix0 = 0 := Ideal.ofBits_zero_f32
  rw [h0]
  show _ = sumR x gid g j
  unfold sumR members
  refine congrArg (fun s => (0 : EReal) + s) ?_
  exact Finset.sum_congr (Finset.filter_congr fun n _ => by rw [bcastCol_apply (by decide) hbc gid n 0]) fun n _ => rfl

end Cert.SpecHost

end
-- ==== Proof.KI.HostRead.lean ====
import proofs.«422288_j69166153335416_3_alg».proof.Proof.Gen.KernelIdeal.Launch
import proofs.«422288_j69166153335416_3_alg».proof.Proof.Gen.KernelIdeal.Regions
import proofs.«422288_j69166153335416_3_alg».proof.Proof.Spec
import proofs.«422288_j69166153335416_3_alg».proof.Proof.SpecHost
import Idealize.ShloMosaic.Lib.StableHlo.Run
import Idealize.ShloMosaic.Lib.Pipeline.Value
import Idealize.ShloMosaic.Lib.ValueIdx
import Idealize.ShloMosaic.Lib.ValueLayout

set_option maxRecDepth 1204

noncomputable section

namespace Cert.KernelIdeal.Val

open Idealize.ShloMosaic Idealize.ShloMosaic.TcCoe Idealize.ShloMosaic.ValueIdx
open Cert.KernelIdeal Cert.KernelIdeal.Gen

variable (W : Valuation τ sig (Elt Ideal))

def nrawOps (x : Vec Ideal S50000x128 .f32) (src dst : Vec Ideal S600000 .i32) : Vec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

def invOps (dst : Vec Ideal S600000 .i32) : Vec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf
        (Host.scatterAdd (F := Ideal) scatter_S50000_S600000x1_S600000_n_0_0_1
          (broadcastInDim S50000 ![] bcast_S_S50000 (constant (F := Ideal) S_ .f32 0x00000000#32))
          (broadcastInDim S600000x1 ![0] bcast_S600000_S600000x1_0 dst)
          (broadcastInDim S600000 ![] bcast_S_S600000 (constant (F := Ideal) S_ .f32 0x3F800000#32)))
        (broadcastInDim S50000 ![] bcast_S_S50000 (constant (F := Ideal) S_ .f32 0x3F800000#32))))

theorem nrawOps_eq (x : Vec Ideal S50000x128 .f32) (src dst : Vec Ideal S600000 .i32) :
    nrawOps x src dst = Cert.Spec.nraw x src dst :=
  Cert.SpecHost.nraw_eq gather_S50000x128_S600000x1_S600000x128_1_0_n_n_0_1_1128 rfl rfl rfl rfl rfl
    scatter_S50000x128_S600000x1_S600000x128_1_0_0_1 rfl rfl rfl rfl
    bcast_S_S50000x128 bcast_S600000_S600000x1_0 bcast_S_S600000 x src dst

theorem invOps_eq (dst : Vec Ideal S600000 .i32) : invOps dst = Cert.Spec.inv dst :=
  Cert.SpecHost.inv_eq scatter_S50000_S600000x1_S600000_n_0_0_1 rfl rfl rfl rfl
    bcast_S_S50000 bcast_S_S600000 bcast_S600000_S600000x1_0 bcast_S50000_S50000x1_0 dst

theorem keep0 {r : Ref sig .tc} (h : r ∉ hostOps0_W) :
    StableHlo.after (hostOps0 (F := Ideal)) W (Proc.devRef .tc r) = W (Proc.devRef .tc r) :=
  StableHlo.after_of_writes_sub hostOps0 W hostOps0_writes h
theorem keep1 {r : Ref sig .tc} (h : r ∉ hostOps1_W) :
    StableHlo.after (hostOps1 (F := Ideal)) W (Proc.devRef .tc r) = W (Proc.devRef .tc r) :=
  StableHlo.after_of_writes_sub hostOps1 W hostOps1_writes h
theorem keep2 {r : Ref sig .tc} (h : r ∉ hostOps2_W) :
    StableHlo.after (hostOps2 (F := Ideal)) W (Proc.devRef .tc r) = W (Proc.devRef .tc r) :=
  StableHlo.after_of_writes_sub hostOps2 W hostOps2_writes h
theorem keep3 {r : Ref sig .tc} (h : r ∉ hostOps3_W) :
    StableHlo.after (hostOps3 (F := Ideal)) W (Proc.devRef .tc r) = W (Proc.devRef .tc r) :=
  StableHlo.after_of_writes_sub hostOps3 W hostOps3_writes h
theorem keep4 {r : Ref sig .tc} (h : r ∉ hostOps4_W) :
    StableHlo.after (hostOps4 (F := Ideal)) W (Proc.devRef .tc r) = W (Proc.devRef .tc r) :=
  StableHlo.after_of_writes_sub hostOps4 W hostOps4_writes h
theorem keep5 {r : Ref sig .tc} (h : r ∉ hostOps5_W) :
    StableHlo.after (hostOps5 (F := Ideal)) W (Proc.devRef .tc r) = W (Proc.devRef .tc r) :=
  StableHlo.after_of_writes_sub hostOps5 W hostOps5_writes h
theorem keep6 {r : Ref sig .tc} (h : r ∉ hostOps6_W) :
    StableHlo.after (hostOps6 (F := Ideal)) W (Proc.devRef .tc r) = W (Proc.devRef .tc r) :=
  StableHlo.after_of_writes_sub hostOps6 W hostOps6_writes h

theorem h0_gidCol : StableHlo.after (hostOps0 (F := Ideal)) W (Proc.devRef .tc main_v0)
    = (shapeCast S50000x1 (W (Proc.devRef .tc main_arg3)) shapeCasts_S50000_S50000x1 : Vec Ideal S50000x1 .i32) := by
  show StableHlo.after hostOps0 W (Proc.devRef .tc main_v0) = _
  after_results
  rfl

theorem h0_bembRow : StableHlo.after (hostOps0 (F := Ideal)) W (Proc.devRef .tc main_v1)
    = (shapeCast S1x128 (W (Proc.devRef .tc main_arg5)) shapeCasts_S128_S1x128 : Vec Ideal S1x128 .f32) := by
  show StableHlo.after hostOps0 W (Proc.devRef .tc main_v1) = _
  after_results
  rfl

theorem h1_inv : StableHlo.after (hostOps1 (F := Ideal)) W (Proc.devRef .tc main_v11)
    = invOps (W (Proc.devRef .tc main_arg2)) := by
  show StableHlo.after hostOps1 W (Proc.devRef .tc main_v11) = _
  after_results_simp
  rfl

theorem h1_nraw : StableHlo.after (hostOps1 (F := Ideal)) W (Proc.devRef .tc main_v21)
    = nrawOps (W (Proc.devRef .tc main_v2)) (W (Proc.devRef .tc main_arg1)) (W (Proc.devRef .tc main_arg2)) := by
  show StableHlo.after hostOps1 W (Proc.devRef .tc main_v21) = _
  after_results_simp
  rfl

theorem h1_w1 : StableHlo.after (hostOps1 (F := Ideal)) W (Proc.devRef .tc main_v23)
    = (shapeCast S128x128 (extractStridedSlice S1x128x128 ![0, 0, 0] (W (Proc.devRef .tc main_arg6)) slices_S4x128x256_S1x128x128_0_0_0)
        shapeCasts_S1x128x128_S128x128 : Vec Ideal S128x128 .f32) := by
  show StableHlo.after hostOps1 W (Proc.devRef .tc main_v23) = _
  after_results_simp
  rfl

theorem h1_w2 : StableHlo.after (hostOps1 (F := Ideal)) W (Proc.devRef .tc main_v25)
    = (shapeCast S128x128 (extractStridedSlice S1x128x128 ![0, 0, 128] (W (Proc.devRef .tc main_arg6)) slices_S4x128x256_S1x128x128_0_0_128)
        shapeCasts_S1x128x128_S128x128 : Vec Ideal S128x128 .f32) := by
  show StableHlo.after hostOps1 W (Proc.devRef .tc main_v25) = _
  after_results_simp
  rfl

theorem h1_bias : StableHlo.after (hostOps1 (F := Ideal)) W (Proc.devRef .tc main_v28)
    = (shapeCast S1x128 (shapeCast S128 (extractStridedSlice S1x128 ![0, 0] (W (Proc.devRef .tc main_arg7)) slices_S4x128_S1x128_0_0)
        shapeCasts_S1x128_S128) shapeCasts_S128_S1x128 : Vec Ideal S1x128 .f32) := by
  show StableHlo.after hostOps1 W (Proc.devRef .tc main_v28) = _
  after_results_simp
  rfl

theorem h2_nraw : StableHlo.after (hostOps2 (F := Ideal)) W (Proc.devRef .tc main_v39)
    = nrawOps (W (Proc.devRef .tc main_v29)) (W (Proc.devRef .tc main_arg1)) (W (Proc.devRef .tc main_arg2)) := by
  show StableHlo.after hostOps2 W (Proc.devRef .tc main_v39) = _
  after_results_simp
  rfl

theorem h2_w1 : StableHlo.after (hostOps2 (F := Ideal)) W (Proc.devRef .tc main_v41)
    = (shapeCast S128x128 (extractStridedSlice S1x128x128 ![1, 0, 0] (W (Proc.devRef .tc main_arg6)) slices_S4x128x256_S1x128x128_1_0_0)
        shapeCasts_S1x128x128_S128x128 : Vec Ideal S128x128 .f32) := by
  show StableHlo.after hostOps2 W (Proc.devRef .tc main_v41) = _
  after_results_simp
  rfl

theorem h2_w2 : StableHlo.after (hostOps2 (F := Ideal)) W (Proc.devRef .tc main_v43)
    = (shapeCast S128x128 (extractStridedSlice S1x128x128 ![1, 0, 128] (W (Proc.devRef .tc main_arg6)) slices_S4x128x256_S1x128x128_1_0_128)
        shapeCasts_S1x128x128_S128x128 : Vec Ideal S128x128 .f32) := by
  show StableHlo.after hostOps2 W (Proc.devRef .tc main_v43) = _
  after_results_simp
  rfl

theorem h2_bias : StableHlo.after (hostOps2 (F := Ideal)) W (Proc.devRef .tc main_v46)
    = (shapeCast S1x128 (shapeCast S128 (extractStridedSlice S1x128 ![1, 0] (W (Proc.devRef .tc main_arg7)) slices_S4x128_S1x128_1_0)
        shapeCasts_S1x128_S128) shapeCasts_S128_S1x128 : Vec Ideal S1x128 .f32) := by
  show StableHlo.after hostOps2 W (Proc.devRef .tc main_v46) = _
  after_results_simp
  rfl

theorem h3_nraw : StableHlo.after (hostOps3 (F := Ideal)) W (Proc.devRef .tc main_v57)
    = nrawOps (W (Proc.devRef .tc main_v47)) (W (Proc.devRef .tc main_arg1)) (W (Proc.devRef .tc main_arg2)) := by
  show StableHlo.after hostOps3 W (Proc.devRef .tc main_v57) = _
  after_results_simp
  rfl

theorem h3_w1 : StableHlo.after (hostOps3 (F := Ideal)) W (Proc.devRef .tc main_v59)
    = (shapeCast S128x128 (extractStridedSlice S1x128x128 ![2, 0, 0] (W (Proc.devRef .tc main_arg6)) slices_S4x128x256_S1x128x128_2_0_0)
        shapeCasts_S1x128x128_S128x128 : Vec Ideal S128x128 .f32) := by
  show StableHlo.after hostOps3 W (Proc.devRef .tc main_v59) = _
  after_results_simp
  rfl

theorem h3_w2 : StableHlo.after (hostOps3 (F := Ideal)) W (Proc.devRef .tc main_v61)
    = (shapeCast S128x128 (extractStridedSlice S1x128x128 ![2, 0, 128] (W (Proc.devRef .tc main_arg6)) slices_S4x128x256_S1x128x128_2_0_128)
        shapeCasts_S1x128x128_S128x128 : Vec Ideal S128x128 .f32) := by
  show StableHlo.after hostOps3 W (Proc.devRef .tc main_v61) = _
  after_results_simp
  rfl

theorem h3_bias : StableHlo.after (hostOps3 (F := Ideal)) W (Proc.devRef .tc main_v64)
    = (shapeCast S1x128 (shapeCast S128 (extractStridedSlice S1x128 ![2, 0] (W (Proc.devRef .tc main_arg7)) slices_S4x128_S1x128_2_0)
        shapeCasts_S1x128_S128) shapeCasts_S128_S1x128 : Vec Ideal S1x128 .f32) := by
  show StableHlo.after hostOps3 W (Proc.devRef .tc main_v64) = _
  after_results_simp
  rfl

theorem h4_nraw : StableHlo.after (hostOps4 (F := Ideal)) W (Proc.devRef .tc main_v75)
    = nrawOps (W (Proc.devRef .tc main_v65)) (W (Proc.devRef .tc main_arg1)) (W (Proc.devRef .tc main_arg2)) := by
  show StableHlo.after hostOps4 W (Proc.devRef .tc main_v75) = _
  after_results_simp
  rfl

theorem h4_w1 : StableHlo.after (hostOps4 (F := Ideal)) W (Proc.devRef .tc main_v77)
    = (shapeCast S128x128 (extractStridedSlice S1x128x128 ![3, 0, 0] (W (Proc.devRef .tc main_arg6)) slices_S4x128x256_S1x128x128_3_0_0)
        shapeCasts_S1x128x128_S128x128 : Vec Ideal S128x128 .f32) := by
  show StableHlo.after hostOps4 W (Proc.devRef .tc main_v77) = _
  after_results_simp
  rfl

theorem h4_w2 : StableHlo.after (hostOps4 (F := Ideal)) W (Proc.devRef .tc main_v79)
    = (shapeCast S128x128 (extractStridedSlice S1x128x128 ![3, 0, 128] (W (Proc.devRef .tc main_arg6)) slices_S4x128x256_S1x128x128_3_0_128)
        shapeCasts_S1x128x128_S128x128 : Vec Ideal S128x128 .f32) := by
  show StableHlo.after hostOps4 W (Proc.devRef .tc main_v79) = _
  after_results_simp
  rfl

theorem h4_bias : StableHlo.after (hostOps4 (F := Ideal)) W (Proc.devRef .tc main_v82)
    = (shapeCast S1x128 (shapeCast S128 (extractStridedSlice S1x128 ![3, 0] (W (Proc.devRef .tc main_arg7)) slices_S4x128_S1x128_3_0)
        shapeCasts_S1x128_S128) shapeCasts_S128_S1x128 : Vec Ideal S1x128 .f32) := by
  show StableHlo.after hostOps4 W (Proc.devRef .tc main_v82) = _
  after_results_simp
  rfl

theorem h5_prot : StableHlo.after (hostOps5 (F := Ideal)) W (Proc.devRef .tc main_v84)
    = (concatenate S20x128 0 [⟨S10x128, W (Proc.devRef .tc main_arg8)⟩, ⟨S10x128, W (Proc.devRef .tc main_arg9)⟩]
        concatenates_S10x128_S10x128_S20x128_d0 : Vec Ideal S20x128 .f32) := by
  show StableHlo.after hostOps5 W (Proc.devRef .tc main_v84) = _
  after_results

theorem h6_result : StableHlo.after (hostOps6 (F := Ideal)) W (Proc.devRef .tc main_v86)
    = (shapeCast S256 (W (Proc.devRef .tc main_v85)) shapeCasts_S256x1_S256 : Vec Ideal S256 .f32) := by
  show StableHlo.after hostOps6 W (Proc.devRef .tc main_v86) = _
  after_results
  rfl

end Cert.KernelIdeal.Val

end
-- ==== Proof.KI.HostForms.lean ====
import proofs.«422288_j69166153335416_3_alg».proof.KernelIdeal
import proofs.«422288_j69166153335416_3_alg».proof.Proof.Spec
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.ValueIdx

theorem slab_apply (a6 : Vec Ideal S4x128x256 .f32) (l o : Nat) (hl : l < 4) (ho : o + 128 ≤ 256)
    (hs : S4x128x256.Slices ![l, 0, o] S1x128x128) (hc : S1x128x128.ShapeCasts S128x128) (j k : Fin 128) :
    shapeCast S128x128 (extractStridedSlice S1x128x128 ![l, 0, o] a6 hs) hc (ix2 j k)
      = a6 (ix3 (⟨l, hl⟩ : Fin 4) j (⟨o + k.val, by omega⟩ : Fin 256)) := by
  refine (shapeCast_1ab_ab_apply _ hc j k).trans ?_
  exact extractStridedSlice_apply _ _ hs _ _ (fun ax => by
    match ax with
    | ⟨0, _⟩ => exact (Nat.add_zero _).symm
    | ⟨1, _⟩ => exact (Nat.zero_add _).symm
    | ⟨2, _⟩ => rfl)

theorem w1_slab (a6 : Vec Ideal S4x128x256 .f32) (l : Nat) (hl : l < 4)
    (hs : S4x128x256.Slices ![l, 0, 0] S1x128x128) (hc : S1x128x128.ShapeCasts S128x128) :
    shapeCast S128x128 (extractStridedSlice S1x128x128 ![l, 0, 0] a6 hs) hc = Cert.Spec.w1Of a6 ⟨l, hl⟩ := by
  funext i
  rw [eq_ix2 i]
  refine (slab_apply a6 l 0 hl (by omega) hs hc (i 0) (i 1)).trans ?_
  show a6 _ = a6 _
  congr 1
  funext d
  match d with
  | ⟨0, _⟩ => rfl
  | ⟨1, _⟩ => rfl
  | ⟨2, _⟩ => exact Fin.ext (Nat.zero_add _)

theorem w2_slab (a6 : Vec Ideal S4x128x256 .f32) (l : Nat) (hl : l < 4)
    (hs : S4x128x256.Slices ![l, 0, 128] S1x128x128) (hc : S1x128x128.ShapeCasts S128x128) :
    shapeCast S128x128 (extractStridedSlice S1x128x128 ![l, 0, 128] a6 hs) hc = Cert.Spec.w2Of a6 ⟨l, hl⟩ := by
  funext i
  rw [eq_ix2 i]
  exact slab_apply a6 l 128 hl (by omega) hs hc (i 0) (i 1)

variable (a6 : Vec Ideal S4x128x256 .f32) {hc : S1x128x128.ShapeCasts S128x128}

theorem w1_0 {hs : S4x128x256.Slices ![0, 0, 0] S1x128x128} :
    shapeCast S128x128 (extractStridedSlice S1x128x128 ![0, 0, 0] a6 hs) hc = Cert.Spec.w1Of a6 0 := w1_slab a6 0 (by omega) hs hc
theorem w1_1 {hs : S4x128x256.Slices ![1, 0, 0] S1x128x128} :
    shapeCast S128x128 (extractStridedSlice S1x128x128 ![1, 0, 0] a6 hs) hc = Cert.Spec.w1Of a6 1 := w1_slab a6 1 (by omega) hs hc
theorem w1_2 {hs : S4x128x256.Slices ![2, 0, 0] S1x128x128} :
    shapeCast S128x128 (extractStridedSlice S1x128x128 ![2, 0, 0] a6 hs) hc = Cert.Spec.w1Of a6 2 := w1_slab a6 2 (by omega) hs hc
theorem w1_3 {hs : S4x128x256.Slices ![3, 0, 0] S1x128x128} :
    shapeCast S128x128 (extractStridedSlice S1x128x128 ![3, 0, 0] a6 hs) hc = Cert.Spec.w1Of a6 3 := w1_slab a6 3 (by omega) hs hc
theorem w2_0 {hs : S4x128x256.Slices ![0, 0, 128] S1x128x128} :
    shapeCast S128x128 (extractStridedSlice S1x128x128 ![0, 0, 128] a6 hs) hc = Cert.Spec.w2Of a6 0 := w2_slab a6 0 (by omega) hs hc
theorem w2_1 {hs : S4x128x256.Slices ![1, 0, 128] S1x128x128} :
    shapeCast S128x128 (extractStridedSlice S1x128x128 ![1, 0, 128] a6 hs) hc = Cert.Spec.w2Of a6 1 := w2_slab a6 1 (by omega) hs hc
theorem w2_2 {hs : S4x128x256.Slices ![2, 0, 128] S1x128x128} :
    shapeCast S128x128 (extractStridedSlice S1x128x128 ![2, 0, 128] a6 hs) hc = Cert.Spec.w2Of a6 2 := w2_slab a6 2 (by omega) hs hc
theorem w2_3 {hs : S4x128x256.Slices ![3, 0, 128] S1x128x128} :
    shapeCast S128x128 (extractStridedSlice S1x128x128 ![3, 0, 128] a6 hs) hc = Cert.Spec.w2Of a6 3 := w2_slab a6 3 (by omega) hs hc

theorem bias_row (a7 : Vec Ideal S4x128 .f32) (l : Nat) (hl : l < 4)
    (hs : S4x128.Slices ![l, 0] S1x128) (hd : S1x128.ShapeCasts S128) (hu : S128.ShapeCasts S1x128) :
    (fun i : S128.Idx => shapeCast S1x128 (shapeCast S128 (extractStridedSlice S1x128 ![l, 0] a7 hs) hd) hu (ix2 0 (i 0)))
      = Cert.Spec.bOf a7 ⟨l, hl⟩ := by
  funext i
  refine (shapeCast_a_1a_apply _ hu 0 (i 0)).trans ?_
  refine (shapeCast_1a_a_apply _ hd (i 0)).trans ?_
  exact extractStridedSlice_apply _ _ hs _ _ (fun ax => by
    match ax with
    | ⟨0, _⟩ => exact (Nat.add_zero _).symm
    | ⟨1, _⟩ => exact (Nat.zero_add _).symm)

variable (a7 : Vec Ideal S4x128 .f32) {hd : S1x128.ShapeCasts S128} {hu : S128.ShapeCasts S1x128}

theorem bias_0 {hs : S4x128.Slices ![0, 0] S1x128} :
    (fun i : S128.Idx => shapeCast S1x128 (shapeCast S128 (extractStridedSlice S1x128 ![0, 0] a7 hs) hd) hu (ix2 0 (i 0)))
      = Cert.Spec.bOf a7 0 := bias_row a7 0 (by omega) hs hd hu
theorem bias_1 {hs : S4x128.Slices ![1, 0] S1x128} :
    (fun i : S128.Idx => shapeCast S1x128 (shapeCast S128 (extractStridedSlice S1x128 ![1, 0] a7 hs) hd) hu (ix2 0 (i 0)))
      = Cert.Spec.bOf a7 1 := bias_row a7 1 (by omega) hs hd hu
theorem bias_2 {hs : S4x128.Slices ![2, 0] S1x128} :
    (fun i : S128.Idx => shapeCast S1x128 (shapeCast S128 (extractStridedSlice S1x128 ![2, 0] a7 hs) hd) hu (ix2 0 (i 0)))
      = Cert.Spec.bOf a7 2 := bias_row a7 2 (by omega) hs hd hu
theorem bias_3 {hs : S4x128.Slices ![3, 0] S1x128} :
    (fun i : S128.Idx => shapeCast S1x128 (shapeCast S128 (extractStridedSlice S1x128 ![3, 0] a7 hs) hd) hu (ix2 0 (i 0)))
      = Cert.Spec.bOf a7 3 := bias_row a7 3 (by omega) hs hd hu

theorem row_of_vec (a5 : Vec Ideal S128 .f32) (h : S128.ShapeCasts S1x128) (j : Fin 128) :
    shapeCast S1x128 a5 h (ix2 0 j) = a5 (ix1 j) := shapeCast_a_1a_apply a5 h 0 j

theorem col_of_vec (a3 : Vec Ideal S50000 .i32) (h : S50000.ShapeCasts S50000x1) (n : Fin 50000) :
    shapeCast S50000x1 a3 h (ix2 n 0) = a3 (ix1 n) :=
  shapeCast_apply a3 h _ _ (by
    rw [Shape.rowMajor_val_one, Shape.rowMajor_val_two]
    show n.val = n.val * 1 + 0
    omega)

theorem vec_of_col (y : Vec Ideal S256x1 .f32) (h : S256x1.ShapeCasts S256) (g : Fin 256) :
    shapeCast S256 y h (ix1 g) = y (ix2 g 0) :=
  shapeCast_apply y h _ _ (by
    rw [Shape.rowMajor_val_one, Shape.rowMajor_val_two]
    show g.val * 1 + 0 = g.val
    omega)

theorem prot_concat (a8 a9 : Vec Ideal S10x128 .f32) (h : Shape.Concatenates [S10x128, S10x128] S20x128 0) :
    concatenate S20x128 0 [⟨S10x128, a8⟩, ⟨S10x128, a9⟩] h = Cert.Spec.prot a8 a9 := by
  funext i
  show _ = Cert.Spec.protE a8 a9 (i 0) (i 1)
  unfold Cert.Spec.protE
  by_cases hq : (i 0).val < 10
  · rw [dif_pos hq]
    exact concatenate_pair_apply_left 0 a8 a9 h i rfl _ (fun b => by
      match b with
      | ⟨0, _⟩ => rfl
      | ⟨1, _⟩ => rfl)
  · rw [dif_neg hq]
    refine concatenate_pair_apply_right 0 a8 a9 h i rfl rfl _ (fun b hb => ?_) ?_
    · match b with
      | ⟨0, _⟩ => exact absurd rfl hb
      | ⟨1, _⟩ => rfl
    · show (i 0).val - 10 + 10 = (i 0).val
      omega

end Cert.KernelIdeal.Val

end
-- ==== Proof.KI.V0.lean ====
import proofs.«422288_j69166153335416_3_alg».proof.Proof.KI.R0
import proofs.«422288_j69166153335416_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

theorem lhs_embed_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem lhs_embed_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
theorem rhs_embed_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem rhs_embed_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

set_option maxHeartbeats 400000 in

theorem pay_embed (x0 : Vec Ideal S5000x128 .f32) (x1 : Vec Ideal S128x128 .f32) (x2 : Vec Ideal S1x128 .f32) (r : Fin 5000) (j : Fin 128) :
    k0_pay1 (F := Ideal) x0 x1 x2 (ix2 r j) = (∑ k : Fin 128, x0 (ix2 r k) * x1 (ix2 j k)) + x2 (ix2 0 j) := by
  unfold k0_pay1
  refine (addf_apply _ _ _).trans ?_
  refine congrArg₂ (· + ·) ?_ ?_
  · refine (Ideal.matmul_constant_zero_apply dot_S5000x128_S128x128_S5000x128_1_1_0_0_n_n none _ _ _).trans ?_
    rw [← Equiv.sum_comp (contrEquiv1 dot_S5000x128_S128x128_S5000x128_1_1_0_0_n_n 128 rfl rfl).symm]
    refine Finset.sum_congr rfl fun k _ => ?_
    have hk := contrEquiv1_symm_val dot_S5000x128_S128x128_S5000x128_1_1_0_0_n_n 128 rfl rfl k
    have el : dot_S5000x128_S128x128_S5000x128_1_1_0_0_n_n.lhsIdx (ix2 r j) ((contrEquiv1 dot_S5000x128_S128x128_S5000x128_1_1_0_0_n_n 128 rfl rfl).symm k) = ix2 r k := funext fun a => Fin.ext (by
      match a with
      | ⟨0, _⟩ => exact lhs_embed_0 _ _
      | ⟨1, _⟩ => exact (lhs_embed_1 _ _).trans hk)
    have er : dot_S5000x128_S128x128_S5000x128_1_1_0_0_n_n.rhsIdx (ix2 r j) ((contrEquiv1 dot_S5000x128_S128x128_S5000x128_1_1_0_0_n_n 128 rfl rfl).symm k) = ix2 j k := funext fun a => Fin.ext (by
      match a with
      | ⟨0, _⟩ => exact rhs_embed_0 _ _
      | ⟨1, _⟩ => exact (rhs_embed_1 _ _).trans hk)
    show x0 (dot_S5000x128_S128x128_S5000x128_1_1_0_0_n_n.lhsIdx (ix2 r j) _) * x1 (dot_S5000x128_S128x128_S5000x128_1_1_0_0_n_n.rhsIdx (ix2 r j) _) = _
    rw [el, er]
  · refine (broadcastTo_apply _ broadcasts_S1x128_S5000x128 (ix2 r j) (ix2 0 j) (fun a => ?_)).trans ?_
    · match a with
      | ⟨0, _⟩ => rfl
      | ⟨1, _⟩ => rfl
    · rw [shapeCast_self]

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev featArr (c : Dev nD) : S50000x128.Idx → EReal := V c main_arg0
abbrev wArr (c : Dev nD) : S128x128.Idx → EReal := V c main_arg4
abbrev bRow (c : Dev nD) : S1x128.Idx → EReal := V c main_v1

theorem feat_blk (c : Dev nD) (t : Fin cfg0.N) (r : Fin 5000) (k : Fin 128) (n : Fin 50000) (hn : n.val = 5000 * t.val + r.val) :
    (iblk0 V c 0 t : Vec Ideal S5000x128 .f32) (ix2 r k) = featArr V c (ix2 n k) := by
  obtain ⟨e0, e1, -⟩ := idx_facts0 t
  show featArr V c (((cfg0.win 0).blk t).view.emb (ix2 r k)) = _
  refine congrArg _ (funext fun a => Fin.ext ?_)
  match a with
  | ⟨0, _⟩ => show win0_0.index t (0 : Fin 2) * 5000 + 1 * r.val = n.val; rw [e0, hn]; omega
  | ⟨1, _⟩ => show win0_0.index t (1 : Fin 2) * 128 + 1 * k.val = k.val; rw [e1]; omega

theorem w_blk (c : Dev nD) (t : Fin cfg0.N) (j k : Fin 128) :
    (iblk0 V c 1 t : Vec Ideal S128x128 .f32) (ix2 j k) = wArr V c (ix2 j k) := by
  obtain ⟨-, -, e0, e1, -⟩ := idx_facts0 t
  show wArr V c (((cfg0.win 1).blk t).view.emb (ix2 j k)) = _
  refine congrArg _ (funext fun a => Fin.ext ?_)
  match a with
  | ⟨0, _⟩ => show win0_1.index t (0 : Fin 2) * 128 + 1 * j.val = j.val; rw [e0]; omega
  | ⟨1, _⟩ => show win0_1.index t (1 : Fin 2) * 128 + 1 * k.val = k.val; rw [e1]; omega

theorem b_blk (c : Dev nD) (t : Fin cfg0.N) (j : Fin 128) :
    (iblk0 V c 2 t : Vec Ideal S1x128 .f32) (ix2 0 j) = bRow V c (ix2 0 j) := by
  obtain ⟨-, -, -, -, e0, e1, -⟩ := idx_facts0 t
  show bRow V c (((cfg0.win 2).blk t).view.emb (ix2 0 j)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * j.val = j.val; rw [e1]; omega

abbrev embedded (c : Dev nD) : Cert.Spec.Arr Cert.Spec.sNH :=
  Cert.Spec.embed (V c main_arg0) (V c main_arg4) (fun i => (V c main_v1 : S1x128.Idx → EReal) (ix2 0 (i 0)))

theorem blk_value (c : Dev nD) (t : Fin cfg0.N) (y : S5000x128.Idx) (i : S50000x128.Idx)
    (hi0 : (i 0).val = 5000 * t.val + (y 0).val) (hi1 : (i 1).val = (y 1).val) :
    k0_pay1 (F := Ideal) (iblk0 V c 0 t) (iblk0 V c 1 t) (iblk0 V c 2 t) y = embedded V c i := by
  obtain ⟨p, q, rfl⟩ : ∃ (p : Fin 5000) (q : Fin 128), y = ix2 p q := ⟨y 0, y 1, eq_ix2 y⟩
  obtain ⟨n, q', rfl⟩ : ∃ (n : Fin 50000) (q' : Fin 128), i = ix2 n q' := ⟨i 0, i 1, eq_ix2 i⟩
  obtain rfl : q' = q := Fin.ext hi1
  refine (pay_embed (iblk0 V c 0 t) (iblk0 V c 1 t) (iblk0 V c 2 t) p q').trans ?_
  show _ = (∑ k : Fin 128, featArr V c (ix2 n k) * wArr V c (ix2 q' k)) + bRow V c (ix2 0 q')
  refine congrArg₂ (· + ·) (Finset.sum_congr rfl fun k _ => ?_) (b_blk V c t q')
  rw [feat_blk V c t p k n hi0, w_blk V c t q' k]

theorem flushed_embed (c : Dev nD) (t : Fin cfg0.N) :
    (dat0 (F := Ideal) V c).flushed 3 t = ((cfg0.win 3).blk t).view.read (Elt Ideal) (embedded V c) := by
  show (cfg0.win 3).cut (grid0.coords t) ((dat0 V c).after 3 t) = _
  dsimp only [dat0]
  unfold out0_3
  rw [View.canon_unit_zero hz0]
  simp only [View.ld_unit_zero (S := S5000x128) hz0, View.ld_unit_zero (S := S128x128) hz0, View.ld_unit_zero (S := S1x128) hz0]
  obtain ⟨-, -, -, -, -, -, e0, e1⟩ := idx_facts0 t
  funext y
  show k0_pay1 (F := Ideal) (iblk0 V c 0 t) (iblk0 V c 1 t) (iblk0 V c 2 t) y = embedded V c (((cfg0.win 3).blk t).view.emb y)
  refine blk_value V c t y _ ?_ ?_
  · show win0_3.index t (0 : Fin 2) * 5000 + 1 * (y 0).val = _; rw [e0]; omega
  · show win0_3.index t (1 : Fin 2) * 128 + 1 * (y 1).val = _; rw [e1]; omega

theorem mem_blk_embed (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

theorem cover_embed (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by show _ < 10; omega⟩, flush0_3 _, ?_⟩
  rw [mem_blk_embed]
  obtain ⟨-, -, -, -, -, -, e0, e1⟩ := idx_facts0 ⟨(i 0).val / 5000, by show _ < 10; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

theorem arr0 (c : Dev nD) :
    (dat0 (F := Ideal) V c).arrAt 3 cfg0.N
      = Cert.Spec.embed (V c main_arg0) (V c main_arg4) (fun i => (V c main_v1 : S1x128.Idx → EReal) (ValueIdx.ix2 0 (i 0))) :=
  (dat0 (F := Ideal) V c).arrAt_eq_of_cover 3 (embedded V c) (fun t _ => flushed_embed V c t) cover_embed

end Cert.KernelIdeal.Val

end
-- ==== Proof.KI.V1.lean ====
import proofs.«422288_j69166153335416_3_alg».proof.Proof.KI.R1
import proofs.«422288_j69166153335416_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable {α : Type}

private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

private theorem laneSum_apply (src : FVec Ideal S5000x128 .f32) (h : S5000x128.Reduces [1] S5000) (hφ : FTy.f32 = FTy.f32 ∨ FTy.f32 = FTy.bf16)
    (hacc : (0x00000000#32 : BitVec 32) = 0x00000000#32) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext c
  match c with
  | ⟨0, _⟩ => rfl
  | ⟨1, _⟩ => rfl

private theorem layer_lhs_0 (i : S5000x128.Idx) (k : dot_S5000x128_S128x128_S5000x128_1_1_0_0_n_n.contr.Idx) :
    (dot_S5000x128_S128x128_S5000x128_1_1_0_0_n_n.lhsIdx i k 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
private theorem layer_lhs_1 (i : S5000x128.Idx) (k : dot_S5000x128_S128x128_S5000x128_1_1_0_0_n_n.contr.Idx) :
    (dot_S5000x128_S128x128_S5000x128_1_1_0_0_n_n.lhsIdx i k 1).val = (k ⟨0, by decide⟩).val :=
  dot_S5000x128_S128x128_S5000x128_1_1_0_0_n_n.lhsIdx_val_of_single rfl i k
private theorem layer_rhs_0 (i : S5000x128.Idx) (k : dot_S5000x128_S128x128_S5000x128_1_1_0_0_n_n.contr.Idx) :
    (dot_S5000x128_S128x128_S5000x128_1_1_0_0_n_n.rhsIdx i k 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
private theorem layer_rhs_1 (i : S5000x128.Idx) (k : dot_S5000x128_S128x128_S5000x128_1_1_0_0_n_n.contr.Idx) :
    (dot_S5000x128_S128x128_S5000x128_1_1_0_0_n_n.rhsIdx i k 1).val = (k ⟨0, by decide⟩).val :=
  dot_S5000x128_S128x128_S5000x128_1_1_0_0_n_n.rhsIdx_val_of_single rfl i k

private theorem layerDot_apply (lhs : FVec Ideal S5000x128 .bf16) (rhs : FVec Ideal S128x128 .bf16) (p : Fin 5000) (q : Fin 128) :
    matmul dot_S5000x128_S128x128_S5000x128_1_1_0_0_n_n none lhs rhs (constant (F := Ideal) S5000x128 .f32 0x00000000#32) (ix2 p q)
      = ∑ k : Fin 128, lhs (ix2 p k) * rhs (ix2 q k) := by
  simp only [matmul]
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k := funext fun a => Fin.ext (by
    match a with
    | ⟨0, _⟩ => exact layer_lhs_0 _ _
    | ⟨1, _⟩ => exact (layer_lhs_1 _ _).trans hk)
  have er : dot_S5000x128_S128x128_S5000x128_1_1_0_0_n_n.rhsIdx (ix2 p q) ((contrEquiv1 dot_S5000x128_S128x128_S5000x128_1_1_0_0_n_n 128 rfl rfl).symm k) = ix2 q k := funext fun a => Fin.ext (by
    match a with
    | ⟨0, _⟩ => exact layer_rhs_0 _ _
    | ⟨1, _⟩ => exact (layer_rhs_1 _ _).trans hk)
  rw [el, er]

private theorem sqrt_apply {s : Shape} {φ : FTy} (a : FVec Ideal s φ) (i : s.Idx) : sqrt a i = Ideal.sqrt (a i) := rfl

set_option maxHeartbeats 400000 in

theorem pay1_layer (A0 A1 : Cert.Spec.Arr Cert.Spec.sNH) (A2 : Cert.Spec.Arr Cert.Spec.sN1) (A3 A4 : Cert.Spec.Arr Cert.Spec.sHH)
    (A5 : S1x128.Idx → EReal)
    (xa xb : Vec Ideal S5000x128 .f32) (xc : Vec Ideal S5000x1 .f32) (xd xe : Vec Ideal S128x128 .f32) (xf : Vec Ideal S1x128 .f32)
    (n : Fin 50000) (p : Fin 5000)
    (ha : ∀ k : Fin 128, xa (ix2 p k) = A0 (ix2 n k)) (hb : ∀ k : Fin 128, xb (ix2 p k) = A1 (ix2 n k))
    (hc : xc (ix2 p (0 : Fin 1)) = A2 (ix2 n (0 : Fin 1)))
    (hd : ∀ j k : Fin 128, xd (ix2 j k) = A3 (ix2 j k)) (he : ∀ j k : Fin 128, xe (ix2 j k) = A4 (ix2 j k))
    (hf : ∀ j : Fin 128, xf (ix2 (0 : Fin 1) j) = A5 (ix2 (0 : Fin 1) j)) (q : Fin 128) :
    k1_pay1 (F := Ideal) xa xb xc xd xe xf (ix2 p q)
      = Cert.Spec.layerE A0 A1 A2 A3 A4 (fun i => A5 (ix2 (0 : Fin 1) (i 0))) n q := by
  unfold k1_pay1
  simp only [addf_apply, maximumf_apply, divf_apply, mulf_apply, broadcast_apply, truncf_apply, shapeCast_self, sqrt_apply,
    broadcastTo_a1_ab_apply, broadcastTo_1b_ab_apply, shapeCast_a_a1_apply, layerDot_apply,
    Ideal.ofBits_def, Ideal.ofBits_zero_f32, ha, hb, hc, hd, he, hf]
  rw [laneSum_apply]
  simp only [addf_apply, maximumf_apply, divf_apply, mulf_apply, broadcast_apply, truncf_apply, shapeCast_self, sqrt_apply,
    broadcastTo_a1_ab_apply, broadcastTo_1b_ab_apply, shapeCast_a_a1_apply, layerDot_apply,
    Ideal.ofBits_def, Ideal.ofBits_zero_f32, ha, hb, hc, hd, he, hf]
  rfl

variable (V : (c : Dev nD) → (b : Ref sig .tc) → Buf (Elt Ideal) ((c : Thread nD τ).loc b))

theorem zeroOffsets : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

abbrev layer1 (c : Dev nD) : S50000x128.Idx → EReal :=
  Cert.Spec.layerW (V c (Pipeline.arrRef spec1 0)) (V c (Pipeline.arrRef spec1 1)) (V c (Pipeline.arrRef spec1 2))
    (V c (Pipeline.arrRef spec1 3)) (V c (Pipeline.arrRef spec1 4))
    (fun i => (V c (Pipeline.arrRef spec1 5) : S1x128.Idx → EReal) (ix2 (0 : Fin 1) (i 0)))

set_option maxHeartbeats 1000000 in

theorem flushed1_eq (c : Dev nD) (t : Fin cfg1.N) :
    (dat1 (F := Ideal) V c).flushed 6 t = ((cfg1.win 6).blk t).view.read (Elt Ideal) (layer1 V c) := by
  show (cfg1.win 6).cut (grid1.coords t) ((dat1 (F := Ideal) V c).after 6 t) = _
  dsimp only [dat1]
  unfold out1_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e00, e01, e10, e11, e20, e21, e30, e31, e40, e41, e50, e51, e60, e61⟩ := idx_facts1 t
  have ht : t.val < 10 := Nat.lt_of_lt_of_eq t.isLt N_1
  funext j
  obtain ⟨p, q, rfl⟩ : ∃ (p : Fin 5000) (q : Fin 128), j = ix2 p q := ⟨j 0, j 1, eq_ix2 j⟩
  have hp : p.val < 5000 := p.isLt
  refine (pay1_layer (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t)
    ⟨5000 * t.val + p.val, by omega⟩ p ?_ ?_ ?_ ?_ ?_ ?_ q).trans ?_
  · intro k
    show V c (Pipeline.arrRef spec1 0) (((cfg1.win 0).blk t).view.emb (ix2 p k)) = V c (Pipeline.arrRef spec1 0) _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  · intro k
    show V c (Pipeline.arrRef spec1 1) (((cfg1.win 1).blk t).view.emb (ix2 p k)) = V c (Pipeline.arrRef spec1 1) _
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 128 + 1 * k.val = k.val; omega
  · show V c (Pipeline.arrRef spec1 2) (((cfg1.win 2).blk t).view.emb (ix2 p (0 : Fin 1))) = V c (Pipeline.arrRef spec1 2) _
    refine congrArg _ (funext fun a => Fin.ext ?_)
    match a with
    | ⟨0, _⟩ => show win1_2.index t (0 : Fin 2) * 5000 + 1 * p.val = 5000 * t.val + p.val; omega
    | ⟨1, _⟩ => show win1_2.index t (1 : Fin 2) * 1 + 1 * 0 = 0; omega
  · intro j k
    show V c (Pipeline.arrRef spec1 3) (((cfg1.win 3).blk t).view.emb (ix2 j k)) = V c (Pipeline.arrRef spec1 3) _
    refine congrArg _ (funext fun a => Fin.ext ?_)
    match a with
    | ⟨0, _⟩ => show win1_3.index t (0 : Fin 2) * 128 + 1 * j.val = j.val; omega
    | ⟨1, _⟩ => show win1_3.index t (1 : Fin 2) * 128 + 1 * k.val = k.val; omega
  · intro j k
    show V c (Pipeline.arrRef spec1 4) (((cfg1.win 4).blk t).view.emb (ix2 j k)) = V c (Pipeline.arrRef spec1 4) _
    refine congrArg _ (funext fun a => Fin.ext ?_)
    match a with
    | ⟨0, _⟩ => show win1_4.index t (0 : Fin 2) * 128 + 1 * j.val = j.val; omega
    | ⟨1, _⟩ => show win1_4.index t (1 : Fin 2) * 128 + 1 * k.val = k.val; omega
  · intro j
    show V c (Pipeline.arrRef spec1 5) (((cfg1.win 5).blk t).view.emb (ix2 (0 : Fin 1) j)) = V c (Pipeline.arrRef spec1 5) _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * j.val = j.val; omega
  · show _ = layer1 V c (((cfg1.win 6).blk t).view.emb (ix2 p q))
    show Cert.Spec.layerE _ _ _ _ _ _ _ _ = Cert.Spec.layerE _ _ _ _ _ _ ((((cfg1.win 6).blk t).view.emb (ix2 p q)) 0) ((((cfg1.win 6).blk t).view.emb (ix2 p q)) 1)
    congr 1
    · apply Fin.ext
      show 5000 * t.val + p.val = win1_6.index t (0 : Fin 2) * 5000 + 1 * p.val; omega
    · apply Fin.ext
      show q.val = win1_6.index t (1 : Fin 2) * 128 + 1 * q.val; omega

theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole (Pipeline.arrRef spec1 6)).slice (win1_6.rect t)).set ↔ _
  rw [View.set_slice_whole, Rect.mem_set_unit]
  exact Iff.rfl

theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  refine ⟨⟨(i 0).val / 5000, Nat.lt_of_lt_of_eq (by omega : (i 0).val / 5000 < 10) N_1.symm⟩, flush1_6 _, ?_⟩
  obtain ⟨e00, e01, e10, e11, e20, e21, e30, e31, e40, e41, e50, e51, e60, e61⟩ := idx_facts1 ⟨(i 0).val / 5000, Nat.lt_of_lt_of_eq (by omega : (i 0).val / 5000 < 10) N_1.symm⟩
  rw [mem_blk1]
  intro a
  match a with
  | ⟨0, _⟩ => show win1_6.index _ (0 : Fin 2) * 5000 ≤ (i 0).val ∧ (i 0).val < win1_6.index _ (0 : Fin 2) * 5000 + 5000; rw [e60]; show (i 0).val / 5000 * 5000 ≤ (i 0).val ∧ (i 0).val < (i 0).val / 5000 * 5000 + 5000; omega
  | ⟨1, _⟩ => show win1_6.index _ (1 : Fin 2) * 128 ≤ (i 1).val ∧ (i 1).val < win1_6.index _ (1 : Fin 2) * 128 + 128; rw [e61]; omega

theorem arr1 (c : Dev nD) : (dat1 (F := Ideal) V c).arrAt 6 cfg1.N = layer1 V c :=
  (dat1 (F := Ideal) V c).arrAt_eq_of_cover 6 (layer1 V c) (fun t _ => flushed1_eq V c t) (cover1)

end Cert.KernelIdeal.Val

end
-- ==== Proof.KI.V2.lean ====
import proofs.«422288_j69166153335416_3_alg».proof.Proof.KI.R2
import proofs.«422288_j69166153335416_3_alg».proof.Proof.KI.V1
import proofs.«422288_j69166153335416_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

abbrev layer2 (c : Dev nD) : S50000x128.Idx → EReal :=
  Cert.Spec.layerW (V c (Pipeline.arrRef spec2 0)) (V c (Pipeline.arrRef spec2 1)) (V c (Pipeline.arrRef spec2 2))
    (V c (Pipeline.arrRef spec2 3)) (V c (Pipeline.arrRef spec2 4))
    (fun i => (V c (Pipeline.arrRef spec2 5) : S1x128.Idx → EReal) (ix2 (0 : Fin 1) (i 0)))

set_option maxHeartbeats 1000000 in

theorem flushed2_eq (c : Dev nD) (t : Fin cfg2.N) :
    (dat2 (F := Ideal) V c).flushed 6 t = ((cfg2.win 6).blk t).view.read (Elt Ideal) (layer2 V c) := by
  show (cfg2.win 6).cut (grid2.coords t) ((dat2 (F := Ideal) V c).after 6 t) = _
  dsimp only [dat2]
  unfold out1_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e00, e01, e10, e11, e20, e21, e30, e31, e40, e41, e50, e51, e60, e61⟩ := idx_facts2 t
  have ht : t.val < 10 := Nat.lt_of_lt_of_eq t.isLt N_2
  funext j
  obtain ⟨p, q, rfl⟩ : ∃ (p : Fin 5000) (q : Fin 128), j = ix2 p q := ⟨j 0, j 1, eq_ix2 j⟩
  have hp : p.val < 5000 := p.isLt
  refine (pay1_layer (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (iblk2 V c 0 t) (iblk2 V c 1 t) (iblk2 V c 2 t) (iblk2 V c 3 t) (iblk2 V c 4 t) (iblk2 V c 5 t)
    ⟨5000 * t.val + p.val, by omega⟩ p ?_ ?_ ?_ ?_ ?_ ?_ q).trans ?_
  · intro k
    show V c (Pipeline.arrRef spec2 0) (((cfg2.win 0).blk t).view.emb (ix2 p k)) = V c (Pipeline.arrRef spec2 0) _
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * k.val = k.val; omega
  · intro k
    show V c (Pipeline.arrRef spec2 1) (((cfg2.win 1).blk t).view.emb (ix2 p k)) = V c (Pipeline.arrRef spec2 1) _
    refine congrArg _ (funext fun a => Fin.ext ?_)
    match a with
    | ⟨0, _⟩ => show win2_1.index t (0 : Fin 2) * 5000 + 1 * p.val = 5000 * t.val + p.val; omega
    | ⟨1, _⟩ => show win2_1.index t (1 : Fin 2) * 128 + 1 * k.val = k.val; omega
  · show V c (Pipeline.arrRef spec2 2) (((cfg2.win 2).blk t).view.emb (ix2 p (0 : Fin 1))) = V c (Pipeline.arrRef spec2 2) _
    refine congrArg _ (funext fun a => Fin.ext ?_)
    match a with
    | ⟨0, _⟩ => show win2_2.index t (0 : Fin 2) * 5000 + 1 * p.val = 5000 * t.val + p.val; omega
    | ⟨1, _⟩ => show win2_2.index t (1 : Fin 2) * 1 + 1 * 0 = 0; omega
  · intro j k
    show V c (Pipeline.arrRef spec2 3) (((cfg2.win 3).blk t).view.emb (ix2 j k)) = V c (Pipeline.arrRef spec2 3) _
    refine congrArg _ (funext fun a => Fin.ext ?_)
    match a with
    | ⟨0, _⟩ => show win2_3.index t (0 : Fin 2) * 128 + 1 * j.val = j.val; omega
    | ⟨1, _⟩ => show win2_3.index t (1 : Fin 2) * 128 + 1 * k.val = k.val; omega
  · intro j k
    show V c (Pipeline.arrRef spec2 4) (((cfg2.win 4).blk t).view.emb (ix2 j k)) = V c (Pipeline.arrRef spec2 4) _
    refine congrArg _ (funext fun a => Fin.ext ?_)
    match a with
    | ⟨0, _⟩ => show win2_4.index t (0 : Fin 2) * 128 + 1 * j.val = j.val; omega
    | ⟨1, _⟩ => show win2_4.index t (1 : Fin 2) * 128 + 1 * k.val = k.val; omega
  · intro j
    show V c (Pipeline.arrRef spec2 5) (((cfg2.win 5).blk t).view.emb (ix2 (0 : Fin 1) j)) = V c (Pipeline.arrRef spec2 5) _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * j.val = j.val; omega
  · show _ = layer2 V c (((cfg2.win 6).blk t).view.emb (ix2 p q))
    show Cert.Spec.layerE _ _ _ _ _ _ _ _ = Cert.Spec.layerE _ _ _ _ _ _ ((((cfg2.win 6).blk t).view.emb (ix2 p q)) 0) ((((cfg2.win 6).blk t).view.emb (ix2 p q)) 1)
    congr 1
    · apply Fin.ext
      show 5000 * t.val + p.val = win2_6.index t (0 : Fin 2) * 5000 + 1 * p.val; omega
    · apply Fin.ext
      show q.val = win2_6.index t (1 : Fin 2) * 128 + 1 * q.val; omega

theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  refine ⟨⟨(i 0).val / 5000, Nat.lt_of_lt_of_eq (by omega : (i 0).val / 5000 < 10) N_2.symm⟩, flush2_6 _, ?_⟩
  obtain ⟨e00, e01, e10, e11, e20, e21, e30, e31, e40, e41, e50, e51, e60, e61⟩ := idx_facts2 ⟨(i 0).val / 5000, Nat.lt_of_lt_of_eq (by omega : (i 0).val / 5000 < 10) N_2.symm⟩
  rw [mem_blk2]
  intro a
  match a with
  | ⟨0, _⟩ => show win2_6.index _ (0 : Fin 2) * 5000 ≤ (i 0).val ∧ (i 0).val < win2_6.index _ (0 : Fin 2) * 5000 + 5000; rw [e60]; show (i 0).val / 5000 * 5000 ≤ (i 0).val ∧ (i 0).val < (i 0).val / 5000 * 5000 + 5000; omega
  | ⟨1, _⟩ => show win2_6.index _ (1 : Fin 2) * 128 ≤ (i 1).val ∧ (i 1).val < win2_6.index _ (1 : Fin 2) * 128 + 128; rw [e61]; omega

theorem arr2 (c : Dev nD) : (dat2 (F := Ideal) V c).arrAt 6 cfg2.N = layer2 V c :=
  (dat2 (F := Ideal) V c).arrAt_eq_of_cover 6 (layer2 V c) (fun t _ => flushed2_eq V c t) (cover2)

end Cert.KernelIdeal.Val

end
-- ==== Proof.KI.V3.lean ====
import proofs.«422288_j69166153335416_3_alg».proof.Proof.KI.R3
import proofs.«422288_j69166153335416_3_alg».proof.Proof.KI.V1
import proofs.«422288_j69166153335416_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

abbrev layer3 (c : Dev nD) : S50000x128.Idx → EReal :=
  Cert.Spec.layerW (V c (Pipeline.arrRef spec3 0)) (V c (Pipeline.arrRef spec3 1)) (V c (Pipeline.arrRef spec3 2))
    (V c (Pipeline.arrRef spec3 3)) (V c (Pipeline.arrRef spec3 4))
    (fun i => (V c (Pipeline.arrRef spec3 5) : S1x128.Idx → EReal) (ix2 (0 : Fin 1) (i 0)))

set_option maxHeartbeats 1000000 in

theorem flushed3_eq (c : Dev nD) (t : Fin cfg3.N) :
    (dat3 (F := Ideal) V c).flushed 6 t = ((cfg3.win 6).blk t).view.read (Elt Ideal) (layer3 V c) := by
  show (cfg3.win 6).cut (grid3.coords t) ((dat3 (F := Ideal) V c).after 6 t) = _
  dsimp only [dat3]
  unfold out1_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e00, e01, e10, e11, e20, e21, e30, e31, e40, e41, e50, e51, e60, e61⟩ := idx_facts3 t
  have ht : t.val < 10 := Nat.lt_of_lt_of_eq t.isLt N_3
  funext j
  obtain ⟨p, q, rfl⟩ : ∃ (p : Fin 5000) (q : Fin 128), j = ix2 p q := ⟨j 0, j 1, eq_ix2 j⟩
  have hp : p.val < 5000 := p.isLt
  refine (pay1_layer (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (iblk3 V c 0 t) (iblk3 V c 1 t) (iblk3 V c 2 t) (iblk3 V c 3 t) (iblk3 V c 4 t) (iblk3 V c 5 t)
    ⟨5000 * t.val + p.val, by omega⟩ p ?_ ?_ ?_ ?_ ?_ ?_ q).trans ?_
  · intro k
    show V c (Pipeline.arrRef spec3 0) (((cfg3.win 0).blk t).view.emb (ix2 p k)) = V c (Pipeline.arrRef spec3 0) _
    refine congrArg _ (funext fun a => Fin.ext ?_)
    match a with
    | ⟨0, _⟩ => show win3_0.index t (0 : Fin 2) * 5000 + 1 * p.val = 5000 * t.val + p.val; omega
    | ⟨1, _⟩ => show win3_0.index t (1 : Fin 2) * 128 + 1 * k.val = k.val; omega
  · intro k
    show V c (Pipeline.arrRef spec3 1) (((cfg3.win 1).blk t).view.emb (ix2 p k)) = V c (Pipeline.arrRef spec3 1) _
    refine congrArg _ (funext fun a => Fin.ext ?_)
    match a with
    | ⟨0, _⟩ => show win3_1.index t (0 : Fin 2) * 5000 + 1 * p.val = 5000 * t.val + p.val; omega
    | ⟨1, _⟩ => show win3_1.index t (1 : Fin 2) * 128 + 1 * k.val = k.val; omega
  · show V c (Pipeline.arrRef spec3 2) (((cfg3.win 2).blk t).view.emb (ix2 p (0 : Fin 1))) = V c (Pipeline.arrRef spec3 2) _
    refine congrArg _ (funext fun a => Fin.ext ?_)
    match a with
    | ⟨0, _⟩ => show win3_2.index t (0 : Fin 2) * 5000 + 1 * p.val = 5000 * t.val + p.val; omega
    | ⟨1, _⟩ => show win3_2.index t (1 : Fin 2) * 1 + 1 * 0 = 0; omega
  · intro j k
    show V c (Pipeline.arrRef spec3 3) (((cfg3.win 3).blk t).view.emb (ix2 j k)) = V c (Pipeline.arrRef spec3 3) _
    refine congrArg _ (funext fun a => Fin.ext ?_)
    match a with
    | ⟨0, _⟩ => show win3_3.index t (0 : Fin 2) * 128 + 1 * j.val = j.val; omega
    | ⟨1, _⟩ => show win3_3.index t (1 : Fin 2) * 128 + 1 * k.val = k.val; omega
  · intro j k
    show V c (Pipeline.arrRef spec3 4) (((cfg3.win 4).blk t).view.emb (ix2 j k)) = V c (Pipeline.arrRef spec3 4) _
    refine congrArg _ (funext fun a => Fin.ext ?_)
    match a with
    | ⟨0, _⟩ => show win3_4.index t (0 : Fin 2) * 128 + 1 * j.val = j.val; omega
    | ⟨1, _⟩ => show win3_4.index t (1 : Fin 2) * 128 + 1 * k.val = k.val; omega
  · intro j
    show V c (Pipeline.arrRef spec3 5) (((cfg3.win 5).blk t).view.emb (ix2 (0 : Fin 1) j)) = V c (Pipeline.arrRef spec3 5) _
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * j.val = j.val; omega
  · show _ = layer3 V c (((cfg3.win 6).blk t).view.emb (ix2 p q))
    show Cert.Spec.layerE _ _ _ _ _ _ _ _ = Cert.Spec.layerE _ _ _ _ _ _ ((((cfg3.win 6).blk t).view.emb (ix2 p q)) 0) ((((cfg3.win 6).blk t).view.emb (ix2 p q)) 1)
    congr 1
    · apply Fin.ext
      show 5000 * t.val + p.val = win3_6.index t (0 : Fin 2) * 5000 + 1 * p.val; omega
    · apply Fin.ext
      show q.val = win3_6.index t (1 : Fin 2) * 128 + 1 * q.val; omega

theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole (Pipeline.arrRef spec3 6)).slice (win3_6.rect t)).set ↔ _
  rw [View.set_slice_whole, Rect.mem_set_unit]
  exact Iff.rfl

theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  refine ⟨⟨(i 0).val / 5000, Nat.lt_of_lt_of_eq (by omega : (i 0).val / 5000 < 10) N_3.symm⟩, flush3_6 _, ?_⟩
  obtain ⟨e00, e01, e10, e11, e20, e21, e30, e31, e40, e41, e50, e51, e60, e61⟩ := idx_facts3 ⟨(i 0).val / 5000, Nat.lt_of_lt_of_eq (by omega : (i 0).val / 5000 < 10) N_3.symm⟩
  rw [mem_blk3]
  intro a
  match a with
  | ⟨0, _⟩ => show win3_6.index _ (0 : Fin 2) * 5000 ≤ (i 0).val ∧ (i 0).val < win3_6.index _ (0 : Fin 2) * 5000 + 5000; rw [e60]; show (i 0).val / 5000 * 5000 ≤ (i 0).val ∧ (i 0).val < (i 0).val / 5000 * 5000 + 5000; omega
  | ⟨1, _⟩ => show win3_6.index _ (1 : Fin 2) * 128 ≤ (i 1).val ∧ (i 1).val < win3_6.index _ (1 : Fin 2) * 128 + 128; rw [e61]; omega

theorem arr3 (c : Dev nD) : (dat3 (F := Ideal) V c).arrAt 6 cfg3.N = layer3 V c :=
  (dat3 (F := Ideal) V c).arrAt_eq_of_cover 6 (layer3 V c) (fun t _ => flushed3_eq V c t) (cover3)

end Cert.KernelIdeal.Val

end
-- ==== Proof.KI.V4.lean ====
import proofs.«422288_j69166153335416_3_alg».proof.Proof.KI.R4
import proofs.«422288_j69166153335416_3_alg».proof.Proof.KI.V1
import proofs.«422288_j69166153335416_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

abbrev layer4 (c : Dev nD) : S50000x128.Idx → EReal :=
  Cert.Spec.layerW (V c (Pipeline.arrRef spec4 0)) (V c (Pipeline.arrRef spec4 1)) (V c (Pipeline.arrRef spec4 2))
    (V c (Pipeline.arrRef spec4 3)) (V c (Pipeline.arrRef spec4 4))
    (fun i => (V c (Pipeline.arrRef spec4 5) : S1x128.Idx → EReal) (ix2 (0 : Fin 1) (i 0)))

set_option maxHeartbeats 1000000 in

theorem flushed4_eq (c : Dev nD) (t : Fin cfg4.N) :
    (dat4 (F := Ideal) V c).flushed 6 t = ((cfg4.win 6).blk t).view.read (Elt Ideal) (layer4 V c) := by
  show (cfg4.win 6).cut (grid4.coords t) ((dat4 (F := Ideal) V c).after 6 t) = _
  dsimp only [dat4]
  unfold out1_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  obtain ⟨e00, e01, e10, e11, e20, e21, e30, e31, e40, e41, e50, e51, e60, e61⟩ := idx_facts4 t
  have ht : t.val < 10 := Nat.lt_of_lt_of_eq t.isLt N_4
  funext j
  obtain ⟨p, q, rfl⟩ : ∃ (p : Fin 5000) (q : Fin 128), j = ix2 p q := ⟨j 0, j 1, eq_ix2 j⟩
  have hp : p.val < 5000 := p.isLt
  refine (pay1_layer (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (iblk4 V c 0 t) (iblk4 V c 1 t) (iblk4 V c 2 t) (iblk4 V c 3 t) (iblk4 V c 4 t) (iblk4 V c 5 t)
    ⟨5000 * t.val + p.val, by omega⟩ p ?_ ?_ ?_ ?_ ?_ ?_ q).trans ?_
  · intro k
    show V c (Pipeline.arrRef spec4 0) (((cfg4.win 0).blk t).view.emb (ix2 p k)) = V c (Pipeline.arrRef spec4 0) _
    refine congrArg _ (funext fun a => Fin.ext ?_)
    match a with
    | ⟨0, _⟩ => show win4_0.index t (0 : Fin 2) * 5000 + 1 * p.val = 5000 * t.val + p.val; omega
    | ⟨1, _⟩ => show win4_0.index t (1 : Fin 2) * 128 + 1 * k.val = k.val; omega
  · intro k
    show V c (Pipeline.arrRef spec4 1) (((cfg4.win 1).blk t).view.emb (ix2 p k)) = V c (Pipeline.arrRef spec4 1) _
    refine congrArg _ (funext fun a => Fin.ext ?_)
    match a with
    | ⟨0, _⟩ => show win4_1.index t (0 : Fin 2) * 5000 + 1 * p.val = 5000 * t.val + p.val; omega
    | ⟨1, _⟩ => show win4_1.index t (1 : Fin 2) * 128 + 1 * k.val = k.val; omega
  · show V c (Pipeline.arrRef spec4 2) (((cfg4.win 2).blk t).view.emb (ix2 p (0 : Fin 1))) = V c (Pipeline.arrRef spec4 2) _
    refine congrArg _ (funext fun a => Fin.ext ?_)
    match a with
    | ⟨0, _⟩ => show win4_2.index t (0 : Fin 2) * 5000 + 1 * p.val = 5000 * t.val + p.val; omega
    | ⟨1, _⟩ => show win4_2.index t (1 : Fin 2) * 1 + 1 * 0 = 0; omega
  · intro j k
    show V c (Pipeline.arrRef spec4 3) (((cfg4.win 3).blk t).view.emb (ix2 j k)) = V c (Pipeline.arrRef spec4 3) _
    refine congrArg _ (funext fun a => Fin.ext ?_)
    match a with
    | ⟨0, _⟩ => show win4_3.index t (0 : Fin 2) * 128 + 1 * j.val = j.val; omega
    | ⟨1, _⟩ => show win4_3.index t (1 : Fin 2) * 128 + 1 * k.val = k.val; omega
  · intro j k
    show V c (Pipeline.arrRef spec4 4) (((cfg4.win 4).blk t).view.emb (ix2 j k)) = V c (Pipeline.arrRef spec4 4) _
    refine congrArg _ (funext fun a => Fin.ext ?_)
    match a with
    | ⟨0, _⟩ => show win4_4.index t (0 : Fin 2) * 128 + 1 * j.val = j.val; omega
    | ⟨1, _⟩ => show win4_4.index t (1 : Fin 2) * 128 + 1 * k.val = k.val; omega
  · intro j
    show V c (Pipeline.arrRef spec4 5) (((cfg4.win 5).blk t).view.emb (ix2 (0 : Fin 1) j)) = V c (Pipeline.arrRef spec4 5) _
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * j.val = j.val; omega
  · show _ = layer4 V c (((cfg4.win 6).blk t).view.emb (ix2 p q))
    show Cert.Spec.layerE _ _ _ _ _ _ _ _ = Cert.Spec.layerE _ _ _ _ _ _ ((((cfg4.win 6).blk t).view.emb (ix2 p q)) 0) ((((cfg4.win 6).blk t).view.emb (ix2 p q)) 1)
    congr 1
    · apply Fin.ext
      show 5000 * t.val + p.val = win4_6.index t (0 : Fin 2) * 5000 + 1 * p.val; omega
    · apply Fin.ext
      show q.val = win4_6.index t (1 : Fin 2) * 128 + 1 * q.val; omega

theorem mem_blk4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

theorem cover4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  refine ⟨⟨(i 0).val / 5000, Nat.lt_of_lt_of_eq (by omega : (i 0).val / 5000 < 10) N_4.symm⟩, flush4_6 _, ?_⟩
  obtain ⟨e00, e01, e10, e11, e20, e21, e30, e31, e40, e41, e50, e51, e60, e61⟩ := idx_facts4 ⟨(i 0).val / 5000, Nat.lt_of_lt_of_eq (by omega : (i 0).val / 5000 < 10) N_4.symm⟩
  rw [mem_blk4]
  intro a
  match a with
  | ⟨0, _⟩ => show win4_6.index _ (0 : Fin 2) * 5000 ≤ (i 0).val ∧ (i 0).val < win4_6.index _ (0 : Fin 2) * 5000 + 5000; rw [e60]; show (i 0).val / 5000 * 5000 ≤ (i 0).val ∧ (i 0).val < (i 0).val / 5000 * 5000 + 5000; omega
  | ⟨1, _⟩ => show win4_6.index _ (1 : Fin 2) * 128 ≤ (i 1).val ∧ (i 1).val < win4_6.index _ (1 : Fin 2) * 128 + 128; rw [e61]; omega

theorem arr4 (c : Dev nD) : (dat4 (F := Ideal) V c).arrAt 6 cfg4.N = layer4 V c :=
  (dat4 (F := Ideal) V c).arrAt_eq_of_cover 6 (layer4 V c) (fun t _ => flushed4_eq V c t) (cover4)

end Cert.KernelIdeal.Val

end
-- ==== Proof.KI.V5.lean ====
import proofs.«422288_j69166153335416_3_alg».proof.Proof.KI.R5
import proofs.«422288_j69166153335416_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

namespace Pool

theorem one_f32 : Ideal.ofBits .f32 0x3F800000#32 = 1 := by
  simp [Ideal.ofBits, Ideal.ieee]
  exact_mod_cast (by norm_num : (8388608:ℝ) * (2^23)⁻¹ = 1)

theorem two_f32 : Ideal.ofBits .f32 0x40000000#32 = 2 := by
  simp [Ideal.ofBits, Ideal.ieee]
  have h2 : (2 : EReal) = ((2 : ℝ) : EReal) := by norm_cast
  rw [h2]
  exact_mod_cast (by norm_num : (8388608:ℝ) * (2^22)⁻¹ = 2)

theorem pay1_eq : (k5_pay1 (F := Ideal)) = fun _ => (0 : EReal) := by
  funext i
  unfold k5_pay1
  rw [shapeCast_self]
  exact Ideal.ofBits_zero_f32

theorem pay2_eq : (k5_pay2 (F := Ideal)) = fun _ => (0 : EReal) := by
  funext i
  unfold k5_pay2
  rw [shapeCast_self]
  exact Ideal.ofBits_zero_f32

theorem sitofp_bit (a b : BitVec 32) :
    (FloatOps.sitofp (F := Ideal) .f32 ((IntOp.cmpi .eq a b).setWidth 32) : EReal) = if a = b then 1 else 0 := by
  by_cases h : a = b
  · rw [if_pos h]
    have e : IntOp.cmpi .eq a b = 1#1 := by subst h; simp [IntOp.cmpi]
    rw [e]
    show (((((1#1 : BitVec 1).setWidth 32).toInt : ℝ)) : EReal) = 1
    have : ((1#1 : BitVec 1).setWidth 32).toInt = 1 := by decide
    rw [this]; norm_num
  · rw [if_neg h]
    have e : IntOp.cmpi .eq a b = 0#1 := by
      have hb : (a == b) = false := beq_eq_false_iff_ne.mpr h
      simp [IntOp.cmpi, hb]
    rw [e]
    show (((((0#1 : BitVec 1).setWidth 32).toInt : ℝ)) : EReal) = 0
    have : ((0#1 : BitVec 1).setWidth 32).toInt = 0 := by decide
    rw [this]; norm_num

set_option maxHeartbeats 400000 in

theorem pay3_apply (gid : Vec Ideal S5000x1 .i32) (r : Fin 5000) (g : Fin 256) :
    k5_pay3 (F := Ideal) gid (ix2 r g) = if gid (ix2 r (0 : Fin 1)) = BitVec.ofNat 32 g.val then 1 else 0 := by
  unfold k5_pay3
  rw [shapeCast_self, sitofp_apply, extui_apply]
  show FloatOps.sitofp (F := Ideal) .f32 ((IntOp.cmpi .eq (broadcastTo S5000x256 gid broadcasts_S5000x1_S5000x256 (ix2 r g)) (iota Kind.tc S5000x256 32 [1] iota_S5000x256_d1_w32 (ix2 r g))).setWidth 32) = _
  rw [iota_single_apply, broadcastTo_apply gid broadcasts_S5000x1_S5000x256 (ix2 r g) (ix2 r (0 : Fin 1)) (fun a => by
    match a with
    | ⟨0, _⟩ => rfl
    | ⟨1, _⟩ => rfl)]
  exact sitofp_bit _ _

theorem lhsP_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
theorem lhsP_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
theorem rhsP_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
theorem rhsP_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

set_option maxHeartbeats 400000 in

theorem pay4_apply (x : Vec Ideal S5000x128 .f32) (gid : Vec Ideal S5000x1 .i32) (a : Vec Ideal S256x128 .f32)
    (g : Fin 256) (j : Fin 128) :
    k5_pay4 (F := Ideal) x gid a (ix2 g j)
      = a (ix2 g j) + ∑ r : Fin 5000, k5_pay3 (F := Ideal) gid (ix2 r g) * x (ix2 r j) := by
  unfold k5_pay4
  generalize k5_pay3 (F := Ideal) gid = H
  rw [shapeCast_self, shapeCast_self, addf_apply]
  refine congrArg (a (ix2 g j) + ·) ?_
  refine (Ideal.matmul_constant_zero_apply dot_S5000x256_S5000x128_S256x128_0_0_1_1_n_n (some .fp32) H x (ix2 g j)).trans ?_
  rw [← Equiv.sum_comp (ValueIdx.contrEquiv1 dot_S5000x256_S5000x128_S256x128_0_0_1_1_n_n 5000 rfl rfl).symm]
  refine Finset.sum_congr rfl fun k _ => ?_
  have hk := ValueIdx.contrEquiv1_symm_val dot_S5000x256_S5000x128_S256x128_0_0_1_1_n_n 5000 rfl rfl k
  have el : dot_S5000x256_S5000x128_S256x128_0_0_1_1_n_n.lhsIdx (ix2 g j) ((ValueIdx.contrEquiv1 dot_S5000x256_S5000x128_S256x128_0_0_1_1_n_n 5000 rfl rfl).symm k) = ix2 k g := funext fun a => Fin.ext (by
    match a with
    | ⟨0, _⟩ => exact (lhsP_0 _ _).trans hk
    | ⟨1, _⟩ => exact lhsP_1 _ _)
  have er : dot_S5000x256_S5000x128_S256x128_0_0_1_1_n_n.rhsIdx (ix2 g j) ((ValueIdx.contrEquiv1 dot_S5000x256_S5000x128_S256x128_0_0_1_1_n_n 5000 rfl rfl).symm k) = ix2 k j := funext fun a => Fin.ext (by
    match a with
    | ⟨0, _⟩ => exact (rhsP_0 _ _).trans hk
    | ⟨1, _⟩ => exact rhsP_1 _ _)
  rw [el, er]

theorem lhsC_0 (i : S256x1.Idx) (q : dot_S5000x256_S5000x1_S256x1_0_0_1_1_n_n.contr.Idx) :
    (dot_S5000x256_S5000x1_S256x1_0_0_1_1_n_n.lhsIdx i q 0).val = (q ⟨0, by decide⟩).val :=
  dot_S5000x256_S5000x1_S256x1_0_0_1_1_n_n.lhsIdx_val_of_single rfl i q
theorem lhsC_1 (i : S256x1.Idx) (q : dot_S5000x256_S5000x1_S256x1_0_0_1_1_n_n.contr.Idx) :
    (dot_S5000x256_S5000x1_S256x1_0_0_1_1_n_n.lhsIdx i q 1).val = (i 0).val := by
  unfold DotDims.lhsIdx
  rw [dif_neg (show ¬(1 : Fin S5000x256.rank) ∈ dot_S5000x256_S5000x1_S256x1_0_0_1_1_n_n.lhsBatch by decide), dif_pos (show (1 : Fin S5000x256.rank) ∈ dot_S5000x256_S5000x1_S256x1_0_0_1_1_n_n.lhsNonContracting by decide)]
  rfl
theorem rhsC_0 (i : S256x1.Idx) (q : dot_S5000x256_S5000x1_S256x1_0_0_1_1_n_n.contr.Idx) :
    (dot_S5000x256_S5000x1_S256x1_0_0_1_1_n_n.rhsIdx i q 0).val = (q ⟨0, by decide⟩).val :=
  dot_S5000x256_S5000x1_S256x1_0_0_1_1_n_n.rhsIdx_val_of_single rfl i q

set_option maxHeartbeats 400000 in

theorem pay5_apply (gid : Vec Ideal S5000x1 .i32) (a : Vec Ideal S256x1 .f32) (g : Fin 256) :
    k5_pay5 (F := Ideal) gid a (ix2 g (0 : Fin 1))
      = a (ix2 g (0 : Fin 1)) + ∑ r : Fin 5000, k5_pay3 (F := Ideal) gid (ix2 r g) * 1 := by
  unfold k5_pay5
  generalize k5_pay3 (F := Ideal) gid = H
  rw [shapeCast_self, addf_apply]
  refine congrArg (a (ix2 g (0 : Fin 1)) + ·) ?_
  refine (Ideal.matmul_constant_zero_apply dot_S5000x256_S5000x1_S256x1_0_0_1_1_n_n (some .fp32) H _ (ix2 g (0 : Fin 1))).trans ?_
  rw [← Equiv.sum_comp (ValueIdx.contrEquiv1 dot_S5000x256_S5000x1_S256x1_0_0_1_1_n_n 5000 rfl rfl).symm]
  refine Finset.sum_congr rfl fun k _ => ?_
  have hk := ValueIdx.contrEquiv1_symm_val dot_S5000x256_S5000x1_S256x1_0_0_1_1_n_n 5000 rfl rfl k
  have el : dot_S5000x256_S5000x1_S256x1_0_0_1_1_n_n.lhsIdx (ix2 g (0 : Fin 1)) ((ValueIdx.contrEquiv1 dot_S5000x256_S5000x1_S256x1_0_0_1_1_n_n 5000 rfl rfl).symm k) = ix2 k g := funext fun a => Fin.ext (by
    match a with
    | ⟨0, _⟩ => exact (lhsC_0 _ _).trans hk
    | ⟨1, _⟩ => exact lhsC_1 _ _)
  rw [el, broadcast_apply]
  exact congrArg (H (ix2 k g) * ·) one_f32

section Layout
variable {α : Type}

theorem broadcastTo_a1_ab_apply {a b : ℕ} (v : (⟨2, ![a, 1]⟩ : Shape).Idx → α) (h : (⟨2, ![a, 1]⟩ : Shape).Broadcasts ⟨2, ![a, b]⟩)
    (g : Fin a) (j : Fin b) : broadcastTo ⟨2, ![a, b]⟩ v h (ix2 g j) = v (ix2 g (0 : Fin 1)) := by
  refine broadcastTo_apply v h (ix2 g j) (ix2 g (0 : Fin 1)) fun ax => ?_
  match ax with
  | ⟨0, _⟩ =>
    show g.val = if a = 1 then 0 else g.val
    split
    · have := g.isLt; omega
    · rfl
  | ⟨1, _⟩ => rfl

theorem shapeCast_a_a1_apply {a : ℕ} (x : (⟨1, ![a]⟩ : Shape).Idx → α) (h : (⟨1, ![a]⟩ : Shape).ShapeCasts ⟨2, ![a, 1]⟩)
    (g : Fin a) (u : Fin 1) : shapeCast ⟨2, ![a, 1]⟩ x h (ix2 g u) = x (ix1 g) :=
  shapeCast_apply x h _ _ (by
    have hu : u.val = 0 := by omega
    rw [Shape.rowMajor_val_two, Shape.rowMajor_val_one]
    show g.val = g.val * 1 + u.val
    rw [hu, Nat.mul_one, Nat.add_zero])

end Layout

theorem laneSum_col {a b : ℕ} (X : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (hc : (⟨1, ![a]⟩ : Shape).ShapeCasts ⟨2, ![a, 1]⟩) (g : Fin a) (u : Fin 1) :
    shapeCast ⟨2, ![a, 1]⟩ (multiReduction .add [1] ⟨1, ![a]⟩ X acc h hφ hacc) hc (ix2 g u) = ∑ j : Fin b, X (ix2 g j) := by
  refine (shapeCast_a_a1_apply _ hc g u).trans ?_
  refine (Ideal.multiReduction_add_single X acc h hφ hacc (ix1 g)).trans ?_
  show (∑ k : Fin b, X (h.lift (ix1 g) k)) = _
  refine Finset.sum_congr rfl fun k _ => congrArg X ?_
  funext c
  match c with
  | ⟨0, _⟩ => rfl
  | ⟨1, _⟩ => rfl

theorem lhsH_0 (i : S256x20.Idx) (q : dot_S256x128_S20x128_S256x20_1_1_0_0_n_n.contr.Idx) :
    (dot_S256x128_S20x128_S256x20_1_1_0_0_n_n.lhsIdx i q 0).val = (i 0).val := by
  unfold DotDims.lhsIdx
  rw [dif_neg (show ¬(0 : Fin S256x128.rank) ∈ dot_S256x128_S20x128_S256x20_1_1_0_0_n_n.lhsBatch by decide), dif_pos (show (0 : Fin S256x128.rank) ∈ dot_S256x128_S20x128_S256x20_1_1_0_0_n_n.lhsNonContracting by decide)]
  rfl
theorem lhsH_1 (i : S256x20.Idx) (q : dot_S256x128_S20x128_S256x20_1_1_0_0_n_n.contr.Idx) :
    (dot_S256x128_S20x128_S256x20_1_1_0_0_n_n.lhsIdx i q 1).val = (q ⟨0, by decide⟩).val :=
  dot_S256x128_S20x128_S256x20_1_1_0_0_n_n.lhsIdx_val_of_single rfl i q
theorem rhsH_0 (i : S256x20.Idx) (q : dot_S256x128_S20x128_S256x20_1_1_0_0_n_n.contr.Idx) :
    (dot_S256x128_S20x128_S256x20_1_1_0_0_n_n.rhsIdx i q 0).val = (i 1).val := by
  unfold DotDims.rhsIdx
  rw [dif_neg (show ¬(0 : Fin S20x128.rank) ∈ dot_S256x128_S20x128_S256x20_1_1_0_0_n_n.rhsBatch by decide), dif_pos (show (0 : Fin S20x128.rank) ∈ dot_S256x128_S20x128_S256x20_1_1_0_0_n_n.rhsNonContracting by decide)]
  rfl
theorem rhsH_1 (i : S256x20.Idx) (q : dot_S256x128_S20x128_S256x20_1_1_0_0_n_n.contr.Idx) :
    (dot_S256x128_S20x128_S256x20_1_1_0_0_n_n.rhsIdx i q 1).val = (q ⟨0, by decide⟩).val :=
  dot_S256x128_S20x128_S256x20_1_1_0_0_n_n.rhsIdx_val_of_single rfl i q

theorem protoDot_apply (M : FVec Ideal S256x128 .f32) (p : FVec Ideal S20x128 .f32) (g : Fin 256) (q : Fin 20) :
    matmul dot_S256x128_S20x128_S256x20_1_1_0_0_n_n (some .fp32) M p (constant (F := Ideal) S256x20 .f32 0x00000000#32) (ix2 g q)
      = ∑ j : Fin 128, M (ix2 g j) * p (ix2 q j) := by
  refine (Ideal.matmul_constant_zero_apply dot_S256x128_S20x128_S256x20_1_1_0_0_n_n (some .fp32) M p (ix2 g q)).trans ?_
  rw [← Equiv.sum_comp (ValueIdx.contrEquiv1 dot_S256x128_S20x128_S256x20_1_1_0_0_n_n 128 rfl rfl).symm]
  refine Finset.sum_congr rfl fun k _ => ?_
  have hk := ValueIdx.contrEquiv1_symm_val dot_S256x128_S20x128_S256x20_1_1_0_0_n_n 128 rfl rfl k
  have el : dot_S256x128_S20x128_S256x20_1_1_0_0_n_n.lhsIdx (ix2 g q) ((ValueIdx.contrEquiv1 dot_S256x128_S20x128_S256x20_1_1_0_0_n_n 128 rfl rfl).symm k) = ix2 g k := funext fun a => Fin.ext (by
    match a with
    | ⟨0, _⟩ => exact lhsH_0 _ _
    | ⟨1, _⟩ => exact (lhsH_1 _ _).trans hk)
  have er : dot_S256x128_S20x128_S256x20_1_1_0_0_n_n.rhsIdx (ix2 g q) ((ValueIdx.contrEquiv1 dot_S256x128_S20x128_S256x20_1_1_0_0_n_n 128 rfl rfl).symm k) = ix2 q k := funext fun a => Fin.ext (by
    match a with
    | ⟨0, _⟩ => exact rhsH_0 _ _
    | ⟨1, _⟩ => exact (rhsH_1 _ _).trans hk)
  rw [el, er]

def meanV (s : Vec Ideal S256x128 .f32) (cnt : Vec Ideal S256x1 .f32) : FVec Ideal S256x128 .f32 :=
  divf s (broadcastTo S256x128 (maximumf cnt (broadcast S256x1 (Scalar.ofBits .f32 0x3F800000#32))) broadcasts_S256x1_S256x128)

theorem meanV_apply (s : Vec Ideal S256x128 .f32) (cnt : Vec Ideal S256x1 .f32) (g : Fin 256) (j : Fin 128) :
    meanV s cnt (ix2 g j) = Ideal.div (s (ix2 g j)) (max (cnt (ix2 g (0 : Fin 1))) 1) := by
  unfold meanV
  rw [divf_apply, broadcastTo_a1_ab_apply _ _ g j, maximumf_apply, broadcast_apply]
  exact congrArg (fun z => Ideal.div (s (ix2 g j)) (max (cnt (ix2 g (0 : Fin 1))) z)) one_f32

def distV (M : FVec Ideal S256x128 .f32) (p : FVec Ideal S20x128 .f32) : FVec Ideal S256x20 .f32 :=
  maximumf (subf (addf (broadcastTo S256x20 (shapeCast S256x1 (multiReduction (F := Ideal) .add [1] S256 (mulf M M) 0x00000000#32 reduces_S256x128_S256 (.inl rfl) rfl) shapeCasts_S256_S256x1) broadcasts_S256x1_S256x20)
      (broadcastTo S256x20 (transpose S1x20 [1, 0] (shapeCast S20x1 (multiReduction (F := Ideal) .add [1] S20 (mulf p p) 0x00000000#32 reduces_S20x128_S20 (.inl rfl) rfl) shapeCasts_S20_S20x1) transposes_S20x1_p1_0_S1x20) broadcasts_S1x20_S256x20))
    (mulf (broadcast S256x20 (Scalar.ofBits .f32 0x40000000#32)) (matmul dot_S256x128_S20x128_S256x20_1_1_0_0_n_n (some .fp32) M p (constant (F := Ideal) S256x20 .f32 0x00000000#32))))
    (broadcast S256x20 (Scalar.ofBits .f32 0x00000000#32))

set_option maxHeartbeats 400000 in

theorem distV_apply (M : FVec Ideal S256x128 .f32) (p : FVec Ideal S20x128 .f32) (g : Fin 256) (q : Fin 20) :
    distV M p (ix2 g q)
      = max (((∑ j : Fin 128, M (ix2 g j) * M (ix2 g j)) + (∑ j : Fin 128, p (ix2 q j) * p (ix2 q j)))
          - 2 * (∑ j : Fin 128, M (ix2 g j) * p (ix2 q j))) 0 := by
  unfold distV
  rw [maximumf_apply, subf_apply, addf_apply, mulf_apply, broadcast_apply, broadcast_apply,
    broadcastTo_a1_ab_apply _ _ g q, broadcastTo_1b_ab_apply _ _ g q, transpose_ix2_apply _ _ (0 : Fin 1) q]
  refine congrArg₂ max (congrArg₂ (· - ·) (congrArg₂ (· + ·) ?_ ?_) (congrArg₂ (· * ·) two_f32 ?_)) Ideal.ofBits_zero_f32
  · exact laneSum_col (mulf M M) _ _ _ _ _ g 0
  · exact laneSum_col (mulf p p) _ _ _ _ _ q 0
  · exact protoDot_apply M p g q

def headV (D : FVec Ideal S256x20 .f32) (wf : Vec Ideal S1x20 .f32) : FVec Ideal S256x1 .f32 :=
  logistic (shapeCast S256x1 (multiReduction (F := Ideal) .add [1] S256
    (mulf (log (divf (addf D (broadcast S256x20 (Scalar.ofBits .f32 0x3F800000#32))) (addf D (broadcast S256x20 (Scalar.ofBits .f32 0x2B8CBCCC#32)))))
      (broadcastTo S256x20 wf broadcasts_S1x20_S256x20)) 0x00000000#32 reduces_S256x20_S256 (.inl rfl) rfl) shapeCasts_S256_S256x1)

set_option maxHeartbeats 400000 in

theorem headV_apply (D : FVec Ideal S256x20 .f32) (wf : Vec Ideal S1x20 .f32) (g : Fin 256) :
    headV D wf (ix2 g (0 : Fin 1)) = Ideal.logistic (∑ q : Fin 20, Cert.Spec.score (D (ix2 g q)) * wf (ix2 (0 : Fin 1) q)) := by
  unfold headV
  show Ideal.logistic _ = _
  refine congrArg Ideal.logistic ?_
  refine (laneSum_col _ _ _ _ _ _ g 0).trans ?_
  refine Finset.sum_congr rfl fun q _ => ?_
  rw [mulf_apply, broadcastTo_1b_ab_apply _ _ g q]
  refine congrArg (· * wf (ix2 (0 : Fin 1) q)) ?_
  show Ideal.log (Ideal.div (D (ix2 g q) + Ideal.ofBits .f32 0x3F800000#32) (D (ix2 g q) + Ideal.ofBits .f32 0x2B8CBCCC#32)) = _
  rw [one_f32]
  rfl

set_option maxHeartbeats 400000 in

theorem pay6_eq (s : Vec Ideal S256x128 .f32) (cnt : Vec Ideal S256x1 .f32) (p : Vec Ideal S20x128 .f32) (wf : Vec Ideal S1x20 .f32) :
    k5_pay6 (F := Ideal) s cnt p wf = headV (distV (meanV s cnt) p) wf := by
  unfold k5_pay6 headV distV meanV
  rw [shapeCast_self]

theorem pay6_apply (s : Vec Ideal S256x128 .f32) (cnt : Vec Ideal S256x1 .f32) (p : Vec Ideal S20x128 .f32) (wf : Vec Ideal S1x20 .f32)
    (g : Fin 256) :
    k5_pay6 (F := Ideal) s cnt p wf (ix2 g (0 : Fin 1))
      = Ideal.logistic (∑ q : Fin 20, Cert.Spec.score
          (max (((∑ j : Fin 128, Ideal.div (s (ix2 g j)) (max (cnt (ix2 g (0 : Fin 1))) 1) * Ideal.div (s (ix2 g j)) (max (cnt (ix2 g (0 : Fin 1))) 1))
              + (∑ j : Fin 128, p (ix2 q j) * p (ix2 q j)))
            - 2 * (∑ j : Fin 128, Ideal.div (s (ix2 g j)) (max (cnt (ix2 g (0 : Fin 1))) 1) * p (ix2 q j))) 0)
          * wf (ix2 (0 : Fin 1) q)) := by
  rw [pay6_eq, headV_apply]
  simp only [distV_apply, meanV_apply]

open Cert.Spec in

theorem step_sum (x : Vec Ideal S5000x128 .f32) (w : Vec Ideal S5000x1 .i32) (a : Vec Ideal S256x128 .f32)
    (X : Arr sNH) (gid : IArr sN) (t : Fin 10)
    (hx : ∀ (r : Fin 5000) (k : Fin 128), x (ix2 r k) = X (ix2 (nodeAt t r) k))
    (hw : ∀ r : Fin 5000, w (ix2 r (0 : Fin 1)) = gid (ix1 (nodeAt t r))) (g : Fin 256) (j : Fin 128) :
    k5_pay4 (F := Ideal) x w a (ix2 g j)
      = a (ix2 g j) + ∑ r : Fin 5000, hot gid (nodeAt t r) g * X (ix2 (nodeAt t r) j) := by
  rw [pay4_apply]
  refine congrArg (a (ix2 g j) + ·) (Finset.sum_congr rfl fun r _ => ?_)
  rw [pay3_apply, hx r j, hw r]
  rfl

open Cert.Spec in

theorem step_cnt (w : Vec Ideal S5000x1 .i32) (a : Vec Ideal S256x1 .f32) (gid : IArr sN) (t : Fin 10)
    (hw : ∀ r : Fin 5000, w (ix2 r (0 : Fin 1)) = gid (ix1 (nodeAt t r))) (g : Fin 256) :
    k5_pay5 (F := Ideal) w a (ix2 g (0 : Fin 1))
      = a (ix2 g (0 : Fin 1)) + ∑ r : Fin 5000, hot gid (nodeAt t r) g * 1 := by
  rw [pay5_apply]
  refine congrArg (a (ix2 g (0 : Fin 1)) + ·) (Finset.sum_congr rfl fun r _ => ?_)
  rw [pay3_apply, hw r]
  rfl

open Cert.Spec in

theorem head_value (s : Vec Ideal S256x128 .f32) (cnt : Vec Ideal S256x1 .f32) (p : Vec Ideal S20x128 .f32) (wf : Vec Ideal S1x20 .f32)
    (X : Arr sNH) (gid : IArr sN) (P : Arr sPP) (W : Arr sF) (g : Fin 256)
    (hs : ∀ j : Fin 128, s (ix2 g j) = sumK X gid g j) (hc : cnt (ix2 g (0 : Fin 1)) = cntK gid g)
    (hp : ∀ (q : Fin 20) (j : Fin 128), p (ix2 q j) = P (ix2 q j)) (hw : ∀ q : Fin 20, wf (ix2 (0 : Fin 1) q) = W (ix2 (0 : Fin 1) q)) :
    k5_pay6 (F := Ideal) s cnt p wf (ix2 g (0 : Fin 1)) = headK X gid P W (ix1 g) := by
  rw [pay6_apply]
  simp only [hs, hc, hp, hw]
  rfl

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

abbrev nodeArr (c : Dev nD) : S50000x128.Idx → EReal := V c main_v83
abbrev wordArr (c : Dev nD) : S50000x1.Idx → BitVec 32 := V c main_v0
abbrev protArr (c : Dev nD) : S20x128.Idx → EReal := V c main_v84
abbrev clsRow (c : Dev nD) : S1x20.Idx → EReal := V c main_arg10

abbrev gidOf (c : Dev nD) : Cert.Spec.IArr Cert.Spec.sN := fun n => wordArr V c (ix2 (n 0) (0 : Fin 1))

theorem node_blk (c : Dev nD) (t : Fin cfg5.N) (r : Fin 5000) (k : Fin 128) (n : Fin 50000) (hn : n.val = 5000 * t.val + r.val) :
    (iblk5 V c 0 t : Vec Ideal S5000x128 .f32) (ix2 r k) = nodeArr V c (ix2 n k) := by
  obtain ⟨e0, e1, -⟩ := idx_facts5 t
  show nodeArr V c (((cfg5.win 0).blk t).view.emb (ix2 r k)) = _
  refine congrArg _ (funext fun a => Fin.ext ?_)
  match a with
  | ⟨0, _⟩ => show win5_0.index t (0 : Fin 2) * 5000 + 1 * r.val = n.val; rw [e0, hn]; omega
  | ⟨1, _⟩ => show win5_0.index t (1 : Fin 2) * 128 + 1 * k.val = k.val; rw [e1]; omega

theorem word_blk (c : Dev nD) (t : Fin cfg5.N) (r : Fin 5000) (n : Fin 50000) (hn : n.val = 5000 * t.val + r.val) :
    (iblk5 V c 1 t : Vec Ideal S5000x1 .i32) (ix2 r (0 : Fin 1)) = wordArr V c (ix2 n (0 : Fin 1)) := by
  obtain ⟨-, -, e0, e1, -⟩ := idx_facts5 t
  show wordArr V c (((cfg5.win 1).blk t).view.emb (ix2 r (0 : Fin 1))) = _
  refine congrArg _ (funext fun a => Fin.ext ?_)
  match a with
  | ⟨0, _⟩ => show win5_1.index t (0 : Fin 2) * 5000 + 1 * r.val = n.val; rw [e0, hn]; omega
  | ⟨1, _⟩ => show win5_1.index t (1 : Fin 2) * 1 + 1 * 0 = 0; rw [e1]

theorem prot_blk (c : Dev nD) (t : Fin cfg5.N) (q : Fin 20) (j : Fin 128) :
    (iblk5 V c 2 t : Vec Ideal S20x128 .f32) (ix2 q j) = protArr V c (ix2 q j) := by
  obtain ⟨-, -, -, -, e0, e1, -⟩ := idx_facts5 t
  show protArr V c (((cfg5.win 2).blk t).view.emb (ix2 q j)) = _
  refine congrArg _ (funext fun a => Fin.ext ?_)
  match a with
  | ⟨0, _⟩ => show win5_2.index t (0 : Fin 2) * 20 + 1 * q.val = q.val; rw [e0]; omega
  | ⟨1, _⟩ => show win5_2.index t (1 : Fin 2) * 128 + 1 * j.val = j.val; rw [e1]; omega

theorem cls_blk (c : Dev nD) (t : Fin cfg5.N) (q : Fin 20) :
    (iblk5 V c 3 t : Vec Ideal S1x20 .f32) (ix2 (0 : Fin 1) q) = clsRow V c (ix2 (0 : Fin 1) q) := by
  obtain ⟨-, -, -, -, -, -, e0, e1, -⟩ := idx_facts5 t
  show clsRow V c (((cfg5.win 3).blk t).view.emb (ix2 (0 : Fin 1) q)) = _
  refine congrArg _ (funext fun a => Fin.ext ?_)
  match a with
  | ⟨0, _⟩ => show win5_3.index t (0 : Fin 2) * 1 + 1 * 0 = 0; rw [e0]
  | ⟨1, _⟩ => show win5_3.index t (1 : Fin 2) * 20 + 1 * q.val = q.val; rw [e1]; omega

def partS (c : Dev nD) (g : Fin 256) (j : Fin 128) (t : ℕ) : EReal :=
  if h : t < 10 then ∑ r : Fin 5000, Cert.Spec.hot (gidOf V c) (Cert.Spec.nodeAt ⟨t, h⟩ r) g * nodeArr V c (ix2 (Cert.Spec.nodeAt ⟨t, h⟩ r) j) else 0

def partC (c : Dev nD) (g : Fin 256) (t : ℕ) : EReal :=
  if h : t < 10 then ∑ r : Fin 5000, Cert.Spec.hot (gidOf V c) (Cert.Spec.nodeAt ⟨t, h⟩ r) g * 1 else 0

set_option maxHeartbeats 400000 in

theorem acc_sum (c : Dev nD) : ∀ (n : ℕ) (hn : n < cfg5.N) (g : Fin 256) (j : Fin 128),
    ((acc5 V c n hn).1 : Vec Ideal S256x128 .f32) (ix2 g j) = ∑ t ∈ Finset.range (n + 1), partS V c g j t
  | 0, hn, g, j => by
    have hN : cfg5.N = 10 := N_5
    have h10 : 0 < 10 := by omega
    rw [Finset.sum_range_one]
    show k5_pay4 (F := Ideal) (iblk5 V c 0 ⟨0, hn⟩) (iblk5 V c 1 ⟨0, hn⟩) (k5_pay1 (F := Ideal)) (ix2 g j) = _
    refine (step_sum (iblk5 V c 0 ⟨0, hn⟩) (iblk5 V c 1 ⟨0, hn⟩) (k5_pay1 (F := Ideal)) (nodeArr V c) (gidOf V c) ⟨0, h10⟩
      (fun r k => node_blk V c ⟨0, hn⟩ r k (Cert.Spec.nodeAt ⟨0, h10⟩ r) rfl)
      (fun r => word_blk V c ⟨0, hn⟩ r (Cert.Spec.nodeAt ⟨0, h10⟩ r) rfl) g j).trans ?_
    rw [pay1_eq, partS, dif_pos h10]
    exact zero_add _
  | n + 1, hn, g, j => by
    have hN : cfg5.N = 10 := N_5
    have h10 : n + 1 < 10 := by omega
    rw [Finset.sum_range_succ, ← acc_sum c n (Nat.lt_of_succ_lt hn) g j]
    show k5_pay4 (F := Ideal) (iblk5 V c 0 ⟨n + 1, hn⟩) (iblk5 V c 1 ⟨n + 1, hn⟩) (acc5 V c n (Nat.lt_of_succ_lt hn)).1 (ix2 g j) = _
    refine (step_sum (iblk5 V c 0 ⟨n + 1, hn⟩) (iblk5 V c 1 ⟨n + 1, hn⟩) (acc5 V c n (Nat.lt_of_succ_lt hn)).1 (nodeArr V c) (gidOf V c) ⟨n + 1, h10⟩
      (fun r k => node_blk V c ⟨n + 1, hn⟩ r k (Cert.Spec.nodeAt ⟨n + 1, h10⟩ r) rfl)
      (fun r => word_blk V c ⟨n + 1, hn⟩ r (Cert.Spec.nodeAt ⟨n + 1, h10⟩ r) rfl) g j).trans ?_
    rw [partS, dif_pos h10]

set_option maxHeartbeats 400000 in

theorem acc_cnt (c : Dev nD) : ∀ (n : ℕ) (hn : n < cfg5.N) (g : Fin 256),
    ((acc5 V c n hn).2 : Vec Ideal S256x1 .f32) (ix2 g (0 : Fin 1)) = ∑ t ∈ Finset.range (n + 1), partC V c g t
  | 0, hn, g => by
    have hN : cfg5.N = 10 := N_5
    have h10 : 0 < 10 := by omega
    rw [Finset.sum_range_one]
    show k5_pay5 (F := Ideal) (iblk5 V c 1 ⟨0, hn⟩) (k5_pay2 (F := Ideal)) (ix2 g (0 : Fin 1)) = _
    refine (step_cnt (iblk5 V c 1 ⟨0, hn⟩) (k5_pay2 (F := Ideal)) (gidOf V c) ⟨0, h10⟩
      (fun r => word_blk V c ⟨0, hn⟩ r (Cert.Spec.nodeAt ⟨0, h10⟩ r) rfl) g).trans ?_
    rw [pay2_eq, partC, dif_pos h10]
    exact zero_add _
  | n + 1, hn, g => by
    have hN : cfg5.N = 10 := N_5
    have h10 : n + 1 < 10 := by omega
    rw [Finset.sum_range_succ, ← acc_cnt c n (Nat.lt_of_succ_lt hn) g]
    show k5_pay5 (F := Ideal) (iblk5 V c 1 ⟨n + 1, hn⟩) (acc5 V c n (Nat.lt_of_succ_lt hn)).2 (ix2 g (0 : Fin 1)) = _
    refine (step_cnt (iblk5 V c 1 ⟨n + 1, hn⟩) (acc5 V c n (Nat.lt_of_succ_lt hn)).2 (gidOf V c) ⟨n + 1, h10⟩
      (fun r => word_blk V c ⟨n + 1, hn⟩ r (Cert.Spec.nodeAt ⟨n + 1, h10⟩ r) rfl) g).trans ?_
    rw [partC, dif_pos h10]

theorem sum_parts (c : Dev nD) (g : Fin 256) (j : Fin 128) :
    ∑ t ∈ Finset.range 10, partS V c g j t = Cert.Spec.sumK (nodeArr V c) (gidOf V c) g j := by
  rw [← Fin.sum_univ_eq_sum_range (fun t => partS V c g j t) 10]
  exact Finset.sum_congr rfl fun t _ => dif_pos t.isLt

theorem cnt_parts (c : Dev nD) (g : Fin 256) :
    ∑ t ∈ Finset.range 10, partC V c g t = Cert.Spec.cntK (gidOf V c) g := by
  rw [← Fin.sum_univ_eq_sum_range (fun t => partC V c g t) 10]
  exact Finset.sum_congr rfl fun t _ => dif_pos t.isLt

abbrev headArr (c : Dev nD) : S256x1.Idx → EReal :=
  fun i => Cert.Spec.headK (V c main_v83) (fun n => (V c main_v0 : S50000x1.Idx → BitVec 32) (ValueIdx.ix2 (n 0) 0)) (V c main_v84) (V c main_arg10) (ValueIdx.ix1 (i 0))

set_option maxHeartbeats 400000 in

theorem flushed_head (c : Dev nD) (t : Fin cfg5.N) (hf : (cfg5.win 4).flush t = true) :
    (dat5 (F := Ideal) V c).flushed 4 t = ((cfg5.win 4).blk t).view.read (Elt Ideal) (headArr V c) := by
  have hN : cfg5.N = 10 := N_5
  have h9 : t.val = 9 := by have := (flush5_4 t).mp hf; have := t.isLt; omega
  obtain ⟨-, -, -, -, -, -, -, -, e0, e1⟩ := idx_facts5 t
  show (cfg5.win 4).cut (grid5.coords t) ((dat5 V c).after 4 t) = _
  rw [after5_4]
  unfold out5_4
  funext y
  have hy0 : (y 0).val < 256 := (y 0).isLt
  have hy1 : (y 1).val < 1 := (y 1).isLt
  show k5_pay6 (F := Ideal) (acc5 V c t.val t.isLt).1 (acc5 V c t.val t.isLt).2 (iblk5 V c 2 t) (iblk5 V c 3 t) ((cfg5.win 4).xinj (grid5.coords t) y)
    = headArr V c (((cfg5.win 4).blk t).view.emb y)
  have hx : (cfg5.win 4).xinj (grid5.coords t) y = ix2 (⟨(y 0).val, hy0⟩ : Fin 256) (0 : Fin 1) := funext fun a => Fin.ext (by
    match a with
    | ⟨0, _⟩ => rfl
    | ⟨1, _⟩ => show (y 1).val = 0; omega)
  have he : (ix1 ((((cfg5.win 4).blk t).view.emb y) 0) : Cert.Spec.sG.Idx) = ix1 (⟨(y 0).val, hy0⟩ : Fin 256) := funext fun a => Fin.ext (by
    match a with
    | ⟨0, _⟩ => show win5_4.index t (0 : Fin 2) * 256 + 1 * (y 0).val = (y 0).val; rw [e0]; omega)
  rw [hx]
  show _ = Cert.Spec.headK (nodeArr V c) (gidOf V c) (protArr V c) (clsRow V c) (ix1 ((((cfg5.win 4).blk t).view.emb y) 0))
  rw [he]
  refine head_value (acc5 V c t.val t.isLt).1 (acc5 V c t.val t.isLt).2 (iblk5 V c 2 t) (iblk5 V c 3 t)
    (nodeArr V c) (gidOf V c) (protArr V c) (clsRow V c) ⟨(y 0).val, hy0⟩ (fun j => ?_) ?_ (fun q j => prot_blk V c t q j) (fun q => cls_blk V c t q)
  · rw [acc_sum V c t.val t.isLt ⟨(y 0).val, hy0⟩ j, h9]
    exact sum_parts V c _ j
  · rw [acc_cnt V c t.val t.isLt ⟨(y 0).val, hy0⟩, h9]
    exact cnt_parts V c _

theorem mem_blk4 (t : Fin cfg5.N) (i : S256x1.Idx) :
    i ∈ ((cfg5.win 4).blk t).view.set ↔ ∀ a : Fin 2, win5_4.index t a * S256x1.size a ≤ (i a).val ∧ (i a).val < win5_4.index t a * S256x1.size a + S256x1.size a := by
  show i ∈ ((View.whole main_v85).slice (win5_4.rect t)).set ↔ _
  rw [View.set_slice_whole, Rect.mem_set_unit]
  exact Iff.rfl

theorem cover4 (i : S256x1.Idx) : ∃ t : Fin cfg5.N, (cfg5.win 4).flush t = true ∧ i ∈ ((cfg5.win 4).blk t).view.set := by
  have hi0 : (i 0).val < 256 := (i 0).isLt
  have hi1 : (i 1).val < 1 := (i 1).isLt
  refine ⟨⟨9, by show 9 < 10; omega⟩, (flush5_4 _).mpr rfl, ?_⟩
  rw [mem_blk4]
  obtain ⟨-, -, -, -, -, -, -, -, e0, e1⟩ := idx_facts5 ⟨9, by show 9 < 10; omega⟩
  intro a
  match a with
  | ⟨0, _⟩ => show win5_4.index _ (0 : Fin 2) * 256 ≤ (i 0).val ∧ (i 0).val < win5_4.index _ (0 : Fin 2) * 256 + 256; rw [e0]; omega
  | ⟨1, _⟩ => show win5_4.index _ (1 : Fin 2) * 1 ≤ (i 1).val ∧ (i 1).val < win5_4.index _ (1 : Fin 2) * 1 + 1; rw [e1]; omega

theorem final (c : Dev nD) :
    (dat5 (F := Ideal) V c).arrAt 4 cfg5.N
      = fun i => Cert.Spec.headK (V c main_v83) (fun n => (V c main_v0 : S50000x1.Idx → BitVec 32) (ValueIdx.ix2 (n 0) 0)) (V c main_v84) (V c main_arg10) (ValueIdx.ix1 (i 0)) :=
  (dat5 (F := Ideal) V c).arrAt_eq_of_cover 4 (headArr V c) (fun t hf => flushed_head V c t hf) cover4

end Pool

theorem arr5 (V : (c : Dev nD) → (b : Ref sig .tc) → Buf (Elt Ideal) ((c : Thread nD τ).loc b)) (c : Dev nD) :
    (dat5 (F := Ideal) V c).arrAt 4 cfg5.N
      = fun i => Cert.Spec.headK (V c main_v83) (fun n => (V c main_v0 : S50000x1.Idx → BitVec 32) (ValueIdx.ix2 (n 0) 0)) (V c main_v84) (V c main_arg10) (ValueIdx.ix1 (i 0)) :=
  Pool.final V c

end Cert.KernelIdeal.Val

end
-- ==== Proof.KI.Value.lean ====
import proofs.«422288_j69166153335416_3_alg».proof.Proof.KI.Run
import proofs.«422288_j69166153335416_3_alg».proof.Proof.KI.HostRead
import proofs.«422288_j69166153335416_3_alg».proof.Proof.KI.HostForms
import proofs.«422288_j69166153335416_3_alg».proof.Proof.KI.V0
import proofs.«422288_j69166153335416_3_alg».proof.Proof.KI.V1
import proofs.«422288_j69166153335416_3_alg».proof.Proof.KI.V2
import proofs.«422288_j69166153335416_3_alg».proof.Proof.KI.V3
import proofs.«422288_j69166153335416_3_alg».proof.Proof.KI.V4
import proofs.«422288_j69166153335416_3_alg».proof.Proof.KI.V5
import proofs.«422288_j69166153335416_3_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem embed_congr {h h' : Cert.Spec.Arr Cert.Spec.sNH} {W W' : Cert.Spec.Arr Cert.Spec.sHH} {b b' : Cert.Spec.Arr Cert.Spec.sH}
    (e1 : h = h') (e2 : W = W') (e3 : b = b') : Cert.Spec.embed h W b = Cert.Spec.embed h' W' b' := by
  subst e1 e2 e3; rfl

theorem layerW_congr {x x' nr nr' : Cert.Spec.Arr Cert.Spec.sNH} {iv iv' : Cert.Spec.Arr Cert.Spec.sN1}
    {w1 w1' w2 w2' : Cert.Spec.Arr Cert.Spec.sHH} {b b' : Cert.Spec.Arr Cert.Spec.sH}
    (e1 : x = x') (e2 : nr = nr') (e3 : iv = iv') (e4 : w1 = w1') (e5 : w2 = w2') (e6 : b = b') :
    Cert.Spec.layerW x nr iv w1 w2 b = Cert.Spec.layerW x' nr' iv' w1' w2' b' := by
  subst e1 e2 e3 e4 e5 e6; rfl

theorem headK_congr {x x' : Cert.Spec.Arr Cert.Spec.sNH} {g g' : Cert.Spec.IArr Cert.Spec.sN} {p p' : Cert.Spec.Arr Cert.Spec.sPP}
    {wf wf' : Cert.Spec.Arr Cert.Spec.sF} (e1 : x = x') (e2 : g = g') (e3 : p = p') (e4 : wf = wf') :
    Cert.Spec.headK x g p wf = Cert.Spec.headK x' g' p' wf' := by
  subst e1 e2 e3 e4; rfl

variable (m : (ℓ : Loc nD τ sig) → Buf (Elt Ideal) ℓ) (ρ : Dev nD → PrngReg) (c : Dev nD)

theorem v0_at11 : W11 m ρ c (Proc.devRef .tc main_v0) = W1 m ρ c (Proc.devRef .tc main_v0) :=
  (W11_of_not_mem m ρ c main_v0 (by decide)).trans <| (W10_keep m ρ c main_v0 (by decide)).trans <|
  (W9_of_not_mem m ρ c main_v0 (by decide)).trans <| (W8_keep m ρ c main_v0 (by decide)).trans <|
  (W7_of_not_mem m ρ c main_v0 (by decide)).trans <| (W6_keep m ρ c main_v0 (by decide)).trans <|
  (W5_of_not_mem m ρ c main_v0 (by decide)).trans <| (W4_keep m ρ c main_v0 (by decide)).trans <|
  (W3_of_not_mem m ρ c main_v0 (by decide)).trans (W2_keep m ρ c main_v0 (by decide))

theorem v11_at4 : W4 m ρ c (Proc.devRef .tc main_v11) = W3 m ρ c (Proc.devRef .tc main_v11) :=
  W4_keep m ρ c main_v11 (by decide)
theorem v11_at6 : W6 m ρ c (Proc.devRef .tc main_v11) = W3 m ρ c (Proc.devRef .tc main_v11) :=
  (W6_keep m ρ c main_v11 (by decide)).trans <| (W5_of_not_mem m ρ c main_v11 (by decide)).trans (v11_at4 m ρ c)
theorem v11_at8 : W8 m ρ c (Proc.devRef .tc main_v11) = W3 m ρ c (Proc.devRef .tc main_v11) :=
  (W8_keep m ρ c main_v11 (by decide)).trans <| (W7_of_not_mem m ρ c main_v11 (by decide)).trans (v11_at6 m ρ c)

theorem x0_eq : W2 m ρ c (Proc.devRef .tc main_v2) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 0 (by omega) := by
  refine (W2_arr m ρ c 3).trans ((arr0 (V1 m ρ) c).trans ?_)
  refine (embed_congr (b' := (m ((c : Thread nD τ).loc main_arg5))) (W1_kept m ρ c kept_arg0) (W1_kept m ρ c kept_arg4) ?_).trans ?_
  · funext i
    refine (congrFun (h0_bembRow (W0 m ρ c)) (ix2 0 (i 0))).trans ?_
    refine (row_of_vec _ _ (i 0)).trans ?_
    exact congrArg (m ((c : Thread nD τ).loc main_arg5)) (eq_ix1 i).symm
  · rfl

theorem x0_at3 : W3 m ρ c (Proc.devRef .tc main_v2) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 0 (by omega) :=
  (keep1 (W2 m ρ c) (by decide)).trans (x0_eq m ρ c)

theorem nraw0_at3 : W3 m ρ c (Proc.devRef .tc main_v21)
    = Cert.Spec.nraw (Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 0 (by omega)) (m ((c : Thread nD τ).loc main_arg1)) (m ((c : Thread nD τ).loc main_arg2)) := by
  refine (h1_nraw (W2 m ρ c)).trans ?_
  rw [x0_eq m ρ c, W2_kept m ρ c kept_arg1, W2_kept m ρ c kept_arg2]
  exact nrawOps_eq _ _ _

theorem inv_at3 : W3 m ρ c (Proc.devRef .tc main_v11) = Cert.Spec.inv (m ((c : Thread nD τ).loc main_arg2)) := by
  refine (h1_inv (W2 m ρ c)).trans ?_
  rw [W2_kept m ρ c kept_arg2]
  exact invOps_eq _

theorem w1_0_at3 : W3 m ρ c (Proc.devRef .tc main_v23) = Cert.Spec.w1Of (m ((c : Thread nD τ).loc main_arg6)) 0 := by
  refine (h1_w1 (W2 m ρ c)).trans ?_
  rw [W2_kept m ρ c kept_arg6]
  exact w1_0 _

theorem w2_0_at3 : W3 m ρ c (Proc.devRef .tc main_v25) = Cert.Spec.w2Of (m ((c : Thread nD τ).loc main_arg6)) 0 := by
  refine (h1_w2 (W2 m ρ c)).trans ?_
  rw [W2_kept m ρ c kept_arg6]
  exact w2_0 _

theorem bias_0_at3 :
    (fun i : S128.Idx => (W3 m ρ c (Proc.devRef .tc main_v28) : S1x128.Idx → EReal) (ix2 0 (i 0))) = Cert.Spec.bOf (m ((c : Thread nD τ).loc main_arg7)) 0 := by
  rw [show W3 m ρ c (Proc.devRef .tc main_v28) = _ from h1_bias (W2 m ρ c), W2_kept m ρ c kept_arg7]
  exact bias_0 _

theorem x1_eq : W4 m ρ c (Proc.devRef .tc main_v29) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 1 (by omega) := by
  refine (W4_arr m ρ c 6).trans ((arr1 (V3 m ρ) c).trans ?_)
  refine (layerW_congr (x0_at3 m ρ c) (nraw0_at3 m ρ c) (inv_at3 m ρ c) (w1_0_at3 m ρ c) (w2_0_at3 m ρ c)
    (bias_0_at3 m ρ c)).trans ?_
  rfl

theorem x1_at5 : W5 m ρ c (Proc.devRef .tc main_v29) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 1 (by omega) :=
  (keep2 (W4 m ρ c) (by decide)).trans (x1_eq m ρ c)

theorem nraw1_at5 : W5 m ρ c (Proc.devRef .tc main_v39)
    = Cert.Spec.nraw (Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 1 (by omega)) (m ((c : Thread nD τ).loc main_arg1)) (m ((c : Thread nD τ).loc main_arg2)) := by
  refine (h2_nraw (W4 m ρ c)).trans ?_
  rw [x1_eq m ρ c, W4_kept m ρ c kept_arg1, W4_kept m ρ c kept_arg2]
  exact nrawOps_eq _ _ _

theorem inv_at5 : W5 m ρ c (Proc.devRef .tc main_v11) = Cert.Spec.inv (m ((c : Thread nD τ).loc main_arg2)) :=
  (keep2 (W4 m ρ c) (by decide)).trans ((v11_at4 m ρ c).trans (inv_at3 m ρ c))

theorem w1_1_at5 : W5 m ρ c (Proc.devRef .tc main_v41) = Cert.Spec.w1Of (m ((c : Thread nD τ).loc main_arg6)) 1 := by
  refine (h2_w1 (W4 m ρ c)).trans ?_
  rw [W4_kept m ρ c kept_arg6]
  exact w1_1 _

theorem w2_1_at5 : W5 m ρ c (Proc.devRef .tc main_v43) = Cert.Spec.w2Of (m ((c : Thread nD τ).loc main_arg6)) 1 := by
  refine (h2_w2 (W4 m ρ c)).trans ?_
  rw [W4_kept m ρ c kept_arg6]
  exact w2_1 _

theorem bias_1_at5 :
    (fun i : S128.Idx => (W5 m ρ c (Proc.devRef .tc main_v46) : S1x128.Idx → EReal) (ix2 0 (i 0))) = Cert.Spec.bOf (m ((c : Thread nD τ).loc main_arg7)) 1 := by
  rw [show W5 m ρ c (Proc.devRef .tc main_v46) = _ from h2_bias (W4 m ρ c), W4_kept m ρ c kept_arg7]
  exact bias_1 _

theorem x2_eq : W6 m ρ c (Proc.devRef .tc main_v47) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 2 (by omega) := by
  refine (W6_arr m ρ c 6).trans ((arr2 (V5 m ρ) c).trans ?_)
  refine (layerW_congr (x1_at5 m ρ c) (nraw1_at5 m ρ c) (inv_at5 m ρ c) (w1_1_at5 m ρ c) (w2_1_at5 m ρ c)
    (bias_1_at5 m ρ c)).trans ?_
  rfl

theorem x2_at7 : W7 m ρ c (Proc.devRef .tc main_v47) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 2 (by omega) :=
  (keep3 (W6 m ρ c) (by decide)).trans (x2_eq m ρ c)

theorem nraw2_at7 : W7 m ρ c (Proc.devRef .tc main_v57)
    = Cert.Spec.nraw (Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 2 (by omega)) (m ((c : Thread nD τ).loc main_arg1)) (m ((c : Thread nD τ).loc main_arg2)) := by
  refine (h3_nraw (W6 m ρ c)).trans ?_
  rw [x2_eq m ρ c, W6_kept m ρ c kept_arg1, W6_kept m ρ c kept_arg2]
  exact nrawOps_eq _ _ _

theorem inv_at7 : W7 m ρ c (Proc.devRef .tc main_v11) = Cert.Spec.inv (m ((c : Thread nD τ).loc main_arg2)) :=
  (keep3 (W6 m ρ c) (by decide)).trans ((v11_at6 m ρ c).trans (inv_at3 m ρ c))

theorem w1_2_at7 : W7 m ρ c (Proc.devRef .tc main_v59) = Cert.Spec.w1Of (m ((c : Thread nD τ).loc main_arg6)) 2 := by
  refine (h3_w1 (W6 m ρ c)).trans ?_
  rw [W6_kept m ρ c kept_arg6]
  exact w1_2 _

theorem w2_2_at7 : W7 m ρ c (Proc.devRef .tc main_v61) = Cert.Spec.w2Of (m ((c : Thread nD τ).loc main_arg6)) 2 := by
  refine (h3_w2 (W6 m ρ c)).trans ?_
  rw [W6_kept m ρ c kept_arg6]
  exact w2_2 _

theorem bias_2_at7 :
    (fun i : S128.Idx => (W7 m ρ c (Proc.devRef .tc main_v64) : S1x128.Idx → EReal) (ix2 0 (i 0))) = Cert.Spec.bOf (m ((c : Thread nD τ).loc main_arg7)) 2 := by
  rw [show W7 m ρ c (Proc.devRef .tc main_v64) = _ from h3_bias (W6 m ρ c), W6_kept m ρ c kept_arg7]
  exact bias_2 _

theorem x3_eq : W8 m ρ c (Proc.devRef .tc main_v65) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 3 (by omega) := by
  refine (W8_arr m ρ c 6).trans ((arr3 (V7 m ρ) c).trans ?_)
  refine (layerW_congr (x2_at7 m ρ c) (nraw2_at7 m ρ c) (inv_at7 m ρ c) (w1_2_at7 m ρ c) (w2_2_at7 m ρ c)
    (bias_2_at7 m ρ c)).trans ?_
  rfl

theorem x3_at9 : W9 m ρ c (Proc.devRef .tc main_v65) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 3 (by omega) :=
  (keep4 (W8 m ρ c) (by decide)).trans (x3_eq m ρ c)

theorem nraw3_at9 : W9 m ρ c (Proc.devRef .tc main_v75)
    = Cert.Spec.nraw (Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 3 (by omega)) (m ((c : Thread nD τ).loc main_arg1)) (m ((c : Thread nD τ).loc main_arg2)) := by
  refine (h4_nraw (W8 m ρ c)).trans ?_
  rw [x3_eq m ρ c, W8_kept m ρ c kept_arg1, W8_kept m ρ c kept_arg2]
  exact nrawOps_eq _ _ _

theorem inv_at9 : W9 m ρ c (Proc.devRef .tc main_v11) = Cert.Spec.inv (m ((c : Thread nD τ).loc main_arg2)) :=
  (keep4 (W8 m ρ c) (by decide)).trans ((v11_at8 m ρ c).trans (inv_at3 m ρ c))

theorem w1_3_at9 : W9 m ρ c (Proc.devRef .tc main_v77) = Cert.Spec.w1Of (m ((c : Thread nD τ).loc main_arg6)) 3 := by
  refine (h4_w1 (W8 m ρ c)).trans ?_
  rw [W8_kept m ρ c kept_arg6]
  exact w1_3 _

theorem w2_3_at9 : W9 m ρ c (Proc.devRef .tc main_v79) = Cert.Spec.w2Of (m ((c : Thread nD τ).loc main_arg6)) 3 := by
  refine (h4_w2 (W8 m ρ c)).trans ?_
  rw [W8_kept m ρ c kept_arg6]
  exact w2_3 _

theorem bias_3_at9 :
    (fun i : S128.Idx => (W9 m ρ c (Proc.devRef .tc main_v82) : S1x128.Idx → EReal) (ix2 0 (i 0))) = Cert.Spec.bOf (m ((c : Thread nD τ).loc main_arg7)) 3 := by
  rw [show W9 m ρ c (Proc.devRef .tc main_v82) = _ from h4_bias (W8 m ρ c), W8_kept m ρ c kept_arg7]
  exact bias_3 _

theorem x4_eq : W10 m ρ c (Proc.devRef .tc main_v83) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 4 (by omega) := by
  refine (W10_arr m ρ c 6).trans ((arr4 (V9 m ρ) c).trans ?_)
  refine (layerW_congr (x3_at9 m ρ c) (nraw3_at9 m ρ c) (inv_at9 m ρ c) (w1_3_at9 m ρ c) (w2_3_at9 m ρ c)
    (bias_3_at9 m ρ c)).trans ?_
  rfl

theorem x4_at11 : W11 m ρ c (Proc.devRef .tc main_v83) = Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 4 (by omega) :=
  (keep5 (W10 m ρ c) (by decide)).trans (x4_eq m ρ c)

theorem gid_at11 :
    (fun n : S50000.Idx => (W11 m ρ c (Proc.devRef .tc main_v0) : S50000x1.Idx → BitVec 32) (ix2 (n 0) 0)) = (m ((c : Thread nD τ).loc main_arg3)) := by
  funext n
  rw [v0_at11 m ρ c]
  refine (congrFun (h0_gidCol (W0 m ρ c)) (ix2 (n 0) 0)).trans ?_
  refine (col_of_vec _ _ (n 0)).trans ?_
  exact congrArg (m ((c : Thread nD τ).loc main_arg3)) (eq_ix1 n).symm

theorem prot_at11 : W11 m ρ c (Proc.devRef .tc main_v84) = Cert.Spec.prot (m ((c : Thread nD τ).loc main_arg8)) (m ((c : Thread nD τ).loc main_arg9)) := by
  refine (h5_prot (W10 m ρ c)).trans ?_
  rw [W10_kept m ρ c kept_arg8, W10_kept m ρ c kept_arg9]
  exact prot_concat _ _ _

theorem scores_eq (g : Fin 256) : W12 m ρ c (Proc.devRef .tc main_v85) (ix2 g 0)
    = Cert.Spec.headK (Cert.Spec.nodes (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) 4 (by omega)) (m ((c : Thread nD τ).loc main_arg3)) (Cert.Spec.prot (m ((c : Thread nD τ).loc main_arg8)) (m ((c : Thread nD τ).loc main_arg9))) (m ((c : Thread nD τ).loc main_arg10)) (ix1 g) := by
  refine (congrFun ((W12_arr m ρ c 4).trans (arr5 (V11 m ρ) c)) (ix2 g 0)).trans ?_
  exact congrFun (headK_congr (x4_at11 m ρ c) (gid_at11 m ρ c) (prot_at11 m ρ c) (W11_kept m ρ c kept_arg10)) (ix1 g)

theorem value : W13 (F := Ideal) m ρ c (Proc.devRef .tc main_v86)
    = Cert.Spec.resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨g, rfl⟩ : ∃ g, i = ix1 g := ⟨i 0, eq_ix1 i⟩
  refine (congrFun (h6_result (W12 m ρ c)) (ix1 g)).trans ?_
  refine (vec_of_col _ _ g).trans ?_
  exact scores_eq m ρ c g

end Cert.KernelIdeal.Val

end
-- ==== Proof.RefVal.lean ====
import proofs.«422288_j69166153335416_3_alg».proof.Proof.RefRead
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

abbrev opsA_W : List (Ref sig .tc) := [main_v0, main_v1, main_v2, main_v3, main_v4, main_cst, main_v5, main_cst_0, main_v6, main_v7, main_v8, main_cst_1, main_v9, main_v10, main_cst_2, main_v11, main_v12, main_v13]
set_option maxRecDepth 8192 in
theorem opsA_writes : (opsA : List (HloOp τ sig (Elt F))).Forall fun op =>
    op.writes ⊆ (opsA_W.map (Proc.devRef (τ := τ) .tc)).toFinset := by
  simp only [opsA, List.Forall]
  repeat' apply And.intro
  all_goals
    simp only [nullary_writes, unary_writes, binary_writes, ternary_writes, reshape_writes,
      Finset.singleton_subset_iff, List.mem_toFinset]
    exact List.mem_map_of_mem (by decide)

def VA (W : Valuation τ sig (Elt F)) : Valuation τ sig (Elt F) := after opsA W

theorem VA_keep (W : Valuation τ sig (Elt F)) (r : Ref sig .tc) (h : r ∉ opsA_W) :
    VA W (no_index (Proc.devRef .tc r)) = W (Proc.devRef .tc r) :=
  after_of_writes_sub opsA _ opsA_writes h

abbrev opsB1_W : List (Ref sig .tc) := [main_c, main_v14, main_v15, main_c_3, main_v16, main_v17, main_v18, main_v19, main_v20, main_cst_4, main_v21, main_v22, main_v23, main_v24, main_v25]
set_option maxRecDepth 8192 in
theorem opsB1_writes : (opsB1 : List (HloOp τ sig (Elt F))).Forall fun op =>
    op.writes ⊆ (opsB1_W.map (Proc.devRef (τ := τ) .tc)).toFinset := by
  simp only [opsB1, List.Forall]
  repeat' apply And.intro
  all_goals
    simp only [nullary_writes, unary_writes, binary_writes, ternary_writes, reshape_writes,
      Finset.singleton_subset_iff, List.mem_toFinset]
    exact List.mem_map_of_mem (by decide)

def VB1 (W : Valuation τ sig (Elt F)) : Valuation τ sig (Elt F) := after opsB1 (VA W)

theorem VB1_keep (W : Valuation τ sig (Elt F)) (r : Ref sig .tc) (h : r ∉ opsB1_W) :
    VB1 W (no_index (Proc.devRef .tc r)) = (VA W) (Proc.devRef .tc r) :=
  after_of_writes_sub opsB1 _ opsB1_writes h

abbrev opsB2_W : List (Ref sig .tc) := [main_v26, main_v27, main_v28, main_v29, main_v30, main_v31, main_v32, main_v33, main_v34, main_v35, main_call0_v0, main_call0_cst, main_call0_v1, main_call0_v2, main_v36, main_cst_5, main_v37, main_v38, main_v39, main_v40, main_call1_cst, main_call1_v0, main_v41, main_v42]
set_option maxRecDepth 8192 in
theorem opsB2_writes : (opsB2 : List (HloOp τ sig (Elt F))).Forall fun op =>
    op.writes ⊆ (opsB2_W.map (Proc.devRef (τ := τ) .tc)).toFinset := by
  simp only [opsB2, List.Forall]
  repeat' apply And.intro
  all_goals
    simp only [nullary_writes, unary_writes, binary_writes, ternary_writes, reshape_writes,
      Finset.singleton_subset_iff, List.mem_toFinset]
    exact List.mem_map_of_mem (by decide)

def VB2 (W : Valuation τ sig (Elt F)) : Valuation τ sig (Elt F) := after opsB2 (VB1 W)

theorem VB2_keep (W : Valuation τ sig (Elt F)) (r : Ref sig .tc) (h : r ∉ opsB2_W) :
    VB2 W (no_index (Proc.devRef .tc r)) = (VB1 W) (Proc.devRef .tc r) :=
  after_of_writes_sub opsB2 _ opsB2_writes h

abbrev opsC1_W : List (Ref sig .tc) := [main_c_6, main_v43, main_v44, main_c_7, main_v45, main_v46, main_v47, main_v48, main_v49, main_cst_8, main_v50, main_v51, main_v52, main_v53, main_v54]
set_option maxRecDepth 8192 in
theorem opsC1_writes : (opsC1 : List (HloOp τ sig (Elt F))).Forall fun op =>
    op.writes ⊆ (opsC1_W.map (Proc.devRef (τ := τ) .tc)).toFinset := by
  simp only [opsC1, List.Forall]
  repeat' apply And.intro
  all_goals
    simp only [nullary_writes, unary_writes, binary_writes, ternary_writes, reshape_writes,
      Finset.singleton_subset_iff, List.mem_toFinset]
    exact List.mem_map_of_mem (by decide)

def VC1 (W : Valuation τ sig (Elt F)) : Valuation τ sig (Elt F) := after opsC1 (VB2 W)

theorem VC1_keep (W : Valuation τ sig (Elt F)) (r : Ref sig .tc) (h : r ∉ opsC1_W) :
    VC1 W (no_index (Proc.devRef .tc r)) = (VB2 W) (Proc.devRef .tc r) :=
  after_of_writes_sub opsC1 _ opsC1_writes h

abbrev opsC2_W : List (Ref sig .tc) := [main_v55, main_v56, main_v57, main_v58, main_v59, main_v60, main_v61, main_v62, main_v63, main_v64, main_call2_v0, main_call2_cst, main_call2_v1, main_call2_v2, main_v65, main_cst_9, main_v66, main_v67, main_v68, main_v69, main_call3_cst, main_call3_v0, main_v70, main_v71]
set_option maxRecDepth 8192 in
theorem opsC2_writes : (opsC2 : List (HloOp τ sig (Elt F))).Forall fun op =>
    op.writes ⊆ (opsC2_W.map (Proc.devRef (τ := τ) .tc)).toFinset := by
  simp only [opsC2, List.Forall]
  repeat' apply And.intro
  all_goals
    simp only [nullary_writes, unary_writes, binary_writes, ternary_writes, reshape_writes,
      Finset.singleton_subset_iff, List.mem_toFinset]
    exact List.mem_map_of_mem (by decide)

def VC2 (W : Valuation τ sig (Elt F)) : Valuation τ sig (Elt F) := after opsC2 (VC1 W)

theorem VC2_keep (W : Valuation τ sig (Elt F)) (r : Ref sig .tc) (h : r ∉ opsC2_W) :
    VC2 W (no_index (Proc.devRef .tc r)) = (VC1 W) (Proc.devRef .tc r) :=
  after_of_writes_sub opsC2 _ opsC2_writes h

abbrev opsD1_W : List (Ref sig .tc) := [main_c_10, main_v72, main_v73, main_c_11, main_v74, main_v75, main_v76, main_v77, main_v78, main_cst_12, main_v79, main_v80, main_v81, main_v82, main_v83]
set_option maxRecDepth 8192 in
theorem opsD1_writes : (opsD1 : List (HloOp τ sig (Elt F))).Forall fun op =>
    op.writes ⊆ (opsD1_W.map (Proc.devRef (τ := τ) .tc)).toFinset := by
  simp only [opsD1, List.Forall]
  repeat' apply And.intro
  all_goals
    simp only [nullary_writes, unary_writes, binary_writes, ternary_writes, reshape_writes,
      Finset.singleton_subset_iff, List.mem_toFinset]
    exact List.mem_map_of_mem (by decide)

def VD1 (W : Valuation τ sig (Elt F)) : Valuation τ sig (Elt F) := after opsD1 (VC2 W)

theorem VD1_keep (W : Valuation τ sig (Elt F)) (r : Ref sig .tc) (h : r ∉ opsD1_W) :
    VD1 W (no_index (Proc.devRef .tc r)) = (VC2 W) (Proc.devRef .tc r) :=
  after_of_writes_sub opsD1 _ opsD1_writes h

abbrev opsD2_W : List (Ref sig .tc) := [main_v84, main_v85, main_v86, main_v87, main_v88, main_v89, main_v90, main_v91, main_v92, main_v93, main_call4_v0, main_call4_cst, main_call4_v1, main_call4_v2, main_v94, main_cst_13, main_v95, main_v96, main_v97, main_v98, main_call5_cst, main_call5_v0, main_v99, main_v100]
set_option maxRecDepth 8192 in
theorem opsD2_writes : (opsD2 : List (HloOp τ sig (Elt F))).Forall fun op =>
    op.writes ⊆ (opsD2_W.map (Proc.devRef (τ := τ) .tc)).toFinset := by
  simp only [opsD2, List.Forall]
  repeat' apply And.intro
  all_goals
    simp only [nullary_writes, unary_writes, binary_writes, ternary_writes, reshape_writes,
      Finset.singleton_subset_iff, List.mem_toFinset]
    exact List.mem_map_of_mem (by decide)

def VD2 (W : Valuation τ sig (Elt F)) : Valuation τ sig (Elt F) := after opsD2 (VD1 W)

theorem VD2_keep (W : Valuation τ sig (Elt F)) (r : Ref sig .tc) (h : r ∉ opsD2_W) :
    VD2 W (no_index (Proc.devRef .tc r)) = (VD1 W) (Proc.devRef .tc r) :=
  after_of_writes_sub opsD2 _ opsD2_writes h

abbrev opsE1_W : List (Ref sig .tc) := [main_c_14, main_v101, main_v102, main_c_15, main_v103, main_v104, main_v105, main_v106, main_v107, main_cst_16, main_v108, main_v109, main_v110, main_v111, main_v112]
set_option maxRecDepth 8192 in
theorem opsE1_writes : (opsE1 : List (HloOp τ sig (Elt F))).Forall fun op =>
    op.writes ⊆ (opsE1_W.map (Proc.devRef (τ := τ) .tc)).toFinset := by
  simp only [opsE1, List.Forall]
  repeat' apply And.intro
  all_goals
    simp only [nullary_writes, unary_writes, binary_writes, ternary_writes, reshape_writes,
      Finset.singleton_subset_iff, List.mem_toFinset]
    exact List.mem_map_of_mem (by decide)

def VE1 (W : Valuation τ sig (Elt F)) : Valuation τ sig (Elt F) := after opsE1 (VD2 W)

theorem VE1_keep (W : Valuation τ sig (Elt F)) (r : Ref sig .tc) (h : r ∉ opsE1_W) :
    VE1 W (no_index (Proc.devRef .tc r)) = (VD2 W) (Proc.devRef .tc r) :=
  after_of_writes_sub opsE1 _ opsE1_writes h

abbrev opsE2_W : List (Ref sig .tc) := [main_v113, main_v114, main_v115, main_v116, main_v117, main_v118, main_v119, main_v120, main_v121, main_v122, main_call6_v0, main_call6_cst, main_call6_v1, main_call6_v2, main_v123, main_cst_17, main_v124, main_v125, main_v126, main_v127, main_call7_cst, main_call7_v0, main_v128, main_v129]
set_option maxRecDepth 8192 in
theorem opsE2_writes : (opsE2 : List (HloOp τ sig (Elt F))).Forall fun op =>
    op.writes ⊆ (opsE2_W.map (Proc.devRef (τ := τ) .tc)).toFinset := by
  simp only [opsE2, List.Forall]
  repeat' apply And.intro
  all_goals
    simp only [nullary_writes, unary_writes, binary_writes, ternary_writes, reshape_writes,
      Finset.singleton_subset_iff, List.mem_toFinset]
    exact List.mem_map_of_mem (by decide)

def VE2 (W : Valuation τ sig (Elt F)) : Valuation τ sig (Elt F) := after opsE2 (VE1 W)

theorem VE2_keep (W : Valuation τ sig (Elt F)) (r : Ref sig .tc) (h : r ∉ opsE2_W) :
    VE2 W (no_index (Proc.devRef .tc r)) = (VE1 W) (Proc.devRef .tc r) :=
  after_of_writes_sub opsE2 _ opsE2_writes h

abbrev opsF1_W : List (Ref sig .tc) := [main_cst_18, main_v130, main_cst_19, main_v131, main_v132, main_v133, main_cst_20, main_v134, main_v135, main_v136, main_cst_21, main_v137, main_v138, main_v139, main_v140, main_v141]
set_option maxRecDepth 8192 in
theorem opsF1_writes : (opsF1 : List (HloOp τ sig (Elt F))).Forall fun op =>
    op.writes ⊆ (opsF1_W.map (Proc.devRef (τ := τ) .tc)).toFinset := by
  simp only [opsF1, List.Forall]
  repeat' apply And.intro
  all_goals
    simp only [nullary_writes, unary_writes, binary_writes, ternary_writes, reshape_writes,
      Finset.singleton_subset_iff, List.mem_toFinset]
    exact List.mem_map_of_mem (by decide)

def VF1 (W : Valuation τ sig (Elt F)) : Valuation τ sig (Elt F) := after opsF1 (VE2 W)

theorem VF1_keep (W : Valuation τ sig (Elt F)) (r : Ref sig .tc) (h : r ∉ opsF1_W) :
    VF1 W (no_index (Proc.devRef .tc r)) = (VE2 W) (Proc.devRef .tc r) :=
  after_of_writes_sub opsF1 _ opsF1_writes h

abbrev opsF2_W : List (Ref sig .tc) := [main_v142, main_v143, main_v144, main_v145, main_v146, main_v147, main_v148, main_cst_22, main_v149, main_cst_23, main_v150, main_v151, main_cst_24, main_v152, main_v153, main_v154, main_v155, main_v156, main_v157, main_v158, main_v159, main_cst_25, main_v160, main_v161, main_cst_26, main_v162, main_v163, main_v164]
set_option maxRecDepth 8192 in
theorem opsF2_writes : (opsF2 : List (HloOp τ sig (Elt F))).Forall fun op =>
    op.writes ⊆ (opsF2_W.map (Proc.devRef (τ := τ) .tc)).toFinset := by
  simp only [opsF2, List.Forall]
  repeat' apply And.intro
  all_goals
    simp only [nullary_writes, unary_writes, binary_writes, ternary_writes, reshape_writes,
      Finset.singleton_subset_iff, List.mem_toFinset]
    exact List.mem_map_of_mem (by decide)

def VF2 (W : Valuation τ sig (Elt F)) : Valuation τ sig (Elt F) := after opsF2 (VF1 W)

theorem VF2_keep (W : Valuation τ sig (Elt F)) (r : Ref sig .tc) (h : r ∉ opsF2_W) :
    VF2 W (no_index (Proc.devRef .tc r)) = (VF1 W) (Proc.devRef .tc r) :=
  after_of_writes_sub opsF2 _ opsF2_writes h

theorem after_ops (W : Valuation τ sig (Elt F)) : after ops W = VF2 W := by
  unfold ops
  simp only [StableHlo.after_append]
  rfl

local macro "keeps" : tactic =>
  `(tactic| simp (disch := decide) only [VF2_keep, VF1_keep, VE2_keep, VE1_keep, VD2_keep, VD1_keep, VC2_keep, VC1_keep,
      VB2_keep, VB1_keep, VA_keep])

set_option maxHeartbeats 1000000 in

theorem A_v4 (W : Valuation τ sig (Elt F)) :
    after opsA W (Proc.devRef .tc main_v4) = val_main_v4 (W (Proc.devRef .tc main_arg0)) (W (Proc.devRef .tc main_arg4)) (W (Proc.devRef .tc main_arg5)) := by
  simp only [opsA]
  after_results_simp
  rfl

set_option maxHeartbeats 1000000 in

theorem A_v13 (W : Valuation τ sig (Elt F)) :
    after opsA W (Proc.devRef .tc main_v13) = val_main_v13 (W (Proc.devRef .tc main_arg2)) := by
  simp only [opsA]
  after_results_simp
  rfl

set_option maxHeartbeats 1000000 in

theorem B1_v25 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (ht : W (Proc.devRef .tc main_v4) = val_main_v4 x0 x4 x5)
    (h13 : W (Proc.devRef .tc main_v13) = val_main_v13 x2)
    (h1 : W (Proc.devRef .tc main_arg1) = x1) (h2 : W (Proc.devRef .tc main_arg2) = x2) :
    after opsB1 W (Proc.devRef .tc main_v25) = val_main_v25 x0 x1 x2 x4 x5 := by
  simp only [opsB1]
  after_results_simp
  rw [ht, h13, h1, h2]
  rfl

set_option maxHeartbeats 1000000 in

theorem B2_v42 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v4) = val_main_v4 x0 x4 x5)
    (hm : W (Proc.devRef .tc main_v25) = val_main_v25 x0 x1 x2 x4 x5)
    (h6 : W (Proc.devRef .tc main_arg6) = x6) (h7 : W (Proc.devRef .tc main_arg7) = x7) :
    after opsB2 W (Proc.devRef .tc main_v42) = val_main_v42 x0 x1 x2 x4 x5 x6 x7 := by
  simp only [opsB2]
  after_results_simp
  rw [ht, hm, h6, h7]
  rfl

set_option maxHeartbeats 1000000 in

theorem C1_v54 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v42) = val_main_v42 x0 x1 x2 x4 x5 x6 x7)
    (h13 : W (Proc.devRef .tc main_v13) = val_main_v13 x2)
    (h1 : W (Proc.devRef .tc main_arg1) = x1) (h2 : W (Proc.devRef .tc main_arg2) = x2) :
    after opsC1 W (Proc.devRef .tc main_v54) = val_main_v54 x0 x1 x2 x4 x5 x6 x7 := by
  simp only [opsC1]
  after_results_simp
  rw [ht, h13, h1, h2]
  rfl

set_option maxHeartbeats 1000000 in

theorem C2_v71 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v42) = val_main_v42 x0 x1 x2 x4 x5 x6 x7)
    (hm : W (Proc.devRef .tc main_v54) = val_main_v54 x0 x1 x2 x4 x5 x6 x7)
    (h6 : W (Proc.devRef .tc main_arg6) = x6) (h7 : W (Proc.devRef .tc main_arg7) = x7) :
    after opsC2 W (Proc.devRef .tc main_v71) = val_main_v71 x0 x1 x2 x4 x5 x6 x7 := by
  simp only [opsC2]
  after_results_simp
  rw [ht, hm, h6, h7]
  rfl

set_option maxHeartbeats 1000000 in

theorem D1_v83 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v71) = val_main_v71 x0 x1 x2 x4 x5 x6 x7)
    (h13 : W (Proc.devRef .tc main_v13) = val_main_v13 x2)
    (h1 : W (Proc.devRef .tc main_arg1) = x1) (h2 : W (Proc.devRef .tc main_arg2) = x2) :
    after opsD1 W (Proc.devRef .tc main_v83) = val_main_v83 x0 x1 x2 x4 x5 x6 x7 := by
  simp only [opsD1]
  after_results_simp
  rw [ht, h13, h1, h2]
  rfl

set_option maxHeartbeats 1000000 in

theorem D2_v100 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v71) = val_main_v71 x0 x1 x2 x4 x5 x6 x7)
    (hm : W (Proc.devRef .tc main_v83) = val_main_v83 x0 x1 x2 x4 x5 x6 x7)
    (h6 : W (Proc.devRef .tc main_arg6) = x6) (h7 : W (Proc.devRef .tc main_arg7) = x7) :
    after opsD2 W (Proc.devRef .tc main_v100) = val_main_v100 x0 x1 x2 x4 x5 x6 x7 := by
  simp only [opsD2]
  after_results_simp
  rw [ht, hm, h6, h7]
  rfl

set_option maxHeartbeats 1000000 in

theorem E1_v112 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v100) = val_main_v100 x0 x1 x2 x4 x5 x6 x7)
    (h13 : W (Proc.devRef .tc main_v13) = val_main_v13 x2)
    (h1 : W (Proc.devRef .tc main_arg1) = x1) (h2 : W (Proc.devRef .tc main_arg2) = x2) :
    after opsE1 W (Proc.devRef .tc main_v112) = val_main_v112 x0 x1 x2 x4 x5 x6 x7 := by
  simp only [opsE1]
  after_results_simp
  rw [ht, h13, h1, h2]
  rfl

set_option maxHeartbeats 1000000 in

theorem E2_v129 (W : Valuation τ sig (Elt F))
    (x0 : (⟨S50000x128, .f32⟩ : BufTy).Contents (Elt F)) (x1 x2 : (⟨S600000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v100) = val_main_v100 x0 x1 x2 x4 x5 x6 x7)
    (hm : W (Proc.devRef .tc main_v112) = val_main_v112 x0 x1 x2 x4 x5 x6 x7)
    (h6 : W (Proc.devRef .tc main_arg6) = x6) (h7 : W (Proc.devRef .tc main_arg7) = x7) :
    after opsE2 W (Proc.devRef .tc main_v129) = val_main_v129 x0 x1 x2 x4 x5 x6 x7 := by
  simp only [opsE2]
  after_results_simp
  rw [ht, hm, h6, h7]
  rfl

set_option maxHeartbeats 1000000 in

theorem F1_v141 (W : Valuation τ sig (Elt F))
    (x0 : (⟨S50000x128, .f32⟩ : BufTy).Contents (Elt F)) (x1 x2 : (⟨S600000, .i32⟩ : BufTy).Contents (Elt F)) (x3 : (⟨S50000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (ht : W (Proc.devRef .tc main_v129) = val_main_v129 x0 x1 x2 x4 x5 x6 x7)
    (h3 : W (Proc.devRef .tc main_arg3) = x3) :
    after opsF1 W (Proc.devRef .tc main_v141) = val_main_v141 x0 x1 x2 x3 x4 x5 x6 x7 := by
  simp only [opsF1]
  after_results_simp
  rw [ht, h3]
  rfl

set_option maxHeartbeats 1000000 in

theorem F2_v164 (W : Valuation τ sig (Elt F))
    (x0 : (⟨S50000x128, .f32⟩ : BufTy).Contents (Elt F)) (x1 x2 : (⟨S600000, .i32⟩ : BufTy).Contents (Elt F)) (x3 : (⟨S50000, .i32⟩ : BufTy).Contents (Elt F))
    (x4 : (⟨S128x128, .f32⟩ : BufTy).Contents (Elt F)) (x5 : (⟨S128, .f32⟩ : BufTy).Contents (Elt F))
    (x6 : (⟨S4x128x256, .f32⟩ : BufTy).Contents (Elt F)) (x7 : (⟨S4x128, .f32⟩ : BufTy).Contents (Elt F))
    (x8 x9 : (⟨S10x128, .f32⟩ : BufTy).Contents (Elt F)) (x10 : (⟨S1x20, .f32⟩ : BufTy).Contents (Elt F))
    (hp : W (Proc.devRef .tc main_v141) = val_main_v141 x0 x1 x2 x3 x4 x5 x6 x7)
    (h8 : W (Proc.devRef .tc main_arg8) = x8) (h9 : W (Proc.devRef .tc main_arg9) = x9) (h10 : W (Proc.devRef .tc main_arg10) = x10) :
    after opsF2 W (Proc.devRef .tc main_v164) = val_main_v164 x0 x1 x2 x3 x4 x5 x6 x7 x8 x9 x10 := by
  simp only [opsF2]
  after_results_simp
  rw [hp, h8, h9, h10]
  rfl

theorem VA_v4 (W : Valuation τ sig (Elt F)) :
    VA W (no_index (Proc.devRef .tc main_v4)) = val_main_v4 (W (Proc.devRef .tc main_arg0)) (W (Proc.devRef .tc main_arg4)) (W (Proc.devRef .tc main_arg5)) := A_v4 W
theorem VA_v13 (W : Valuation τ sig (Elt F)) :
    VA W (no_index (Proc.devRef .tc main_v13)) = val_main_v13 (W (Proc.devRef .tc main_arg2)) := A_v13 W

theorem VB1_v25 (W : Valuation τ sig (Elt F)) :
    VB1 W (no_index (Proc.devRef .tc main_v25)) = val_main_v25 (W (Proc.devRef .tc main_arg0)) (W (Proc.devRef .tc main_arg1)) (W (Proc.devRef .tc main_arg2)) (W (Proc.devRef .tc main_arg4)) (W (Proc.devRef .tc main_arg5)) :=
  B1_v25 (VA W) _ _ _ _ _ (VA_v4 W) (VA_v13 W) (by keeps) (by keeps)
theorem VB2_v42 (W : Valuation τ sig (Elt F)) :
    VB2 W (no_index (Proc.devRef .tc main_v42)) = val_main_v42 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  B2_v42 (VB1 W) _ _ _ _ _ _ _ (by keeps; exact VA_v4 W) (VB1_v25 W) (by keeps) (by keeps)

theorem VC1_v54 (W : Valuation τ sig (Elt F)) :
    VC1 W (no_index (Proc.devRef .tc main_v54)) = val_main_v54 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  C1_v54 (VB2 W) _ _ _ _ _ _ _ (VB2_v42 W) (by keeps; exact VA_v13 W) (by keeps) (by keeps)
theorem VC2_v71 (W : Valuation τ sig (Elt F)) :
    VC2 W (no_index (Proc.devRef .tc main_v71)) = val_main_v71 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  C2_v71 (VC1 W) _ _ _ _ _ _ _ (by keeps; exact VB2_v42 W) (VC1_v54 W) (by keeps) (by keeps)

theorem VD1_v83 (W : Valuation τ sig (Elt F)) :
    VD1 W (no_index (Proc.devRef .tc main_v83)) = val_main_v83 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  D1_v83 (VC2 W) _ _ _ _ _ _ _ (VC2_v71 W) (by keeps; exact VA_v13 W) (by keeps) (by keeps)
theorem VD2_v100 (W : Valuation τ sig (Elt F)) :
    VD2 W (no_index (Proc.devRef .tc main_v100)) = val_main_v100 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  D2_v100 (VD1 W) _ _ _ _ _ _ _ (by keeps; exact VC2_v71 W) (VD1_v83 W) (by keeps) (by keeps)

theorem VE1_v112 (W : Valuation τ sig (Elt F)) :
    VE1 W (no_index (Proc.devRef .tc main_v112)) = val_main_v112 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  E1_v112 (VD2 W) _ _ _ _ _ _ _ (VD2_v100 W) (by keeps; exact VA_v13 W) (by keeps) (by keeps)
theorem VE2_v129 (W : Valuation τ sig (Elt F)) :
    VE2 W (no_index (Proc.devRef .tc main_v129)) = val_main_v129 (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) :=
  E2_v129 (VE1 W) _ _ _ _ _ _ _ (by keeps; exact VD2_v100 W) (VE1_v112 W) (by keeps) (by keeps)

theorem VF1_v141 (W : Valuation τ sig (Elt F)) :
    VF1 W (no_index (Proc.devRef .tc main_v141)) = val_main_v141 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  F1_v141 (VE2 W) _ _ _ _ _ _ _ _ (VE2_v129 W) (by keeps)
theorem VF2_v164 (W : Valuation τ sig (Elt F)) :
    VF2 W (no_index (Proc.devRef .tc main_v164)) = val_main_v164 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) :=
  F2_v164 (VF1 W) _ _ _ _ _ _ _ _ _ _ _ (VF1_v141 W) (by keeps) (by keeps) (by keeps)

theorem after_result (W : Valuation τ sig (Elt F)) :
    after ops W (Proc.devRef .tc main_v164) = val_main_v164 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [after_ops]
  exact VF2_v164 W

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164)
          = val_main_v164 (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v164).trans (after_result _),
       (h c main_arg0).trans (by rw [after_ops]; keeps),
       (h c main_arg1).trans (by rw [after_ops]; keeps),
       (h c main_arg2).trans (by rw [after_ops]; keeps),
       (h c main_arg3).trans (by rw [after_ops]; keeps),
       (h c main_arg4).trans (by rw [after_ops]; keeps),
       (h c main_arg5).trans (by rw [after_ops]; keeps),
       (h c main_arg6).trans (by rw [after_ops]; keeps),
       (h c main_arg7).trans (by rw [after_ops]; keeps),
       (h c main_arg8).trans (by rw [after_ops]; keeps),
       (h c main_arg9).trans (by rw [after_ops]; keeps),
       (h c main_arg10).trans (by rw [after_ops]; keeps)⟩)
    (run_after m ρ)

end Cert.ReferenceIdeal.RefRun

end
-- ==== Proof.RefCore.lean ====
import proofs.«422288_j69166153335416_3_alg».proof.Proof.Spec
import proofs.«422288_j69166153335416_3_alg».proof.Proof.RefRead
import proofs.«422288_j69166153335416_3_alg».proof.Proof.SpecHost
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.ReferenceIdeal.RefValue

open Idealize.ShloMosaic Idealize.ShloMosaic.ValueIdx Cert.Spec Cert.ReferenceIdeal

abbrev sNC : Shape := ⟨2, ![50000, 256]⟩
abbrev sCH : Shape := ⟨2, ![256, 128]⟩

abbrev colL (k : Fin 128) : Fin 256 := ⟨k.val, by omega⟩
abbrev colR (k : Fin 128) : Fin 256 := ⟨128 + k.val, by omega⟩

theorem sum256 (f : Fin 256 → EReal) :
    ∑ k : Fin 256, f k = (∑ k : Fin 128, f (colL k)) + ∑ k : Fin 128, f (colR k) :=
  Fin.sum_univ_add (a := 128) (b := 128) f

theorem cat_left (x y : Arr sNH) (h : Shape.Concatenates [sNH, sNH] sNC 1) (n : Fin 50000) (k : Fin 128) :
    concatenate sNC 1 [⟨sNH, x⟩, ⟨sNH, y⟩] h (ix2 n (colL k)) = x (ix2 n k) :=
  concatenate_pair_apply_left 1 x y h (ix2 n (colL k)) rfl (ix2 n k)
    (fun b => by match b with | ⟨0, _⟩ => rfl | ⟨1, _⟩ => rfl)

theorem cat_right (x y : Arr sNH) (h : Shape.Concatenates [sNH, sNH] sNC 1) (n : Fin 50000) (k : Fin 128) :
    concatenate sNC 1 [⟨sNH, x⟩, ⟨sNH, y⟩] h (ix2 n (colR k)) = y (ix2 n k) :=
  concatenate_pair_apply_right 1 x y h (ix2 n (colR k)) rfl rfl (ix2 n k)
    (fun b hb => by match b with | ⟨0, _⟩ => rfl | ⟨1, _⟩ => exact absurd rfl hb)
    (by show k.val + 128 = 128 + k.val; omega)

theorem preE_of (X NR : Arr sNH) (IV : Arr sN1) (W : Arr sW) (B : Arr sB) (l : Fin 4)
    (cat : sNC.Idx → EReal) (wt : sCH.Idx → EReal) (bias : sNH.Idx → EReal)
    (hcL : ∀ (n : Fin 50000) (k : Fin 128), cat (ix2 n (colL k)) = X (ix2 n k))
    (hcR : ∀ (n : Fin 50000) (k : Fin 128), cat (ix2 n (colR k)) = NR (ix2 n k) * IV (ix2 n 0))
    (hw : ∀ (k : Fin 256) (j : Fin 128), wt (ix2 k j) = W (ix3 l j k))
    (hb : ∀ (n : Fin 50000) (j : Fin 128), bias (ix2 n j) = B (ix2 l j))
    (n : Fin 50000) (j : Fin 128) :
    (∑ k : Fin 256, cat (ix2 n k) * wt (ix2 k j)) + bias (ix2 n j)
      = preE X NR IV (w1Of W l) (w2Of W l) (bOf B l) n j := by
  rw [sum256]
  simp only [hcL, hcR, hw, hb]
  rfl

theorem layerE_of (X NR : Arr sNH) (IV : Arr sN1) (w1 w2 : Arr sHH) (b : Arr sH)
    (pre : sNH.Idx → EReal) (hpre : ∀ (n : Fin 50000) (j : Fin 128), pre (ix2 n j) = preE X NR IV w1 w2 b n j)
    (n : Fin 50000) (j : Fin 128) :
    X (ix2 n j) + max (Ideal.div (pre (ix2 n j))
        (max (Ideal.sqrt (Ideal.ofBits .f32 0x00000000#32 + ∑ k : Fin 128, pre (ix2 n k) * pre (ix2 n k)))
          (Ideal.ofBits .f32 0x2B8CBCCC#32))) (Ideal.ofBits .f32 0x00000000#32)
      = layerE X NR IV w1 w2 b n j := by
  simp only [hpre, Ideal.ofBits_zero_f32, zero_add]
  rfl

theorem x0_eq (a0 : Vec Ideal S50000x128 .f32) (a4 : Vec Ideal S128x128 .f32) (a5 : Vec Ideal S128 .f32) :
    ReadP.val_main_v4 (F := Ideal) a0 a4 a5 = embed a0 a4 a5 := by
  funext i
  rw [ReadP.val_main_v4_apply, ReadP.val_main_v1_apply, ReadP.val_main_v3_apply, ReadP.val_main_v2_apply]
  show (∑ k : Fin 128, a0 (ReadP.lidx_main_v1 i k) * ReadP.val_main_v0 (F := Ideal) a4 (ReadP.ridx_main_v1 i k)) + a5 _
    = (∑ k : Fin 128, a0 (ix2 (i 0) k) * a4 (ix2 (i 1) k)) + a5 (ix1 (i 1))
  refine congrArg₂ (· + ·) (Finset.sum_congr rfl fun k _ => ?_) (congrArg a5 ?_)
  · rw [ReadP.val_main_v0_apply]
    refine congrArg₂ (· * ·) (congrArg a0 ?_) (congrArg a4 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

theorem inv13 (a2 : Vec Ideal S600000 .i32) : ReadP.val_main_v13 (F := Ideal) a2 = inv a2 := by
  unfold ReadP.val_main_v13 ReadP.val_main_v12 ReadP.val_main_v11 ReadP.val_main_v10 ReadP.val_main_v9 ReadP.val_main_v8
    ReadP.val_main_v7 ReadP.val_main_v6 ReadP.val_main_v5 ReadP.val_main_cst ReadP.val_main_cst_0 ReadP.val_main_cst_1
    ReadP.val_main_cst_2
  exact Cert.SpecHost.inv_eq _ rfl rfl rfl rfl _ _ _ _ a2

end Cert.ReferenceIdeal.RefValue

end
-- ==== Proof.RefL0.lean ====
import proofs.«422288_j69166153335416_3_alg».proof.Proof.RefCore

noncomputable section

open scoped BigOperators

namespace Cert.ReferenceIdeal.RefValue

open Idealize.ShloMosaic Idealize.ShloMosaic.ValueIdx Cert.Spec Cert.ReferenceIdeal

section Layer0

variable (a0 : Vec Ideal S50000x128 .f32) (a1 a2 : Vec Ideal S600000 .i32) (a4 : Vec Ideal S128x128 .f32)
  (a5 : Vec Ideal S128 .f32) (a6 : Vec Ideal S4x128x256 .f32) (a7 : Vec Ideal S4x128 .f32)

theorem wt0 (k : Fin 256) (j : Fin 128) : ReadP.val_main_v29 (F := Ideal) a6 (ix2 k j) = a6 (ix3 0 j k) := by
  rw [ReadP.val_main_v29_apply, ReadP.val_main_v28_apply, ReadP.val_main_v27_apply]
  refine congrArg a6 (funext fun a => Fin.ext ?_)
  have hj := j.isLt; have hk := k.isLt
  match a with
  | ⟨0, _⟩ => rfl
  | ⟨1, _⟩ => show (j.val * 256 + k.val) / 256 % 128 = j.val; omega
  | ⟨2, _⟩ => show (j.val * 256 + k.val) % 256 = k.val; omega

theorem bias0 (n : Fin 50000) (j : Fin 128) : ReadP.val_main_v34 (F := Ideal) a7 (ix2 n j) = a7 (ix2 0 j) := by
  rw [ReadP.val_main_v34_apply, ReadP.val_main_v33_apply, ReadP.val_main_v32_apply, ReadP.val_main_v31_apply]
  refine congrArg a7 (funext fun a => Fin.ext ?_)
  have hj := j.isLt
  match a with
  | ⟨0, _⟩ => rfl
  | ⟨1, _⟩ => show j.val % 128 = j.val; omega

theorem catL0 (n : Fin 50000) (k : Fin 128) :
    ReadP.val_main_v26 (F := Ideal) a0 a1 a2 a4 a5 (ix2 n (colL k)) = ReadP.val_main_v4 (F := Ideal) a0 a4 a5 (ix2 n k) := by
  unfold ReadP.val_main_v26
  exact cat_left _ _ _ n k

theorem catR0 (n : Fin 50000) (k : Fin 128) :
    ReadP.val_main_v26 (F := Ideal) a0 a1 a2 a4 a5 (ix2 n (colR k))
      = ReadP.val_main_v23 (F := Ideal) a0 a1 a2 a4 a5 (ix2 n k) * ReadP.val_main_v13 (F := Ideal) a2 (ix2 n 0) := by
  unfold ReadP.val_main_v26
  rw [cat_right _ _ _ n k, ReadP.val_main_v25_apply, ReadP.val_main_v24_apply]
  refine congrArg (ReadP.val_main_v23 (F := Ideal) a0 a1 a2 a4 a5 (ix2 n k) * ReadP.val_main_v13 (F := Ideal) a2 ·) ?_
  exact funext fun a => Fin.ext (by match a with | ⟨0, _⟩ => rfl | ⟨1, _⟩ => rfl)

theorem pre0 (n : Fin 50000) (j : Fin 128) :
    ReadP.val_main_v35 (F := Ideal) a0 a1 a2 a4 a5 a6 a7 (ix2 n j)
      = preE (ReadP.val_main_v4 (F := Ideal) a0 a4 a5) (ReadP.val_main_v23 (F := Ideal) a0 a1 a2 a4 a5)
          (ReadP.val_main_v13 (F := Ideal) a2) (w1Of a6 0) (w2Of a6 0) (bOf a7 0) n j := by
  rw [ReadP.val_main_v35_apply, ReadP.val_main_v30_apply]
  have hl : ∀ k : Fin 256, ReadP.lidx_main_v30 (ix2 n j) k = ix2 n k := fun k =>
    funext fun a => Fin.ext (by match a with | ⟨0, _⟩ => rfl | ⟨1, _⟩ => rfl)
  have hr : ∀ k : Fin 256, ReadP.ridx_main_v30 (ix2 n j) k = ix2 k j := fun k =>
    funext fun a => Fin.ext (by match a with | ⟨0, _⟩ => rfl | ⟨1, _⟩ => rfl)
  simp only [hl, hr]
  exact preE_of _ _ _ a6 a7 0 _ _ _ (catL0 a0 a1 a2 a4 a5) (catR0 a0 a1 a2 a4 a5) (wt0 a6) (bias0 a7) n j

theorem layer0_eq :
    ReadP.val_main_v42 (F := Ideal) a0 a1 a2 a4 a5 a6 a7
      = layer (ReadP.val_main_v4 (F := Ideal) a0 a4 a5) (ReadP.val_main_v23 (F := Ideal) a0 a1 a2 a4 a5)
          (ReadP.val_main_v13 (F := Ideal) a2) a6 a7 0 := by
  funext i
  obtain ⟨n, j, rfl⟩ : ∃ (n : Fin 50000) (j : Fin 128), i = ix2 n j := ⟨i 0, i 1, eq_ix2 i⟩
  rw [ReadP.val_main_v42_apply, ReadP.val_main_v41_apply, ReadP.val_main_v40_apply, ReadP.val_main_v39_apply,
    ReadP.val_main_v38_apply, ReadP.val_main_v36_apply, ReadP.val_main_call0_v2_apply, ReadP.val_main_call0_v1_apply,
    ReadP.val_main_v37_apply, ReadP.val_main_cst_5_apply, ReadP.val_main_call0_cst_apply,
    ReadP.val_main_call1_v0_apply, ReadP.val_main_call1_cst_apply]
  have hk : ∀ k : Fin 128, ReadP.idx_main_call0_v1 (ReadP.idx_main_call0_v2 (ReadP.idx_main_v39 (ix2 n j))) k = ix2 n k :=
    fun k => funext fun a => Fin.ext (by match a with | ⟨0, _⟩ => rfl | ⟨1, _⟩ => rfl)
  simp only [hk, ReadP.val_main_call0_v0_apply]
  exact layerE_of _ _ _ _ _ _ _ (pre0 a0 a1 a2 a4 a5 a6 a7) n j

theorem nraw0 :
    ReadP.val_main_v23 (F := Ideal) a0 a1 a2 a4 a5 = nraw (ReadP.val_main_v4 (F := Ideal) a0 a4 a5) a1 a2 := by
  unfold ReadP.val_main_v23 ReadP.val_main_v22 ReadP.val_main_v21 ReadP.val_main_v20 ReadP.val_main_v19 ReadP.val_main_v18
    ReadP.val_main_v17 ReadP.val_main_v16 ReadP.val_main_v15 ReadP.val_main_v14 ReadP.val_main_c ReadP.val_main_c_3
    ReadP.val_main_cst_4
  exact Cert.SpecHost.nraw_eq _ rfl rfl rfl rfl rfl _ rfl rfl rfl rfl _ _ _ _ a1 a2

end Layer0

end Cert.ReferenceIdeal.RefValue

end
-- ==== Proof.RefL1.lean ====
import proofs.«422288_j69166153335416_3_alg».proof.Proof.RefCore

noncomputable section

open scoped BigOperators

namespace Cert.ReferenceIdeal.RefValue

open Idealize.ShloMosaic Idealize.ShloMosaic.ValueIdx Cert.Spec Cert.ReferenceIdeal

section Layer1

variable (a0 : Vec Ideal S50000x128 .f32) (a1 a2 : Vec Ideal S600000 .i32) (a4 : Vec Ideal S128x128 .f32)
  (a5 : Vec Ideal S128 .f32) (a6 : Vec Ideal S4x128x256 .f32) (a7 : Vec Ideal S4x128 .f32)

theorem wt1 (k : Fin 256) (j : Fin 128) : ReadP.val_main_v58 (F := Ideal) a6 (ix2 k j) = a6 (ix3 1 j k) := by
  rw [ReadP.val_main_v58_apply, ReadP.val_main_v57_apply, ReadP.val_main_v56_apply]
  refine congrArg a6 (funext fun a => Fin.ext ?_)
  have hj := j.isLt; have hk := k.isLt
  match a with
  | ⟨0, _⟩ => rfl
  | ⟨1, _⟩ => show (j.val * 256 + k.val) / 256 % 128 = j.val; omega
  | ⟨2, _⟩ => show (j.val * 256 + k.val) % 256 = k.val; omega

theorem bias1 (n : Fin 50000) (j : Fin 128) : ReadP.val_main_v63 (F := Ideal) a7 (ix2 n j) = a7 (ix2 1 j) := by
  rw [ReadP.val_main_v63_apply, ReadP.val_main_v62_apply, ReadP.val_main_v61_apply, ReadP.val_main_v60_apply]
  refine congrArg a7 (funext fun a => Fin.ext ?_)
  have hj := j.isLt
  match a with
  | ⟨0, _⟩ => rfl
  | ⟨1, _⟩ => show j.val % 128 = j.val; omega

theorem catL1 (n : Fin 50000) (k : Fin 128) :
    ReadP.val_main_v55 (F := Ideal) a0 a1 a2 a4 a5 a6 a7 (ix2 n (colL k)) = ReadP.val_main_v42 (F := Ideal) a0 a1 a2 a4 a5 a6 a7 (ix2 n k) := by
  unfold ReadP.val_main_v55
  exact cat_left _ _ _ n k

theorem catR1 (n : Fin 50000) (k : Fin 128) :
    ReadP.val_main_v55 (F := Ideal) a0 a1 a2 a4 a5 a6 a7 (ix2 n (colR k))
      = ReadP.val_main_v52 (F := Ideal) a0 a1 a2 a4 a5 a6 a7 (ix2 n k) * ReadP.val_main_v13 (F := Ideal) a2 (ix2 n 0) := by
  unfold ReadP.val_main_v55
  rw [cat_right _ _ _ n k, ReadP.val_main_v54_apply, ReadP.val_main_v53_apply]
  refine congrArg (ReadP.val_main_v52 (F := Ideal) a0 a1 a2 a4 a5 a6 a7 (ix2 n k) * ReadP.val_main_v13 (F := Ideal) a2 ·) ?_
  exact funext fun a => Fin.ext (by match a with | ⟨0, _⟩ => rfl | ⟨1, _⟩ => rfl)

theorem pre1 (n : Fin 50000) (j : Fin 128) :
    ReadP.val_main_v64 (F := Ideal) a0 a1 a2 a4 a5 a6 a7 (ix2 n j)
      = preE (ReadP.val_main_v42 (F := Ideal) a0 a1 a2 a4 a5 a6 a7) (ReadP.val_main_v52 (F := Ideal) a0 a1 a2 a4 a5 a6 a7)
          (ReadP.val_main_v13 (F := Ideal) a2) (w1Of a6 1) (w2Of a6 1) (bOf a7 1) n j := by
  rw [ReadP.val_main_v64_apply, ReadP.val_main_v59_apply]
  have hl : ∀ k : Fin 256, ReadP.lidx_main_v59 (ix2 n j) k = ix2 n k := fun k =>
    funext fun a => Fin.ext (by match a with | ⟨0, _⟩ => rfl | ⟨1, _⟩ => rfl)
  have hr : ∀ k : Fin 256, ReadP.ridx_main_v59 (ix2 n j) k = ix2 k j := fun k =>
    funext fun a => Fin.ext (by match a with | ⟨0, _⟩ => rfl | ⟨1, _⟩ => rfl)
  simp only [hl, hr]
  exact preE_of _ _ _ a6 a7 1 _ _ _ (catL1 a0 a1 a2 a4 a5 a6 a7) (catR1 a0 a1 a2 a4 a5 a6 a7) (wt1 a6) (bias1 a7) n j

theorem layer1_eq :
    ReadP.val_main_v71 (F := Ideal) a0 a1 a2 a4 a5 a6 a7
      = layer (ReadP.val_main_v42 (F := Ideal) a0 a1 a2 a4 a5 a6 a7) (ReadP.val_main_v52 (F := Ideal) a0 a1 a2 a4 a5 a6 a7)
          (ReadP.val_main_v13 (F := Ideal) a2) a6 a7 1 := by
  funext i
  obtain ⟨n, j, rfl⟩ : ∃ (n : Fin 50000) (j : Fin 128), i = ix2 n j := ⟨i 0, i 1, eq_ix2 i⟩
  rw [ReadP.val_main_v71_apply, ReadP.val_main_v70_apply, ReadP.val_main_v69_apply, ReadP.val_main_v68_apply,
    ReadP.val_main_v67_apply, ReadP.val_main_v65_apply, ReadP.val_main_call2_v2_apply, ReadP.val_main_call2_v1_apply,
    ReadP.val_main_v66_apply, ReadP.val_main_cst_9_apply, ReadP.val_main_call2_cst_apply,
    ReadP.val_main_call3_v0_apply, ReadP.val_main_call3_cst_apply]
  have hk : ∀ k : Fin 128, ReadP.idx_main_call2_v1 (ReadP.idx_main_call2_v2 (ReadP.idx_main_v68 (ix2 n j))) k = ix2 n k :=
    fun k => funext fun a => Fin.ext (by match a with | ⟨0, _⟩ => rfl | ⟨1, _⟩ => rfl)
  simp only [hk, ReadP.val_main_call2_v0_apply]
  exact layerE_of _ _ _ _ _ _ _ (pre1 a0 a1 a2 a4 a5 a6 a7) n j

theorem nraw1 :
    ReadP.val_main_v52 (F := Ideal) a0 a1 a2 a4 a5 a6 a7 = nraw (ReadP.val_main_v42 (F := Ideal) a0 a1 a2 a4 a5 a6 a7) a1 a2 := by
  unfold ReadP.val_main_v52 ReadP.val_main_v51 ReadP.val_main_v50 ReadP.val_main_v49 ReadP.val_main_v48 ReadP.val_main_v47
    ReadP.val_main_v46 ReadP.val_main_v45 ReadP.val_main_v44 ReadP.val_main_v43 ReadP.val_main_c_6 ReadP.val_main_c_7
    ReadP.val_main_cst_8
  exact Cert.SpecHost.nraw_eq _ rfl rfl rfl rfl rfl _ rfl rfl rfl rfl _ _ _ _ a1 a2

end Layer1

end Cert.ReferenceIdeal.RefValue

end
-- ==== Proof.RefL2.lean ====
import proofs.«422288_j69166153335416_3_alg».proof.Proof.RefCore

noncomputable section

open scoped BigOperators

namespace Cert.ReferenceIdeal.RefValue

open Idealize.ShloMosaic Idealize.ShloMosaic.ValueIdx Cert.Spec Cert.ReferenceIdeal

section Layer2

variable (a0 : Vec Ideal S50000x128 .f32) (a1 a2 : Vec Ideal S600000 .i32) (a4 : Vec Ideal S128x128 .f32)
  (a5 : Vec Ideal S128 .f32) (a6 : Vec Ideal S4x128x256 .f32) (a7 : Vec Ideal S4x128 .f32)

theorem wt2 (k : Fin 256) (j : Fin 128) : ReadP.val_main_v87 (F := Ideal) a6 (ix2 k j) = a6 (ix3 2 j k) := by
  rw [ReadP.val_main_v87_apply, ReadP.val_main_v86_apply, ReadP.val_main_v85_apply]
  refine congrArg a6 (funext fun a => Fin.ext ?_)
  have hj := j.isLt; have hk := k.isLt
  match a with
  | ⟨0, _⟩ => rfl
  | ⟨1, _⟩ => show (j.val * 256 + k.val) / 256 % 128 = j.val; omega
  | ⟨2, _⟩ => show (j.val * 256 + k.val) % 256 = k.val; omega

theorem bias2 (n : Fin 50000) (j : Fin 128) : ReadP.val_main_v92 (F := Ideal) a7 (ix2 n j) = a7 (ix2 2 j) := by
  rw [ReadP.val_main_v92_apply, ReadP.val_main_v91_apply, ReadP.val_main_v90_apply, ReadP.val_main_v89_apply]
  refine congrArg a7 (funext fun a => Fin.ext ?_)
  have hj := j.isLt
  match a with
  | ⟨0, _⟩ => rfl
  | ⟨1, _⟩ => show j.val % 128 = j.val; omega

theorem catL2 (n : Fin 50000) (k : Fin 128) :
    ReadP.val_main_v84 (F := Ideal) a0 a1 a2 a4 a5 a6 a7 (ix2 n (colL k)) = ReadP.val_main_v71 (F := Ideal) a0 a1 a2 a4 a5 a6 a7 (ix2 n k) := by
  unfold ReadP.val_main_v84
  exact cat_left _ _ _ n k

theorem catR2 (n : Fin 50000) (k : Fin 128) :
    ReadP.val_main_v84 (F := Ideal) a0 a1 a2 a4 a5 a6 a7 (ix2 n (colR k))
      = ReadP.val_main_v81 (F := Ideal) a0 a1 a2 a4 a5 a6 a7 (ix2 n k) * ReadP.val_main_v13 (F := Ideal) a2 (ix2 n 0) := by
  unfold ReadP.val_main_v84
  rw [cat_right _ _ _ n k, ReadP.val_main_v83_apply, ReadP.val_main_v82_apply]
  refine congrArg (ReadP.val_main_v81 (F := Ideal) a0 a1 a2 a4 a5 a6 a7 (ix2 n k) * ReadP.val_main_v13 (F := Ideal) a2 ·) ?_
  exact funext fun a => Fin.ext (by match a with | ⟨0, _⟩ => rfl | ⟨1, _⟩ => rfl)

theorem pre2 (n : Fin 50000) (j : Fin 128) :
    ReadP.val_main_v93 (F := Ideal) a0 a1 a2 a4 a5 a6 a7 (ix2 n j)
      = preE (ReadP.val_main_v71 (F := Ideal) a0 a1 a2 a4 a5 a6 a7) (ReadP.val_main_v81 (F := Ideal) a0 a1 a2 a4 a5 a6 a7)
          (ReadP.val_main_v13 (F := Ideal) a2) (w1Of a6 2) (w2Of a6 2) (bOf a7 2) n j := by
  rw [ReadP.val_main_v93_apply, ReadP.val_main_v88_apply]
  have hl : ∀ k : Fin 256, ReadP.lidx_main_v88 (ix2 n j) k = ix2 n k := fun k =>
    funext fun a => Fin.ext (by match a with | ⟨0, _⟩ => rfl | ⟨1, _⟩ => rfl)
  have hr : ∀ k : Fin 256, ReadP.ridx_main_v88 (ix2 n j) k = ix2 k j := fun k =>
    funext fun a => Fin.ext (by match a with | ⟨0, _⟩ => rfl | ⟨1, _⟩ => rfl)
  simp only [hl, hr]
  exact preE_of _ _ _ a6 a7 2 _ _ _ (catL2 a0 a1 a2 a4 a5 a6 a7) (catR2 a0 a1 a2 a4 a5 a6 a7) (wt2 a6) (bias2 a7) n j

theorem layer2_eq :
    ReadP.val_main_v100 (F := Ideal) a0 a1 a2 a4 a5 a6 a7
      = layer (ReadP.val_main_v71 (F := Ideal) a0 a1 a2 a4 a5 a6 a7) (ReadP.val_main_v81 (F := Ideal) a0 a1 a2 a4 a5 a6 a7)
          (ReadP.val_main_v13 (F := Ideal) a2) a6 a7 2 := by
  funext i
  obtain ⟨n, j, rfl⟩ : ∃ (n : Fin 50000) (j : Fin 128), i = ix2 n j := ⟨i 0, i 1, eq_ix2 i⟩
  rw [ReadP.val_main_v100_apply, ReadP.val_main_v99_apply, ReadP.val_main_v98_apply, ReadP.val_main_v97_apply,
    ReadP.val_main_v96_apply, ReadP.val_main_v94_apply, ReadP.val_main_call4_v2_apply, ReadP.val_main_call4_v1_apply,
    ReadP.val_main_v95_apply, ReadP.val_main_cst_13_apply, ReadP.val_main_call4_cst_apply,
    ReadP.val_main_call5_v0_apply, ReadP.val_main_call5_cst_apply]
  have hk : ∀ k : Fin 128, ReadP.idx_main_call4_v1 (ReadP.idx_main_call4_v2 (ReadP.idx_main_v97 (ix2 n j))) k = ix2 n k :=
    fun k => funext fun a => Fin.ext (by match a with | ⟨0, _⟩ => rfl | ⟨1, _⟩ => rfl)
  simp only [hk, ReadP.val_main_call4_v0_apply]
  exact layerE_of _ _ _ _ _ _ _ (pre2 a0 a1 a2 a4 a5 a6 a7) n j

theorem nraw2 :
    ReadP.val_main_v81 (F := Ideal) a0 a1 a2 a4 a5 a6 a7 = nraw (ReadP.val_main_v71 (F := Ideal) a0 a1 a2 a4 a5 a6 a7) a1 a2 := by
  unfold ReadP.val_main_v81 ReadP.val_main_v80 ReadP.val_main_v79 ReadP.val_main_v78 ReadP.val_main_v77 ReadP.val_main_v76
    ReadP.val_main_v75 ReadP.val_main_v74 ReadP.val_main_v73 ReadP.val_main_v72 ReadP.val_main_c_10 ReadP.val_main_c_11
    ReadP.val_main_cst_12
  exact Cert.SpecHost.nraw_eq _ rfl rfl rfl rfl rfl _ rfl rfl rfl rfl _ _ _ _ a1 a2

end Layer2

end Cert.ReferenceIdeal.RefValue

end
-- ==== Proof.RefL3.lean ====
import proofs.«422288_j69166153335416_3_alg».proof.Proof.RefCore

noncomputable section

open scoped BigOperators

namespace Cert.ReferenceIdeal.RefValue

open Idealize.ShloMosaic Idealize.ShloMosaic.ValueIdx Cert.Spec Cert.ReferenceIdeal

section Layer3

variable (a0 : Vec Ideal S50000x128 .f32) (a1 a2 : Vec Ideal S600000 .i32) (a4 : Vec Ideal S128x128 .f32)
  (a5 : Vec Ideal S128 .f32) (a6 : Vec Ideal S4x128x256 .f32) (a7 : Vec Ideal S4x128 .f32)

theorem wt3 (k : Fin 256) (j : Fin 128) : ReadP.val_main_v116 (F := Ideal) a6 (ix2 k j) = a6 (ix3 3 j k) := by
  rw [ReadP.val_main_v116_apply, ReadP.val_main_v115_apply, ReadP.val_main_v114_apply]
  refine congrArg a6 (funext fun a => Fin.ext ?_)
  have hj := j.isLt; have hk := k.isLt
  match a with
  | ⟨0, _⟩ => rfl
  | ⟨1, _⟩ => show (j.val * 256 + k.val) / 256 % 128 = j.val; omega
  | ⟨2, _⟩ => show (j.val * 256 + k.val) % 256 = k.val; omega

theorem bias3 (n : Fin 50000) (j : Fin 128) : ReadP.val_main_v121 (F := Ideal) a7 (ix2 n j) = a7 (ix2 3 j) := by
  rw [ReadP.val_main_v121_apply, ReadP.val_main_v120_apply, ReadP.val_main_v119_apply, ReadP.val_main_v118_apply]
  refine congrArg a7 (funext fun a => Fin.ext ?_)
  have hj := j.isLt
  match a with
  | ⟨0, _⟩ => rfl
  | ⟨1, _⟩ => show j.val % 128 = j.val; omega

theorem catL3 (n : Fin 50000) (k : Fin 128) :
    ReadP.val_main_v113 (F := Ideal) a0 a1 a2 a4 a5 a6 a7 (ix2 n (colL k)) = ReadP.val_main_v100 (F := Ideal) a0 a1 a2 a4 a5 a6 a7 (ix2 n k) := by
  unfold ReadP.val_main_v113
  exact cat_left _ _ _ n k

theorem catR3 (n : Fin 50000) (k : Fin 128) :
    ReadP.val_main_v113 (F := Ideal) a0 a1 a2 a4 a5 a6 a7 (ix2 n (colR k))
      = ReadP.val_main_v110 (F := Ideal) a0 a1 a2 a4 a5 a6 a7 (ix2 n k) * ReadP.val_main_v13 (F := Ideal) a2 (ix2 n 0) := by
  unfold ReadP.val_main_v113
  rw [cat_right _ _ _ n k, ReadP.val_main_v112_apply, ReadP.val_main_v111_apply]
  refine congrArg (ReadP.val_main_v110 (F := Ideal) a0 a1 a2 a4 a5 a6 a7 (ix2 n k) * ReadP.val_main_v13 (F := Ideal) a2 ·) ?_
  exact funext fun a => Fin.ext (by match a with | ⟨0, _⟩ => rfl | ⟨1, _⟩ => rfl)

theorem pre3 (n : Fin 50000) (j : Fin 128) :
    ReadP.val_main_v122 (F := Ideal) a0 a1 a2 a4 a5 a6 a7 (ix2 n j)
      = preE (ReadP.val_main_v100 (F := Ideal) a0 a1 a2 a4 a5 a6 a7) (ReadP.val_main_v110 (F := Ideal) a0 a1 a2 a4 a5 a6 a7)
          (ReadP.val_main_v13 (F := Ideal) a2) (w1Of a6 3) (w2Of a6 3) (bOf a7 3) n j := by
  rw [ReadP.val_main_v122_apply, ReadP.val_main_v117_apply]
  have hl : ∀ k : Fin 256, ReadP.lidx_main_v117 (ix2 n j) k = ix2 n k := fun k =>
    funext fun a => Fin.ext (by match a with | ⟨0, _⟩ => rfl | ⟨1, _⟩ => rfl)
  have hr : ∀ k : Fin 256, ReadP.ridx_main_v117 (ix2 n j) k = ix2 k j := fun k =>
    funext fun a => Fin.ext (by match a with | ⟨0, _⟩ => rfl | ⟨1, _⟩ => rfl)
  simp only [hl, hr]
  exact preE_of _ _ _ a6 a7 3 _ _ _ (catL3 a0 a1 a2 a4 a5 a6 a7) (catR3 a0 a1 a2 a4 a5 a6 a7) (wt3 a6) (bias3 a7) n j

theorem layer3_eq :
    ReadP.val_main_v129 (F := Ideal) a0 a1 a2 a4 a5 a6 a7
      = layer (ReadP.val_main_v100 (F := Ideal) a0 a1 a2 a4 a5 a6 a7) (ReadP.val_main_v110 (F := Ideal) a0 a1 a2 a4 a5 a6 a7)
          (ReadP.val_main_v13 (F := Ideal) a2) a6 a7 3 := by
  funext i
  obtain ⟨n, j, rfl⟩ : ∃ (n : Fin 50000) (j : Fin 128), i = ix2 n j := ⟨i 0, i 1, eq_ix2 i⟩
  rw [ReadP.val_main_v129_apply, ReadP.val_main_v128_apply, ReadP.val_main_v127_apply, ReadP.val_main_v126_apply,
    ReadP.val_main_v125_apply, ReadP.val_main_v123_apply, ReadP.val_main_call6_v2_apply, ReadP.val_main_call6_v1_apply,
    ReadP.val_main_v124_apply, ReadP.val_main_cst_17_apply, ReadP.val_main_call6_cst_apply,
    ReadP.val_main_call7_v0_apply, ReadP.val_main_call7_cst_apply]
  have hk : ∀ k : Fin 128, ReadP.idx_main_call6_v1 (ReadP.idx_main_call6_v2 (ReadP.idx_main_v126 (ix2 n j))) k = ix2 n k :=
    fun k => funext fun a => Fin.ext (by match a with | ⟨0, _⟩ => rfl | ⟨1, _⟩ => rfl)
  simp only [hk, ReadP.val_main_call6_v0_apply]
  exact layerE_of _ _ _ _ _ _ _ (pre3 a0 a1 a2 a4 a5 a6 a7) n j

theorem nraw3 :
    ReadP.val_main_v110 (F := Ideal) a0 a1 a2 a4 a5 a6 a7 = nraw (ReadP.val_main_v100 (F := Ideal) a0 a1 a2 a4 a5 a6 a7) a1 a2 := by
  unfold ReadP.val_main_v110 ReadP.val_main_v109 ReadP.val_main_v108 ReadP.val_main_v107 ReadP.val_main_v106 ReadP.val_main_v105
    ReadP.val_main_v104 ReadP.val_main_v103 ReadP.val_main_v102 ReadP.val_main_v101 ReadP.val_main_c_14 ReadP.val_main_c_15
    ReadP.val_main_cst_16
  exact Cert.SpecHost.nraw_eq _ rfl rfl rfl rfl rfl _ rfl rfl rfl rfl _ _ _ _ a1 a2

end Layer3

end Cert.ReferenceIdeal.RefValue

end
-- ==== Proof.Ref1.lean ====
import proofs.«422288_j69166153335416_3_alg».proof.Proof.RefCore
import proofs.«422288_j69166153335416_3_alg».proof.Proof.RefL0
import proofs.«422288_j69166153335416_3_alg».proof.Proof.RefL1
import proofs.«422288_j69166153335416_3_alg».proof.Proof.RefL2
import proofs.«422288_j69166153335416_3_alg».proof.Proof.RefL3

noncomputable section

namespace Cert.ReferenceIdeal.RefValue

open Idealize.ShloMosaic Cert.Spec Cert.ReferenceIdeal

theorem nodes_eq (a0 : Vec Ideal S50000x128 .f32) (a1 a2 : Vec Ideal S600000 .i32) (a4 : Vec Ideal S128x128 .f32)
    (a5 : Vec Ideal S128 .f32) (a6 : Vec Ideal S4x128x256 .f32) (a7 : Vec Ideal S4x128 .f32) :
    ReadP.val_main_v129 (F := Ideal) a0 a1 a2 a4 a5 a6 a7 = nodes a0 a1 a2 a4 a5 a6 a7 4 le_rfl := by
  have e0 : ReadP.val_main_v4 (F := Ideal) a0 a4 a5 = nodes a0 a1 a2 a4 a5 a6 a7 0 (by omega) := x0_eq a0 a4 a5
  have e1 : ReadP.val_main_v42 (F := Ideal) a0 a1 a2 a4 a5 a6 a7 = nodes a0 a1 a2 a4 a5 a6 a7 1 (by omega) := by
    rw [layer0_eq, nraw0, inv13, e0]; rfl
  have e2 : ReadP.val_main_v71 (F := Ideal) a0 a1 a2 a4 a5 a6 a7 = nodes a0 a1 a2 a4 a5 a6 a7 2 (by omega) := by
    rw [layer1_eq, nraw1, inv13, e1]; rfl
  have e3 : ReadP.val_main_v100 (F := Ideal) a0 a1 a2 a4 a5 a6 a7 = nodes a0 a1 a2 a4 a5 a6 a7 3 (by omega) := by
    rw [layer2_eq, nraw2, inv13, e2]; rfl
  rw [layer3_eq, nraw3, inv13, e3]; rfl

end Cert.ReferenceIdeal.RefValue

end
-- ==== Proof.Ref2.lean ====
import proofs.«422288_j69166153335416_3_alg».proof.Proof.RefRead
import proofs.«422288_j69166153335416_3_alg».proof.Proof.Spec
import proofs.«422288_j69166153335416_3_alg».proof.Proof.SpecHost
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.StableHlo

theorem cnt_apply (a3 : (⟨S50000, .i32⟩ : BufTy).Contents (Elt Ideal)) (g : Fin 256) :
    val_main_v133 (F := Ideal) a3 (ix1 g) = Cert.Spec.cntR a3 g := by
  unfold val_main_v133 val_main_v131 val_main_v132 val_main_v130 val_main_cst_19 val_main_cst_18
  exact congrFun (Cert.SpecHost.cntR_eq _ rfl rfl rfl rfl _ _ _ a3) (ix1 g)

theorem sum_apply (a0 : (⟨S50000x128, .f32⟩ : BufTy).Contents (Elt Ideal)) (a1 a2 : (⟨S600000, .i32⟩ : BufTy).Contents (Elt Ideal)) (a3 : (⟨S50000, .i32⟩ : BufTy).Contents (Elt Ideal)) (a4 : (⟨S128x128, .f32⟩ : BufTy).Contents (Elt Ideal)) (a5 : (⟨S128, .f32⟩ : BufTy).Contents (Elt Ideal)) (a6 : (⟨S4x128x256, .f32⟩ : BufTy).Contents (Elt Ideal)) (a7 : (⟨S4x128, .f32⟩ : BufTy).Contents (Elt Ideal)) (g : Fin 256) (j : Fin 128) :
    val_main_v136 (F := Ideal) a0 a1 a2 a3 a4 a5 a6 a7 (ix2 g j) = Cert.Spec.sumR (val_main_v129 (F := Ideal) a0 a1 a2 a4 a5 a6 a7) a3 g j := by
  unfold val_main_v136 val_main_v134 val_main_v135 val_main_cst_20
  exact congrFun (Cert.SpecHost.sumR_eq _ rfl rfl rfl rfl _ _ (val_main_v129 (F := Ideal) a0 a1 a2 a4 a5 a6 a7) a3) (ix2 g j)

theorem mean_apply (a0 : (⟨S50000x128, .f32⟩ : BufTy).Contents (Elt Ideal)) (a1 a2 : (⟨S600000, .i32⟩ : BufTy).Contents (Elt Ideal)) (a3 : (⟨S50000, .i32⟩ : BufTy).Contents (Elt Ideal)) (a4 : (⟨S128x128, .f32⟩ : BufTy).Contents (Elt Ideal)) (a5 : (⟨S128, .f32⟩ : BufTy).Contents (Elt Ideal)) (a6 : (⟨S4x128x256, .f32⟩ : BufTy).Contents (Elt Ideal)) (a7 : (⟨S4x128, .f32⟩ : BufTy).Contents (Elt Ideal)) (g : Fin 256) (j : Fin 128) :
    val_main_v141 (F := Ideal) a0 a1 a2 a3 a4 a5 a6 a7 (ix2 g j) = Cert.Spec.meanR (val_main_v129 (F := Ideal) a0 a1 a2 a4 a5 a6 a7) a3 g j := by
  rw [val_main_v141_apply, val_main_v140_apply, val_main_v139_apply, val_main_v138_apply, val_main_v137_apply,
    val_main_cst_21_apply, sum_apply]
  have e : idx_main_v139 (idx_main_v140 (ix2 g j)) = ix1 g := by
    funext a; match a with | ⟨0, _⟩ => rfl
  rw [e, cnt_apply]
  show Ideal.div _ (max _ (Ideal.ofBits .f32 0x3F800000#32)) = _
  rw [Ideal.ofBits_one_f32]
  rfl

theorem prot_apply (a8 a9 : (⟨S10x128, .f32⟩ : BufTy).Contents (Elt Ideal)) (q : Fin 20) (j : Fin 128) :
    val_main_v142 (F := Ideal) a8 a9 (ix2 q j) = Cert.Spec.prot a8 a9 (ix2 q j) := by
  show _ = Cert.Spec.protE a8 a9 q j
  unfold val_main_v142 Cert.Spec.protE
  by_cases h : q.val < 10
  · rw [dif_pos h]
    exact concatenate_pair_apply_left 0 a8 a9 _ (ix2 q j) rfl (ix2 ⟨q.val, h⟩ j)
      (fun b => match b with | ⟨0, _⟩ => rfl | ⟨1, _⟩ => rfl)
  · rw [dif_neg h]
    exact concatenate_pair_apply_right 0 a8 a9 _ (ix2 q j) rfl rfl (ix2 ⟨q.val - 10, by omega⟩ j)
      (fun b hb => match b, hb with | ⟨0, _⟩, hb => absurd rfl hb | ⟨1, _⟩, _ => rfl)
      (by show q.val - 10 + 10 = q.val; omega)

theorem dist_apply (a0 : (⟨S50000x128, .f32⟩ : BufTy).Contents (Elt Ideal)) (a1 a2 : (⟨S600000, .i32⟩ : BufTy).Contents (Elt Ideal)) (a3 : (⟨S50000, .i32⟩ : BufTy).Contents (Elt Ideal)) (a4 : (⟨S128x128, .f32⟩ : BufTy).Contents (Elt Ideal)) (a5 : (⟨S128, .f32⟩ : BufTy).Contents (Elt Ideal)) (a6 : (⟨S4x128x256, .f32⟩ : BufTy).Contents (Elt Ideal)) (a7 : (⟨S4x128, .f32⟩ : BufTy).Contents (Elt Ideal)) (a8 a9 : (⟨S10x128, .f32⟩ : BufTy).Contents (Elt Ideal)) (g : Fin 256) (q : Fin 20) :
    val_main_v149 (F := Ideal) a0 a1 a2 a3 a4 a5 a6 a7 a8 a9 (ix2 g q)
      = Cert.Spec.distR (val_main_v129 (F := Ideal) a0 a1 a2 a4 a5 a6 a7) a3 (Cert.Spec.prot a8 a9) g q := by
  rw [val_main_v149_apply, val_main_cst_22_apply]
  show Ideal.ofBits .f32 0x00000000#32 + _ = 0 + _
  rw [Ideal.ofBits_zero_f32]
  refine congrArg (0 + ·) (Finset.sum_congr rfl fun k _ => ?_)
  have e3 : idx_main_v149 (ix2 g q) k = ix3 g q k := by
    funext a; match a with | ⟨0, _⟩ => rfl | ⟨1, _⟩ => rfl | ⟨2, _⟩ => rfl
  have e1 : idx_main_v143 (idx_main_v145 (ix3 g q k)) = ix2 g k := by
    funext a; match a with | ⟨0, _⟩ => rfl | ⟨1, _⟩ => rfl
  have e2 : idx_main_v144 (idx_main_v146 (ix3 g q k)) = ix2 q k := by
    funext a; match a with | ⟨0, _⟩ => rfl | ⟨1, _⟩ => rfl
  rw [e3, val_main_v148_apply, val_main_v147_apply, val_main_v145_apply, val_main_v143_apply, val_main_v146_apply,
    val_main_v144_apply, e1, e2, mean_apply, prot_apply]
  rfl

theorem score_apply (a0 : (⟨S50000x128, .f32⟩ : BufTy).Contents (Elt Ideal)) (a1 a2 : (⟨S600000, .i32⟩ : BufTy).Contents (Elt Ideal)) (a3 : (⟨S50000, .i32⟩ : BufTy).Contents (Elt Ideal)) (a4 : (⟨S128x128, .f32⟩ : BufTy).Contents (Elt Ideal)) (a5 : (⟨S128, .f32⟩ : BufTy).Contents (Elt Ideal)) (a6 : (⟨S4x128x256, .f32⟩ : BufTy).Contents (Elt Ideal)) (a7 : (⟨S4x128, .f32⟩ : BufTy).Contents (Elt Ideal)) (a8 a9 : (⟨S10x128, .f32⟩ : BufTy).Contents (Elt Ideal)) (g : Fin 256) (q : Fin 20) :
    val_main_v155 (F := Ideal) a0 a1 a2 a3 a4 a5 a6 a7 a8 a9 (ix2 g q)
      = Cert.Spec.score (Cert.Spec.distR (val_main_v129 (F := Ideal) a0 a1 a2 a4 a5 a6 a7) a3 (Cert.Spec.prot a8 a9) g q) := by
  rw [val_main_v155_apply, val_main_v154_apply, val_main_v151_apply, val_main_v153_apply, val_main_v150_apply,
    val_main_v152_apply, val_main_cst_23_apply, val_main_cst_24_apply, dist_apply]
  simp only [Ideal.hostUnary_log_def, Ideal.hostDivf_def, Ideal.addf_def, Ideal.ofBits_def, Ideal.ofBits_one_f32]
  rfl

theorem logit_apply (a0 : (⟨S50000x128, .f32⟩ : BufTy).Contents (Elt Ideal)) (a1 a2 : (⟨S600000, .i32⟩ : BufTy).Contents (Elt Ideal)) (a3 : (⟨S50000, .i32⟩ : BufTy).Contents (Elt Ideal)) (a4 : (⟨S128x128, .f32⟩ : BufTy).Contents (Elt Ideal)) (a5 : (⟨S128, .f32⟩ : BufTy).Contents (Elt Ideal)) (a6 : (⟨S4x128x256, .f32⟩ : BufTy).Contents (Elt Ideal)) (a7 : (⟨S4x128, .f32⟩ : BufTy).Contents (Elt Ideal)) (a8 a9 : (⟨S10x128, .f32⟩ : BufTy).Contents (Elt Ideal)) (a10 : (⟨S1x20, .f32⟩ : BufTy).Contents (Elt Ideal)) (g : Fin 256) :
    val_main_v157 (F := Ideal) a0 a1 a2 a3 a4 a5 a6 a7 a8 a9 a10 (ix2 g 0)
      = Cert.Spec.logitR (val_main_v129 (F := Ideal) a0 a1 a2 a4 a5 a6 a7) a3 (Cert.Spec.prot a8 a9) a10 g := by
  rw [val_main_v157_apply]
  unfold Cert.Spec.logitR
  refine Finset.sum_congr rfl fun k _ => ?_
  have e1 : lidx_main_v157 (ix2 g 0) k = ix2 g k := by
    funext a; match a with | ⟨0, _⟩ => rfl | ⟨1, _⟩ => rfl
  have e2 : idx_main_v156 (ridx_main_v157 (ix2 g (0 : Fin 1)) k) = ix2 0 k := by
    funext a; match a with | ⟨0, _⟩ => rfl | ⟨1, _⟩ => rfl
  rw [e1, score_apply, val_main_v156_apply, e2]

theorem head_eq (a0 : (⟨S50000x128, .f32⟩ : BufTy).Contents (Elt Ideal)) (a1 a2 : (⟨S600000, .i32⟩ : BufTy).Contents (Elt Ideal)) (a3 : (⟨S50000, .i32⟩ : BufTy).Contents (Elt Ideal)) (a4 : (⟨S128x128, .f32⟩ : BufTy).Contents (Elt Ideal)) (a5 : (⟨S128, .f32⟩ : BufTy).Contents (Elt Ideal)) (a6 : (⟨S4x128x256, .f32⟩ : BufTy).Contents (Elt Ideal)) (a7 : (⟨S4x128, .f32⟩ : BufTy).Contents (Elt Ideal)) (a8 a9 : (⟨S10x128, .f32⟩ : BufTy).Contents (Elt Ideal)) (a10 : (⟨S1x20, .f32⟩ : BufTy).Contents (Elt Ideal)) :
    val_main_v164 (F := Ideal) a0 a1 a2 a3 a4 a5 a6 a7 a8 a9 a10
      = Cert.Spec.headR (val_main_v129 (F := Ideal) a0 a1 a2 a4 a5 a6 a7) a3 (Cert.Spec.prot a8 a9) a10 := by
  funext i
  obtain ⟨g, rfl⟩ : ∃ g, i = ix1 g := ⟨i 0, eq_ix1 i⟩
  have e : idx_main_v164 (ix1 g) = ix2 g 0 := by
    funext a; match a with
    | ⟨0, _⟩ => exact Fin.ext (Nat.div_one _)
    | ⟨1, _⟩ => rfl
  rw [val_main_v164_apply, e, val_main_v163_apply, val_main_v162_apply, val_main_cst_26_apply, val_main_v161_apply,
    val_main_v160_apply, val_main_cst_25_apply, val_main_v159_apply, val_main_v158_apply, logit_apply]
  simp only [Ideal.hostDivf_def, Ideal.ofBits_def, Ideal.addf_def, Ideal.hostUnary_exp_def, Ideal.hostNegf_def,
    Ideal.negf_def, Ideal.ofBits_one_f32]
  rfl

end Cert.ReferenceIdeal.RefValue

end
-- ==== Proof.Ref.lean ====
import proofs.«422288_j69166153335416_3_alg».proof.Proof.Ref1
import proofs.«422288_j69166153335416_3_alg».proof.Proof.Ref2

noncomputable section

namespace Cert.ReferenceIdeal.RefValue

open Idealize.ShloMosaic Cert.ReferenceIdeal

theorem result_eq (a0 : Vec Ideal S50000x128 .f32) (a1 a2 : Vec Ideal S600000 .i32) (a3 : Vec Ideal S50000 .i32)
    (a4 : Vec Ideal S128x128 .f32) (a5 : Vec Ideal S128 .f32) (a6 : Vec Ideal S4x128x256 .f32)
    (a7 : Vec Ideal S4x128 .f32) (a8 a9 : Vec Ideal S10x128 .f32) (a10 : Vec Ideal S1x20 .f32) :
    ReadP.val_main_v164 (F := Ideal) a0 a1 a2 a3 a4 a5 a6 a7 a8 a9 a10
      = Cert.Spec.resultR a0 a1 a2 a3 a4 a5 a6 a7 a8 a9 a10 := by
  rw [head_eq, nodes_eq]
  rfl

end Cert.ReferenceIdeal.RefValue

end
-- ==== Proof.Alg1.lean ====
import Mathlib.Data.EReal.Basic
import Mathlib.Data.EReal.Operations
import Mathlib.Data.EReal.Inv
import Mathlib.Algebra.BigOperators.Group.Finset.Basic
import Mathlib.Algebra.Order.BigOperators.Group.Finset
import Mathlib.Tactic.NormNum
import Mathlib.Tactic.Positivity
import proofs.«422288_j69166153335416_3_alg».proof.Proof.Spec

open scoped BigOperators

namespace Cert.Spec

open Idealize.ShloMosaic Idealize.ShloMosaic.ValueIdx

def R (a : EReal) : Prop := a ≠ ⊤ ∧ a ≠ ⊥

theorem R_coe (r : ℝ) : R (r : EReal) := ⟨EReal.coe_ne_top r, EReal.coe_ne_bot r⟩

theorem R.eq_coe {a : EReal} (h : R a) : a = ((a.toReal : ℝ) : EReal) := (EReal.coe_toReal h.1 h.2).symm

theorem R_iff {a : EReal} : R a ↔ ∃ r : ℝ, a = (r : EReal) :=
  ⟨fun h => ⟨a.toReal, h.eq_coe⟩, fun ⟨r, hr⟩ => hr ▸ R_coe r⟩

theorem R_zero : R (0 : EReal) := R_coe 0

theorem R_one : R (1 : EReal) := R_coe 1

theorem R.add {a b : EReal} (ha : R a) (hb : R b) : R (a + b) := by
  obtain ⟨r, rfl⟩ := R_iff.1 ha
  obtain ⟨s, rfl⟩ := R_iff.1 hb
  rw [← EReal.coe_add]; exact R_coe _

theorem R.mul {a b : EReal} (ha : R a) (hb : R b) : R (a * b) := by
  obtain ⟨r, rfl⟩ := R_iff.1 ha
  obtain ⟨s, rfl⟩ := R_iff.1 hb
  rw [← EReal.coe_mul]; exact R_coe _

theorem R.sub {a b : EReal} (ha : R a) (hb : R b) : R (a - b) := by
  obtain ⟨r, rfl⟩ := R_iff.1 ha
  obtain ⟨s, rfl⟩ := R_iff.1 hb
  rw [← EReal.coe_sub]; exact R_coe _

theorem R.max {a b : EReal} (ha : R a) (hb : R b) : R (max a b) := by
  rcases max_choice a b with h | h <;> rw [h] <;> assumption

theorem R_sum {ι : Type*} (s : Finset ι) (f : ι → EReal) (h : ∀ i ∈ s, R (f i)) : R (∑ i ∈ s, f i) :=
  Finset.sum_induction f R (fun _ _ => R.add) R_zero h

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem R_div {a b : EReal} (ha : R a) (hb : R b) (h0 : b ≠ 0) : R (Ideal.div a b) := by
  obtain ⟨r, rfl⟩ := R_iff.1 ha
  obtain ⟨s, rfl⟩ := R_iff.1 hb
  have hs : s ≠ 0 := fun h => h0 (by rw [h]; rfl)
  rw [Ideal.div_coe hs, ← EReal.coe_mul]; exact R_coe _

theorem R_sqrt_sumsq {ι : Type*} (s : Finset ι) (f : ι → EReal) (h : ∀ i, R (f i)) :
    R (Ideal.sqrt (∑ i ∈ s, f i * f i)) := by
  have e : ∑ i ∈ s, f i * f i = ((∑ i ∈ s, (f i).toReal * (f i).toReal : ℝ) : EReal) := by
    rw [coe_sum]
    refine Finset.sum_congr rfl (fun i _ => ?_)
    rw [EReal.coe_mul, ← (h i).eq_coe]
  have h0 : ¬ (∑ i ∈ s, (f i).toReal * (f i).toReal : ℝ) < 0 :=
    not_lt.2 (Finset.sum_nonneg (fun i _ => mul_self_nonneg _))
  rw [e, Ideal.sqrt_coe, if_neg h0]; exact R_coe _

theorem eps_pos : ∃ r : ℝ, 0 < r ∧ Cert.Spec.eps = (r : EReal) := by
  refine ⟨9223372 * (2 ^ 63)⁻¹, by positivity, ?_⟩
  unfold eps
  simp [Ideal.ofBits, Ideal.ieee]

theorem R_eps : R eps := by
  obtain ⟨r, _, h⟩ := eps_pos
  rw [h]; exact R_coe r

theorem eps_pos' : (0 : EReal) < eps := by
  obtain ⟨r, hr, h⟩ := eps_pos
  rw [h]; exact_mod_cast hr

theorem isReal_embed {h : Arr sNH} {W : Arr sHH} {b : Arr sH} (hh : IsReal h) (hW : IsReal W) (hb : IsReal b) :
    IsReal (embed h W b) := fun i =>
  show R (embedE h W b (i 0) (i 1)) from
    (R_sum _ _ (fun k _ => R.mul (hh _) (hW _))).add (hb _)

theorem R_degE (dst : IArr sE) (n : Fin 50000) : R (degE dst n) :=
  R_zero.add (R_sum _ _ (fun _ _ => R_one))

theorem isReal_inv (dst : IArr sE) : IsReal (inv dst) := fun i =>
  show R (invE dst (i 0)) from
    R_div R_one (R.max (R_degE dst _) R_one)
      (lt_of_lt_of_le zero_lt_one (le_max_right _ _)).ne'

theorem isReal_nraw {x : Arr sNH} {src dst : IArr sE} (hx : IsReal x) : IsReal (nraw x src dst) := fun i =>
  show R (nrawE x src dst (i 0) (i 1)) from
    R_zero.add (R_sum _ _ (fun _ _ => hx _))

theorem R_preE {x nr : Arr sNH} {iv : Arr sN1} {w1 w2 : Arr sHH} {b : Arr sH}
    (hx : IsReal x) (hnr : IsReal nr) (hiv : IsReal iv) (hw1 : IsReal w1) (hw2 : IsReal w2) (hb : IsReal b)
    (n : Fin 50000) (j : Fin 128) : R (preE x nr iv w1 w2 b n j) :=
  ((R_sum _ _ (fun _ _ => R.mul (hx _) (hw1 _))).add
    (R_sum _ _ (fun _ _ => R.mul (R.mul (hnr _) (hiv _)) (hw2 _)))).add (hb _)

theorem R_normE {x nr : Arr sNH} {iv : Arr sN1} {w1 w2 : Arr sHH} {b : Arr sH}
    (hx : IsReal x) (hnr : IsReal nr) (hiv : IsReal iv) (hw1 : IsReal w1) (hw2 : IsReal w2) (hb : IsReal b)
    (n : Fin 50000) : R (normE x nr iv w1 w2 b n) :=
  R_sqrt_sumsq _ _ (fun j => R_preE hx hnr hiv hw1 hw2 hb n j)

theorem isReal_layerW {x nr : Arr sNH} {iv : Arr sN1} {w1 w2 : Arr sHH} {b : Arr sH}
    (hx : IsReal x) (hnr : IsReal nr) (hiv : IsReal iv) (hw1 : IsReal w1) (hw2 : IsReal w2) (hb : IsReal b) :
    IsReal (layerW x nr iv w1 w2 b) := fun i =>
  show R (layerE x nr iv w1 w2 b (i 0) (i 1)) from
    R.add (hx _) (R.max
      (R_div (R_preE hx hnr hiv hw1 hw2 hb _ _) (R.max (R_normE hx hnr hiv hw1 hw2 hb _) R_eps)
        (lt_of_lt_of_le eps_pos' (le_max_right _ _)).ne')
      R_zero)

theorem isReal_w1Of {W : Arr sW} (hW : IsReal W) (l : Fin 4) : IsReal (w1Of W l) := fun _ => hW _

theorem isReal_w2Of {W : Arr sW} (hW : IsReal W) (l : Fin 4) : IsReal (w2Of W l) := fun _ => hW _

theorem isReal_bOf {B : Arr sB} (hB : IsReal B) (l : Fin 4) : IsReal (bOf B l) := fun _ => hB _

theorem isReal_prot {pp pn : Arr sP} (hpp : IsReal pp) (hpn : IsReal pn) : IsReal (prot pp pn) := fun i => by
  show R (protE pp pn (i 0) (i 1))
  unfold protE
  split
  · exact hpp _
  · exact hpn _

theorem isReal_nodes {h : Arr sNH} {src dst : IArr sE} {We : Arr sHH} {be : Arr sH} {W : Arr sW} {B : Arr sB}
    (hh : IsReal h) (hWe : IsReal We) (hbe : IsReal be) (hW : IsReal W) (hB : IsReal B) (k : ℕ) (hk : k ≤ 4) :
    IsReal (nodes h src dst We be W B k hk) := by
  induction k with
  | zero => exact isReal_embed hh hWe hbe
  | succ k ih =>
    have hx := ih (Nat.le_of_succ_le hk)
    exact isReal_layerW hx (isReal_nraw hx) (isReal_inv dst) (isReal_w1Of hW _) (isReal_w2Of hW _) (isReal_bOf hB _)

end Cert.Spec
-- ==== Proof.Alg.lean ====
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Data.Fintype.BigOperators
import Mathlib.Tactic.Ring
import Mathlib.Tactic.NormNum
import proofs.«422288_j69166153335416_3_alg».proof.Proof.Spec
import proofs.«422288_j69166153335416_3_alg».proof.Proof.Alg1

open scoped BigOperators

namespace Cert.Spec

open Idealize.ShloMosaic Idealize.ShloMosaic.ValueIdx

theorem word_eq_iff (w : BitVec 32) (g : Fin 256) : w = BitVec.ofNat 32 g.val ↔ w.toInt = (g.val : Int) := by
  have hg : (BitVec.ofNat 32 g.val).toInt = (g.val : Int) := by
    have := g.isLt
    simp only [BitVec.toInt, BitVec.toNat_ofNat]
    omega
  rw [← hg, BitVec.toInt_inj]

theorem hot_mul (gid : IArr sN) (n : Fin 50000) (g : Fin 256) (a : EReal) :
    hot gid n g * a = if (gid (ix1 n)).toInt = (g.val : Int) then a else 0 := by
  unfold hot
  by_cases h : (gid (ix1 n)).toInt = (g.val : Int)
  · rw [if_pos ((word_eq_iff _ _).2 h), if_pos h, one_mul]
  · rw [if_neg (fun h' => h ((word_eq_iff _ _).1 h')), if_neg h, zero_mul]

def nodeEquiv : Fin 10 × Fin 5000 ≃ Fin 50000 where
  toFun p := nodeAt p.1 p.2
  invFun n := (⟨n.val / 5000, by omega⟩, ⟨n.val % 5000, Nat.mod_lt _ (by norm_num)⟩)
  left_inv p := by
    rcases p with ⟨t, r⟩
    have ht := t.isLt
    have hr := r.isLt
    refine Prod.ext (Fin.ext ?_) (Fin.ext ?_)
    · show (5000 * t.val + r.val) / 5000 = t.val
      omega
    · show (5000 * t.val + r.val) % 5000 = r.val
      omega
  right_inv n := by
    refine Fin.ext ?_
    show 5000 * (n.val / 5000) + n.val % 5000 = n.val
    omega

theorem sum_blocks {M : Type*} [AddCommMonoid M] (f : Fin 50000 → M) :
    ∑ t : Fin 10, ∑ r : Fin 5000, f (nodeAt t r) = ∑ n : Fin 50000, f n := by
  rw [← Fintype.sum_prod_type' (fun t r => f (nodeAt t r))]
  exact Fintype.sum_equiv nodeEquiv _ _ (fun _ => rfl)

theorem sumK_eq_sumR (x : Arr sNH) (gid : IArr sN) (g : Fin 256) (j : Fin 128) :
    sumK x gid g j = sumR x gid g j := by
  unfold sumK sumR members
  refine (sum_blocks (fun n => hot gid n g * x (ix2 n j))).trans ?_
  rw [zero_add, Finset.sum_filter]
  exact Finset.sum_congr rfl (fun n _ => hot_mul gid n g _)

theorem cntK_eq_cntR (gid : IArr sN) (g : Fin 256) : cntK gid g = cntR gid g := by
  unfold cntK cntR members
  refine (sum_blocks (fun n => hot gid n g * 1)).trans ?_
  rw [zero_add, Finset.sum_filter]
  exact Finset.sum_congr rfl (fun n _ => hot_mul gid n g _)

theorem meanK_eq_meanR (x : Arr sNH) (gid : IArr sN) (g : Fin 256) (j : Fin 128) :
    meanK x gid g j = meanR x gid g j := by
  unfold meanK meanR
  rw [sumK_eq_sumR, cntK_eq_cntR]

theorem R_meanR {x : Arr sNH} (hx : IsReal x) (gid : IArr sN) (g : Fin 256) (j : Fin 128) :
    R (meanR x gid g j) :=
  R_div (R_zero.add (R_sum _ _ (fun _ _ => hx _)))
    (R.max (R_zero.add (R_sum _ _ (fun _ _ => R_one))) R_one)
    (lt_of_lt_of_le zero_lt_one (le_max_right _ _)).ne'

theorem real_dist_expand {ι : Type*} (s : Finset ι) (A P : ι → ℝ) :
    ((∑ j ∈ s, A j * A j) + (∑ j ∈ s, P j * P j)) - 2 * (∑ j ∈ s, A j * P j)
      = ∑ j ∈ s, (A j - P j) * (A j - P j) := by
  rw [Finset.mul_sum, ← Finset.sum_add_distrib, ← Finset.sum_sub_distrib]
  exact Finset.sum_congr rfl (fun j _ => by ring)

theorem dist_expand (a p : Fin 128 → EReal) (ha : ∀ j, R (a j)) (hp : ∀ j, R (p j)) :
    max (((∑ j : Fin 128, a j * a j) + (∑ j : Fin 128, p j * p j)) - 2 * (∑ j : Fin 128, a j * p j)) 0
      = 0 + ∑ j : Fin 128, (a j - p j) * (a j - p j) := by
  have ea : ∀ j, a j = (((a j).toReal : ℝ) : EReal) := fun j => (ha j).eq_coe
  have ep : ∀ j, p j = (((p j).toReal : ℝ) : EReal) := fun j => (hp j).eq_coe
  have e1 : ∑ j : Fin 128, a j * a j = ((∑ j : Fin 128, (a j).toReal * (a j).toReal : ℝ) : EReal) := by
    rw [coe_sum]; exact Finset.sum_congr rfl (fun j _ => by rw [EReal.coe_mul, ← ea j])
  have e2 : ∑ j : Fin 128, p j * p j = ((∑ j : Fin 128, (p j).toReal * (p j).toReal : ℝ) : EReal) := by
    rw [coe_sum]; exact Finset.sum_congr rfl (fun j _ => by rw [EReal.coe_mul, ← ep j])
  have e3 : ∑ j : Fin 128, a j * p j = ((∑ j : Fin 128, (a j).toReal * (p j).toReal : ℝ) : EReal) := by
    rw [coe_sum]; exact Finset.sum_congr rfl (fun j _ => by rw [EReal.coe_mul, ← ea j, ← ep j])
  have e4 : ∑ j : Fin 128, (a j - p j) * (a j - p j)
      = ((∑ j : Fin 128, ((a j).toReal - (p j).toReal) * ((a j).toReal - (p j).toReal) : ℝ) : EReal) := by
    rw [coe_sum]
    exact Finset.sum_congr rfl (fun j _ => by rw [EReal.coe_mul, EReal.coe_sub, ← ea j, ← ep j])
  have two : (2 : EReal) = ((2 : ℝ) : EReal) := rfl
  rw [e1, e2, e3, e4, two, ← EReal.coe_add, ← EReal.coe_mul, ← EReal.coe_sub, zero_add, real_dist_expand]
  exact max_eq_left (EReal.coe_nonneg.2 (Finset.sum_nonneg (fun j _ => mul_self_nonneg _)))

theorem distK_eq_distR (x : Arr sNH) (gid : IArr sN) (p : Arr sPP) (g : Fin 256) (q : Fin 20)
    (hx : IsReal x) (hp : IsReal p) : distK x gid p g q = distR x gid p g q := by
  unfold distK distR
  simp only [meanK_eq_meanR]
  exact dist_expand (fun j => meanR x gid g j) (fun j => p (ix2 q j)) (fun j => R_meanR hx gid g j) (fun j => hp _)

theorem logitK_eq_logitR (x : Arr sNH) (gid : IArr sN) (p : Arr sPP) (wf : Arr sF) (g : Fin 256)
    (hx : IsReal x) (hp : IsReal p) : logitK x gid p wf g = logitR x gid p wf g := by
  unfold logitK logitR
  exact Finset.sum_congr rfl (fun q _ => by rw [distK_eq_distR x gid p g q hx hp])

theorem headK_eq_headR (x : Arr sNH) (gid : IArr sN) (p : Arr sPP) (wf : Arr sF)
    (hx : IsReal x) (hp : IsReal p) : headK x gid p wf = headR x gid p wf := by
  funext i
  unfold headK headR Ideal.logistic
  rw [logitK_eq_logitR x gid p wf (i 0) hx hp]

theorem resultK_eq_resultR (h : Arr sNH) (src dst : IArr sE) (gid : IArr sN) (We : Arr sHH) (be : Arr sH)
    (W : Arr sW) (B : Arr sB) (pp pn : Arr sP) (wf : Arr sF)
    (hh : IsReal h) (hWe : IsReal We) (hbe : IsReal be) (hW : IsReal W) (hB : IsReal B)
    (hpp : IsReal pp) (hpn : IsReal pn) :
    resultK h src dst gid We be W B pp pn wf = resultR h src dst gid We be W B pp pn wf :=
  headK_eq_headR _ gid _ wf (isReal_nodes hh hWe hbe hW hB 4 le_rfl) (isReal_prot hpp hpn)

end Cert.Spec
-- ==== Proof.Fin.lean ====
import proofs.«422288_j69166153335416_3_alg».proof.Pre_finite_inputs
import proofs.«422288_j69166153335416_3_alg».proof.Proof.Gen.Pre_finite_inputs
import proofs.«422288_j69166153335416_3_alg».proof.Proof.Spec
import Idealize.ShloMosaic.Lib.ReduceAll
import Idealize.ShloMosaic.PureOps.Ideal
import Idealize.ShloMosaic.PureOps.Ideal.Laws

noncomputable section

namespace Cert.Fin

open Idealize.ShloMosaic

theorem ofBits_inf : Ideal.ofBits .f32 0x7F800000#32 = (⊤ : EReal) := by simp [Ideal.ofBits, Ideal.ieee]

theorem real_of_abs_lt_top (x : EReal) (h : max x (-x) < ⊤) : x ≠ ⊤ ∧ x ≠ ⊥ := by
  rw [max_lt_iff] at h
  refine ⟨ne_of_lt h.1, ?_⟩
  rintro rfl
  simp at h

theorem ofBool_eq_one (b : Bool) : BitVec.ofBool b = 1#1 ↔ b = true := by cases b <;> decide

theorem real_of_cmp (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have h' : Ideal.cmp .olt (max (x : EReal) (-(x : EReal))) (Ideal.ofBits .f32 0x7F800000#32) = 1#1 := h
  rw [ofBits_inf] at h'
  simp only [Ideal.cmp, ofBool_eq_one, decide_eq_true_eq] at h'
  exact real_of_abs_lt_top x h'

theorem isReal_of_all {s t u v : Shape} [Subsingleton t.Idx] {axes : List (Fin s.rank)} {dims : Fin u.rank → Fin s.rank}
    (a : FVec Ideal s .f32) (hb : u.BroadcastsInDim s dims) (init : IVec v 1) (hr : s.ReducesTo axes t) (hv : 0 < v.numel)
    (j : t.Idx)
    (e : Host.reduce IntOp.andi
          (cmpf .olt (Host.absf a) (broadcastInDim s dims hb (constant (F := Ideal) u .f32 0x7F800000#32))) init hr hv j = 1#1) :
    Cert.Spec.IsReal a := by
  intro i
  exact real_of_cmp (a i) (Host.reduce_andi_all _ init hr hv j e i)

instance : Subsingleton Cert.Pre_finite_inputs.S_.Idx := ⟨fun a b => funext fun d => d.elim0⟩

theorem andi_apply {s : Shape} {w : Nat} (x y : IVec s w) (i : s.Idx) : andi x y i = IntOp.andi (x i) (y i) := rfl

open Cert.Pre_finite_inputs in

theorem isReal_of_pre [Cert.Pre_finite_inputs.Facts] (a0 : FVec Ideal S50000x128 .f32) (a1 a2 : IVec S600000 32)
    (a3 : IVec S50000 32) (a4 : FVec Ideal S128x128 .f32) (a5 : FVec Ideal S128 .f32) (a6 : FVec Ideal S4x128x256 .f32)
    (a7 : FVec Ideal S4x128 .f32) (a8 a9 : FVec Ideal S10x128 .f32) (a10 : FVec Ideal S1x20 .f32)
    (h : Cert.Pre_finite_inputs.fn (F := Ideal) a0 a1 a2 a3 a4 a5 a6 a7 a8 a9 a10 = fun _ => 1#1) :
    Cert.Spec.IsReal a0 ∧ Cert.Spec.IsReal a4 ∧ Cert.Spec.IsReal a5 ∧ Cert.Spec.IsReal a6 ∧ Cert.Spec.IsReal a7
      ∧ Cert.Spec.IsReal a8 ∧ Cert.Spec.IsReal a9 ∧ Cert.Spec.IsReal a10 := by
  have h0 := congrFun h ValueIdx.ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨e0, e4⟩, e5⟩, e6⟩, e7⟩, e8⟩, e9⟩, e10⟩ := h0
  exact ⟨isReal_of_all a0 _ _ _ _ _ e0, isReal_of_all a4 _ _ _ _ _ e4, isReal_of_all a5 _ _ _ _ _ e5,
    isReal_of_all a6 _ _ _ _ _ e6, isReal_of_all a7 _ _ _ _ _ e7, isReal_of_all a8 _ _ _ _ _ e8,
    isReal_of_all a9 _ _ _ _ _ e9, isReal_of_all a10 _ _ _ _ _ e10⟩

end Cert.Fin

end
-- ==== Proof.lean ====
import proofs.«422288_j69166153335416_3_alg».proof.Defs
import proofs.«422288_j69166153335416_3_alg».proof.Proof.Gen.Kernel
import proofs.«422288_j69166153335416_3_alg».proof.Proof.Gen.KernelIdeal
import proofs.«422288_j69166153335416_3_alg».proof.Proof.Gen.ReferenceIdeal
import proofs.«422288_j69166153335416_3_alg».proof.Proof.Gen.Pre_finite_inputs
import proofs.«422288_j69166153335416_3_alg».proof.Proof.K.Run
import proofs.«422288_j69166153335416_3_alg».proof.Proof.KI.Run
import proofs.«422288_j69166153335416_3_alg».proof.Proof.KI.Value
import proofs.«422288_j69166153335416_3_alg».proof.Proof.RefVal
import proofs.«422288_j69166153335416_3_alg».proof.Proof.Ref
import proofs.«422288_j69166153335416_3_alg».proof.Proof.Alg
import proofs.«422288_j69166153335416_3_alg».proof.Proof.Fin

noncomputable section

namespace Cert.Proof

open Idealize.ShloMosaic Idealize.ShloMosaic.TcCoe Idealize.SL.Sem

/-- The word-level program runs to the end and keeps its arguments: its run, with the result dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_res (F := Bits) m ρ)

/-- So does its reading over the extended reals. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_res (F := Ideal) m ρ)

/-- The reference is a list of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Both programs end at the specification's result of the arguments; the two forms of the head (squared distance expanded and
    clamped, or summed term by term) agree because finite inputs keep every entry of the node table a real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Hand.run_res (F := Ideal) m ρ)
    exact ⟨(h c).1.trans (Cert.KernelIdeal.Val.value m ρ c), (h c).2⟩
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10⟩ := hagree c
    rw [h0, h1, h2, h3, h4, h5, h6, h7, h8, h9, h10, Cert.ReferenceIdeal.RefValue.result_eq]
    obtain ⟨r0, r4, r5, r6, r7, r8, r9, _⟩ := Cert.Fin.isReal_of_pre _ _ _ _ _ _ _ _ _ _ _ (hpre c)
    exact (Cert.Spec.resultK_eq_resultR _ _ _ _ _ _ _ _ _ _ _ r0 r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
